-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x64 : Shape := ⟨3, ![16, 256, 64]⟩
abbrev S32x128 : Shape := ⟨2, ![32, 128]⟩
abbrev S32 : Shape := ⟨1, ![32]⟩
abbrev S32x32 : Shape := ⟨2, ![32, 32]⟩
abbrev S2x32 : Shape := ⟨2, ![2, 32]⟩
abbrev S2 : Shape := ⟨1, ![2]⟩
abbrev S16x128 : Shape := ⟨2, ![16, 128]⟩
abbrev S16 : Shape := ⟨1, ![16]⟩
abbrev S64x16 : Shape := ⟨2, ![64, 16]⟩
abbrev S64 : Shape := ⟨1, ![64]⟩
abbrev S_ : Shape := ⟨0, ![]⟩

class Facts : Prop where
  bcast_S_S16x256x64 : S_.BroadcastsInDim S16x256x64 (![] : Fin 0 → Fin S16x256x64.rank)
  reducesTo_S16x256x64_S_d0_1_2 : S16x256x64.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg11 : FVec F S16 .f32) (main_arg12 : FVec F S16 .f32) (main_arg13 : FVec F S64x16 .f32) (main_arg14 : FVec F S64 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S64x16 .f32 := Host.absf main_arg13
  let main_cst_24 : FVec F S_ .f32 := constant S_ .f32 0x7F800000#32
  let main_v65 : FVec F S64x16 .f32 := broadcastInDim S64x16 ![] bcast_S_S64x16 main_cst_24
  let main_v66 : IVec S64x16 1 := cmpf .olt main_v64 main_v65
  let main_c_25 : IVec S_ 1 := constantI S_ 1 1#1
  let main_v67 : IVec S_ 1 := (fun x v => Host.reduce IntOp.andi x v reducesTo_S64x16_S_d0_1 h_S_) main_v66 main_c_25
  fn_part4 (F := F) main_arg14 main_v63 main_v67

def fn_part2 {F : FTy → Type} [FloatOps F] (main_arg7 : FVec F S2x32 .f32) (main_arg8 : FVec F S2 .f32) (main_arg9 : FVec F S16x128 .f32) (main_arg10 : FVec F S16 .f32) (main_arg11 : FVec F S16 .f32) (main_arg12 : FVec F S16 .f32) (main_arg13 : FVec F S64x16 .f32) (main_arg14 : FVec F S64 .f32) (main_v33 : IVec S_ 1) : IVec S_ 1 :=
  let main_v34 : FVec F S2x32 .f32 := Host.absf main_arg7
  let main_cst_12 : FVec F S_ .f32 := constant S_ .f32 0x7F800000#32
  let main_v35 : FVec F S2x32 .f32 := broadcastInDim S2x32 ![] bcast_S_S2x32 main_cst_12
  let main_v36 : IVec S2x32 1 := cmpf .olt main_v34 main_v35
  let main_c_13 : IVec S_ 1 := constantI S_ 1 1#1
  let main_v37 : IVec S_ 1 := (fun x v => Host.reduce IntOp.andi x v reducesTo_S2x32_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S16x128 .f32 := Host.absf main_arg9
  let main_cst_16 : FVec F S_ .f32 := constant S_ .f32 0x7F800000#32
  let main_v45 : FVec F S16x128 .f32 := broadcastInDim S16x128 ![] bcast_S_S16x128 main_cst_16
  let main_v46 : IVec S16x128 1 := cmpf .olt main_v44 main_v45
  let main_c_17 : IVec S_ 1 := constantI S_ 1 1#1
  let main_v47 : IVec S_ 1 := (fun x v => Host.reduce IntOp.andi x v reducesTo_S16x128_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_arg14 main_v48 main_v49 main_v50

def fn_part1 {F : FTy → Type} [FloatOps F] (main_arg4 : FVec F S32 .f32) (main_arg5 : FVec F S32x32 .f32) (main_arg6 : FVec F S32 .f32) (main_arg7 : FVec F S2x32 .f32) (main_arg8 : FVec F S2 .f32) (main_arg9 : FVec F S16x128 .f32) (main_arg10 : FVec F S16 .f32) (main_arg11 : FVec F S16 .f32) (main_arg12 : FVec F S16 .f32) (main_arg13 : FVec F S64x16 .f32) (main_arg14 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16x256x64 .f32) (main_arg1 : FVec F S32x128 .f32) (main_arg2 : FVec F S32 .f32) (main_arg3 : FVec F S32 .f32) (main_arg4 : FVec F S32 .f32) (main_arg5 : FVec F S32x32 .f32) (main_arg6 : FVec F S32 .f32) (main_arg7 : FVec F S2x32 .f32) (main_arg8 : FVec F S2 .f32) (main_arg9 : FVec F S16x128 .f32) (main_arg10 : FVec F S16 .f32) (main_arg11 : FVec F S16 .f32) (main_arg12 : FVec F S16 .f32) (main_arg13 : FVec F S64x16 .f32) (main_arg14 : FVec F S64 .f32) : IVec S_ 1 :=
  let main_v0 : FVec F S16x256x64 .f32 := Host.absf main_arg0
  let main_cst : FVec F S_ .f32 := constant S_ .f32 0x7F800000#32
  let main_v1 : FVec F S16x256x64 .f32 := broadcastInDim S16x256x64 ![] bcast_S_S16x256x64 main_cst
  let main_v2 : IVec S16x256x64 1 := cmpf .olt main_v0 main_v1
  let main_c : IVec S_ 1 := constantI S_ 1 1#1
  let main_v3 : IVec S_ 1 := (fun x v => Host.reduce IntOp.andi x v reducesTo_S16x256x64_S_d0_1_2 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16x256x64 : Shape := ⟨3, ![16, 256, 64]⟩
abbrev S32x128 : Shape := ⟨2, ![32, 128]⟩
abbrev S32 : Shape := ⟨1, ![32]⟩
abbrev S32x32 : Shape := ⟨2, ![32, 32]⟩
abbrev S2x32 : Shape := ⟨2, ![2, 32]⟩
abbrev S2 : Shape := ⟨1, ![2]⟩
abbrev S16x128 : Shape := ⟨2, ![16, 128]⟩
abbrev S16 : Shape := ⟨1, ![16]⟩
abbrev S64x16 : Shape := ⟨2, ![64, 16]⟩
abbrev S64 : Shape := ⟨1, ![64]⟩
abbrev S32x64 : Shape := ⟨2, ![32, 64]⟩
abbrev S1x32 : Shape := ⟨2, ![1, 32]⟩
abbrev S1x2 : Shape := ⟨2, ![1, 2]⟩
abbrev S1x16 : Shape := ⟨2, ![1, 16]⟩
abbrev S1x64 : Shape := ⟨2, ![1, 64]⟩
abbrev S1x64x64 : Shape := ⟨3, ![1, 64, 64]⟩
abbrev S1x256x64 : Shape := ⟨3, ![1, 256, 64]⟩
abbrev S64x64 : Shape := ⟨2, ![64, 64]⟩
abbrev S256x64 : Shape := ⟨2, ![256, 64]⟩
abbrev S64x32 : Shape := ⟨2, ![64, 32]⟩
abbrev S256x32 : Shape := ⟨2, ![256, 32]⟩
abbrev S64x1x32 : Shape := ⟨3, ![64, 1, 32]⟩
abbrev S1x256x32 : Shape := ⟨3, ![1, 256, 32]⟩
abbrev S64x256x32 : Shape := ⟨3, ![64, 256, 32]⟩
abbrev S1x1x32 : Shape := ⟨3, ![1, 1, 32]⟩
abbrev S_ : Shape := ⟨0, ![]⟩
abbrev S16x256x256 : Shape := ⟨3, ![16, 256, 256]⟩
abbrev S16x256x16 : Shape := ⟨3, ![16, 256, 16]⟩
abbrev S1x64x256 : Shape := ⟨3, ![1, 64, 256]⟩
abbrev S1x64x16 : Shape := ⟨3, ![1, 64, 16]⟩
abbrev S16384x32 : Shape := ⟨2, ![16384, 32]⟩
abbrev S32x2 : Shape := ⟨2, ![32, 2]⟩
abbrev S16384x2 : Shape := ⟨2, ![16384, 2]⟩
abbrev S16384x1 : Shape := ⟨2, ![16384, 1]⟩
abbrev S16384 : Shape := ⟨1, ![16384]⟩
abbrev S64x256 : Shape := ⟨2, ![64, 256]⟩
abbrev S64x4x64 : Shape := ⟨3, ![64, 4, 64]⟩
abbrev S64x128 : Shape := ⟨2, ![64, 128]⟩
abbrev S128x16 : Shape := ⟨2, ![128, 16]⟩
abbrev S1x256x16 : Shape := ⟨3, ![1, 256, 16]⟩
abbrev S256x16 : Shape := ⟨2, ![256, 16]⟩
abbrev S16x64 : Shape := ⟨2, ![16, 64]⟩
abbrev S16x65536 : Shape := ⟨2, ![16, 65536]⟩

abbrev nBuf : Space → Nat
  | .hbm => 50
  | .vmem => 42
  | .smem => 0
  | _ => 0

abbrev bufTy : (tb : Table) → Fin (tcTables nBuf tb) → BufTy
  | .hbm, ⟨0, _⟩ => ⟨S16x256x64, .f32⟩
  | .hbm, ⟨1, _⟩ => ⟨S32x128, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S2x32, .f32⟩
  | .hbm, ⟨8, _⟩ => ⟨S2, .f32⟩
  | .hbm, ⟨9, _⟩ => ⟨S16x128, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S64x16, .f32⟩
  | .hbm, ⟨14, _⟩ => ⟨S64, .f32⟩
  | .hbm, ⟨15, _⟩ => ⟨S32x64, .f32⟩
  | .hbm, ⟨16, _⟩ => ⟨S32x64, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S1x32, .f32⟩
  | .hbm, ⟨21, _⟩ => ⟨S1x2, .f32⟩
  | .hbm, ⟨22, _⟩ => ⟨S1x16, .f32⟩
  | .hbm, ⟨23, _⟩ => ⟨S1x16, .f32⟩
  | .hbm, ⟨24, _⟩ => ⟨S1x16, .f32⟩
  | .hbm, ⟨25, _⟩ => ⟨S1x64, .f32⟩
  | .hbm, ⟨26, _⟩ => ⟨S1x32, .f32⟩
  | .hbm, ⟨27, _⟩ => ⟨S1x32, .f32⟩
  | .hbm, ⟨28, _⟩ => ⟨S_, .f32⟩
  | .hbm, ⟨29, _⟩ => ⟨S1x32, .f32⟩
  | .hbm, ⟨30, _⟩ => ⟨S1x32, .f32⟩
  | .hbm, ⟨31, _⟩ => ⟨S_, .f32⟩
  | .hbm, ⟨32, _⟩ => ⟨S1x32, .f32⟩
  | .hbm, ⟨33, _⟩ => ⟨S1x32, .f32⟩
  | .hbm, ⟨34, _⟩ => ⟨S1x32, .f32⟩
  | .hbm, ⟨35, _⟩ => ⟨S1x32, .f32⟩
  | .hbm, ⟨36, _⟩ => ⟨S16x256x256, .f32⟩
  | .hbm, ⟨37, _⟩ => ⟨S16x256x16, .f32⟩
  | .hbm, ⟨38, _⟩ => ⟨S1x16, .f32⟩
  | .hbm, ⟨39, _⟩ => ⟨S1x16, .f32⟩
  | .hbm, ⟨40, _⟩ => ⟨S_, .f32⟩
  | .hbm, ⟨41, _⟩ => ⟨S1x16, .f32⟩
  | .hbm, ⟨42, _⟩ => ⟨S1x16, .f32⟩
  | .hbm, ⟨43, _⟩ => ⟨S_, .f32⟩
  | .hbm, ⟨44, _⟩ => ⟨S1x16, .f32⟩
  | .hbm, ⟨45, _⟩ => ⟨S1x16, .f32⟩
  | .hbm, ⟨46, _⟩ => ⟨S1x16, .f32⟩
  | .hbm, ⟨47, _⟩ => ⟨S1x16, .f32⟩
  | .hbm, ⟨48, _⟩ => ⟨S16x256x64, .f32⟩
  | .hbm, ⟨49, _⟩ => ⟨S16x65536, .f32⟩
  | .local _ .vmem, ⟨0, _⟩ => ⟨S1x64x64, .f32⟩
  | .local _ .vmem, ⟨1, _⟩ => ⟨S1x64x64, .f32⟩
  | .local _ .vmem, ⟨2, _⟩ => ⟨S1x256x64, .f32⟩
  | .local _ .vmem, ⟨3, _⟩ => ⟨S1x256x64, .f32⟩
  | .local _ .vmem, ⟨4, _⟩ => ⟨S32x64, .f32⟩
  | .local _ .vmem, ⟨5, _⟩ => ⟨S32x64, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x64x64, .f32⟩
  | .local _ .vmem, ⟨10, _⟩ => ⟨S1x64x64, .f32⟩
  | .local _ .vmem, ⟨11, _⟩ => ⟨S1x256x64, .f32⟩
  | .local _ .vmem, ⟨12, _⟩ => ⟨S1x256x64, .f32⟩
  | .local _ .vmem, ⟨13, _⟩ => ⟨S32x64, .f32⟩
  | .local _ .vmem, ⟨14, _⟩ => ⟨S32x64, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | .local _ .vmem, ⟨20, _⟩ => ⟨S32x32, .f32⟩
  | .local _ .vmem, ⟨21, _⟩ => ⟨S1x32, .f32⟩
  | .local _ .vmem, ⟨22, _⟩ => ⟨S2x32, .f32⟩
  | .local _ .vmem, ⟨23, _⟩ => ⟨S1x2, .f32⟩
  | .local _ .vmem, ⟨24, _⟩ => ⟨S16x128, .f32⟩
  | .local _ .vmem, ⟨25, _⟩ => ⟨S1x16, .f32⟩
  | .local _ .vmem, ⟨26, _⟩ => ⟨S1x64x256, .f32⟩
  | .local _ .vmem, ⟨27, _⟩ => ⟨S1x64x256, .f32⟩
  | .local _ .vmem, ⟨28, _⟩ => ⟨S1x64x16, .f32⟩
  | .local _ .vmem, ⟨29, _⟩ => ⟨S1x64x16, .f32⟩
  | .local _ .vmem, ⟨30, _⟩ => ⟨S1x16, .f32⟩
  | .local _ .vmem, ⟨31, _⟩ => ⟨S1x16, .f32⟩
  | .local _ .vmem, ⟨32, _⟩ => ⟨S1x256x16, .f32⟩
  | .local _ .vmem, ⟨33, _⟩ => ⟨S1x256x16, .f32⟩
  | .local _ .vmem, ⟨34, _⟩ => ⟨S1x16, .f32⟩
  | .local _ .vmem, ⟨35, _⟩ => ⟨S1x16, .f32⟩
  | .local _ .vmem, ⟨36, _⟩ => ⟨S1x16, .f32⟩
  | .local _ .vmem, ⟨37, _⟩ => ⟨S1x16, .f32⟩
  | .local _ .vmem, ⟨38, _⟩ => ⟨S64x16, .f32⟩
  | .local _ .vmem, ⟨39, _⟩ => ⟨S1x64, .f32⟩
  | .local _ .vmem, ⟨40, _⟩ => ⟨S1x256x64, .f32⟩
  | .local _ .vmem, ⟨41, _⟩ => ⟨S1x256x64, .f32⟩
  | _, _ => ⟨S16x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v18_2 : Ref sig .tc := ⟨.hbm, 38, rfl⟩
abbrev main_v18_3 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg14_0 : Ref sig .tc := ⟨.vmem, 25, rfl⟩
abbrev cc1_stg15_0 : Ref sig .tc := ⟨.vmem, 26, rfl⟩
abbrev cc1_stg15_1 : Ref sig .tc := ⟨.vmem, 27, rfl⟩
abbrev cc1_stg16_0 : Ref sig .tc := ⟨.vmem, 28, rfl⟩
abbrev cc1_stg16_1 : Ref sig .tc := ⟨.vmem, 29, rfl⟩
abbrev cc1_stg17_0 : Ref sig .tc := ⟨.vmem, 30, rfl⟩
abbrev cc1_stg18_0 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg7_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem14_0 : DmaSem sig := 25
abbrev cc1_sem15_0 : DmaSem sig := 26
abbrev cc1_sem15_1 : DmaSem sig := 27
abbrev cc1_sem16_0 : DmaSem sig := 28
abbrev cc1_sem16_1 : DmaSem sig := 29
abbrev cc1_sem17_0 : DmaSem sig := 30
abbrev cc1_sem18_0 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem7_1 : DmaSem sig := 41

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S32x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S2x32 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x2 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S16x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x16 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 2 → Memref sig .tc .vmem S1x64x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x64x16 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 1 → Memref sig .tc .vmem S1x16 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S1x16 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x256x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S32x128_S32x64_0_0 : S32x128.Slices ![0, 0] S32x64
  slices_S32x128_S32x64_0_64 : S32x128.Slices ![0, 64] S32x64
  shapeCasts_S32_S1x32 : S32.ShapeCasts S1x32
  shapeCasts_S2_S1x2 : S2.ShapeCasts S1x2
  shapeCasts_S16_S1x16 : S16.ShapeCasts S1x16
  shapeCasts_S64_S1x64 : S64.ShapeCasts S1x64
  inb_S1x32_S1x32_0_0 : ∀ a, (![0, 0] : Fin 2 → Nat) a + S1x32.size a ≤ S1x32.size a
  h_S1x32 : 0 < S1x32.numel
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  transposes_S32x64_p1_0_S64x32 : S32x64.Transposes [1, 0] S64x32
  shapeCasts_S1x32_S32 : S1x32.ShapeCasts S32
  shapeCasts_S64x32_S64x1x32 : S64x32.ShapeCasts S64x1x32
  shapeCasts_S256x32_S1x256x32 : S256x32.ShapeCasts S1x256x32
  broadcasts_S64x1x32_S64x256x32 : S64x1x32.Broadcasts S64x256x32
  broadcasts_S1x256x32_S64x256x32 : S1x256x32.Broadcasts S64x256x32
  shapeCasts_S32_S1x1x32 : S32.ShapeCasts S1x1x32
  broadcasts_S1x1x32_S64x256x32 : S1x1x32.Broadcasts S64x256x32
  reduces_S64x256x32_S256x32 : S64x256x32.Reduces [0] S256x32
  reduces_S256x32_S32 : S256x32.Reduces [0] S32
  shapeCasts_S1x32_S1x32 : S1x32.ShapeCasts S1x32
  bcast_S_S1x32 : S_.BroadcastsInDim S1x32 (![] : Fin 0 → Fin S1x32.rank)
  inb_S1x16_S1x16_0_0 : ∀ a, (![0, 0] : Fin 2 → Nat) a + S1x16.size a ≤ S1x16.size a
  h_S1x16 : 0 < S1x16.numel
  shapeCasts_S64x256x32_S16384x32 : S64x256x32.ShapeCasts S16384x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  broadcasts_S1x32_S16384x32 : S1x32.Broadcasts S16384x32
  inb_S2x32_S2x32_0_0 : ∀ a, (![0, 0] : Fin 2 → Nat) a + S2x32.size a ≤ S2x32.size a
  h_S2x32 : 0 < S2x32.numel
  transposes_S2x32_p1_0_S32x2 : S2x32.Transposes [1, 0] S32x2
  inb_S1x2_S1x2_0_0 : ∀ a, (![0, 0] : Fin 2 → Nat) a + S1x2.size a ≤ S1x2.size a
  h_S1x2 : 0 < S1x2.numel
  shapeCasts_S1x2_S2 : S1x2.ShapeCasts S2
  broadcasts_S1x2_S16384x2 : S1x2.Broadcasts S16384x2
  slices_S16384x2_o0_0_S16384x1 : S16384x2.Slices ![0, 0] S16384x1
  shapeCasts_S16384x1_S16384 : S16384x1.ShapeCasts S16384
  slices_S16384x2_o0_1_S16384x1 : S16384x2.Slices ![0, 1] S16384x1
  shapeCasts_S16384_S64x256 : S16384.ShapeCasts S64x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  shapeCasts_S16384_S64x4x64 : S16384.ShapeCasts S64x4x64
  reduces_S64x4x64_S64x64 : S64x4x64.Reduces [1] S64x64
  concatenates_S64x64_S64x64_S64x128_d1 : Shape.Concatenates [S64x64, S64x64] S64x128 1
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  shapeCasts_S1x16_S16 : S1x16.ShapeCasts S16
  broadcasts_S1x16_S64x16 : S1x16.Broadcasts S64x16
  inb_S1x64x16_S1x64x16_0_0_0 : ∀ a, (![0, 0, 0] : Fin 3 → Nat) a + S1x64x16.size a ≤ S1x64x16.size a
  h_S1x64x16 : 0 < S1x64x16.numel
  shapeCasts_S1x64x16_S64x16 : S1x64x16.ShapeCasts S64x16
  shapeCasts_S64x16_S1x64x16 : S64x16.ShapeCasts S1x64x16
  reduces_S64x16_S16 : S64x16.Reduces [0] S16
  shapeCasts_S1x16_S1x16 : S1x16.ShapeCasts S1x16
  bcast_S_S1x16 : S_.BroadcastsInDim S1x16 (![] : Fin 0 → Fin S1x16.rank)
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  broadcasts_S1x16_S256x16 : S1x16.Broadcasts S256x16
  inb_S64x16_S64x16_0_0 : ∀ a, (![0, 0] : Fin 2 → Nat) a + S64x16.size a ≤ S64x16.size a
  h_S64x16 : 0 < S64x16.numel
  transposes_S64x16_p1_0_S16x64 : S64x16.Transposes [1, 0] S16x64
  inb_S1x64_S1x64_0_0 : ∀ a, (![0, 0] : Fin 2 → Nat) a + S1x64.size a ≤ S1x64.size a
  h_S1x64 : 0 < S1x64.numel
  shapeCasts_S1x64_S64 : S1x64.ShapeCasts S64
  broadcasts_S1x64_S256x64 : S1x64.Broadcasts S256x64
  shapeCasts_S256x64_S1x256x64 : S256x64.ShapeCasts S1x256x64
  shapeCasts_S16x256x256_S16x65536 : S16x256x256.ShapeCasts S16x65536
  dot_S64x64_S64x32_S64x32_1_0_0_1_n_n_wf : DotDims.WF S64x64 S64x32 S64x32 [1] [0] [0] [1] [] []
  dot_S256x64_S64x32_S256x32_1_0_0_1_n_n_wf : DotDims.WF S256x64 S64x32 S256x32 [1] [0] [0] [1] [] []
  dot_S16384x32_S32x32_S16384x32_1_0_0_1_n_n_wf : DotDims.WF S16384x32 S32x32 S16384x32 [1] [0] [0] [1] [] []
  dot_S16384x32_S32x2_S16384x2_1_0_0_1_n_n_wf : DotDims.WF S16384x32 S32x2 S16384x2 [1] [0] [0] [1] [] []
  dot_S64x128_S128x16_S64x16_1_0_0_1_n_n_wf : DotDims.WF S64x128 S128x16 S64x16 [1] [0] [0] [1] [] []
  dot_S256x16_S16x64_S256x64_1_0_0_1_n_n_wf : DotDims.WF S256x16 S16x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64.size a ≤ S16x256x64.size a
  hwx0_0 : ∀ i : grid0.Coords, EltTy.bits .f32 = 32 ∨ (Rect.block (s := S16x256x64) S1x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S16x256x64.size a
  hwx0_1 : ∀ i : grid0.Coords, EltTy.bits .f32 = 32 ∨ (Rect.block (s := S16x256x64) S1x256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64.size a ≤ S16x256x64.size a
  hwx1_0 : ∀ i : grid1.Coords, EltTy.bits .f32 = 32 ∨ (Rect.block (s := S16x256x64) S1x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x64.size a ≤ S16x256x64.size a
  hwx1_1 : ∀ i : grid1.Coords, EltTy.bits .f32 = 32 ∨ (Rect.block (s := S16x256x64) S1x256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x32.size a ≤ S32x32.size a
  hwx1_9 : ∀ i : grid1.Coords, EltTy.bits .f32 = 32 ∨ (Rect.block (s := S32x32) S32x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x32.size a ≤ S1x32.size a
  hwx1_10 : ∀ i : grid1.Coords, EltTy.bits .f32 = 32 ∨ (Rect.block (s := S1x32) S1x32.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S2x32.size a ≤ S2x32.size a
  hwx1_11 : ∀ i : grid1.Coords, EltTy.bits .f32 = 32 ∨ (Rect.block (s := S2x32) S2x32.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x2.size a ≤ S1x2.size a
  hwx1_12 : ∀ i : grid1.Coords, EltTy.bits .f32 = 32 ∨ (Rect.block (s := S1x2) S1x2.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S16x128.size a ≤ S16x128.size a
  hwx1_13 : ∀ i : grid1.Coords, EltTy.bits .f32 = 32 ∨ (Rect.block (s := S16x128) S16x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x16.size a ≤ S1x16.size a
  hwx1_14 : ∀ i : grid1.Coords, EltTy.bits .f32 = 32 ∨ (Rect.block (s := S1x16) S1x16.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1x64x256.size a ≤ S16x256x256.size a
  hwx1_15 : ∀ i : grid1.Coords, EltTy.bits .f32 = 32 ∨ (Rect.block (s := S16x256x256) S1x64x256.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1x64x16.size a ≤ S16x256x16.size a
  hwx1_16 : ∀ i : grid1.Coords, EltTy.bits .f32 = 32 ∨ (Rect.block (s := S16x256x16) S1x64x16.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x16.size a ≤ S1x16.size a
  hwx1_17 : ∀ i : grid1.Coords, EltTy.bits .f32 = 32 ∨ (Rect.block (s := S1x16) S1x16.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x16.size a ≤ S1x16.size a
  hwx1_18 : ∀ i : grid1.Coords, EltTy.bits .f32 = 32 ∨ (Rect.block (s := S1x16) S1x16.size (cc1_transform_18 i) (hinb1_18 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x16.size a ≤ S16x256x16.size a
  hwx2_0 : ∀ i : grid2.Coords, EltTy.bits .f32 = 32 ∨ (Rect.block (s := S16x256x16) S1x256x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x16.size a ≤ S64x16.size a
  hwx2_5 : ∀ i : grid2.Coords, EltTy.bits .f32 = 32 ∨ (Rect.block (s := S64x16) S64x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x256x64.size a ≤ S16x256x64.size a
  hwx2_7 : ∀ i : grid2.Coords, EltTy.bits .f32 = 32 ∨ (Rect.block (s := S16x256x64) S1x256x64.size (cc2_transform_7 i) (hinb2_7 i)).WholeWords (EltTy.packing .f32)

variable [Facts₀]

def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x32_S32x2_S16384x2_1_0_0_1_n_n : DotDims S16384x32 S32x2 S16384x2 where
  lhsContracting := [1]
  rhsContracting := [0]
  lhsNonContracting := [0]
  rhsNonContracting := [1]
  lhsBatch := []
  rhsBatch := []
  wf := dot_S16384x32_S32x2_S16384x2_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf
def dot_S256x16_S16x64_S256x64_1_0_0_1_n_n : DotDims S256x16 S16x64 S256x64 where
  lhsContracting := [1]
  rhsContracting := [0]
  lhsNonContracting := [0]
  rhsNonContracting := [1]
  lhsBatch := []
  rhsBatch := []
  wf := dot_S256x16_S16x64_S256x64_1_0_0_1_n_n_wf

abbrev win0_0 : Pipeline.Window sig grid0 :=
  Pipeline.Window.ofSpec (Memref.whole main_arg0) S1x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S1x32.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S1x32.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg5) S32x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v5) S1x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg7) S2x32.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v6) S1x2.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg9) S16x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v7) S1x16.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v18_0) S1x64x256.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v18_1) S1x64x16.size cc1_transform_16 reads1_16 true false 2 stage1_16 sem1_16
    hrank1 hreads1_16 hinb1_16 nbuf1_16 (Memref.isWhole_whole _) hwx1_16 hstage1_16

abbrev win1_17 : Pipeline.Window sig grid1 :=
  Pipeline.Window.ofSpec (Memref.whole main_v18_2) S1x16.size cc1_transform_17 reads1_17 true true 1 stage1_17 sem1_17
    hrank1 hreads1_17 hinb1_17 nbuf1_17 (Memref.isWhole_whole _) hwx1_17 hstage1_17

abbrev win1_18 : Pipeline.Window sig grid1 :=
  Pipeline.Window.ofSpec (Memref.whole main_v18_3) S1x16.size cc1_transform_18 reads1_18 true true 1 stage1_18 sem1_18
    hrank1 hreads1_18 hinb1_18 nbuf1_18 (Memref.isWhole_whole _) hwx1_18 hstage1_18

abbrev win1 : Fin 19 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | ⟨_ + 19, h⟩ => absurd h (Nat.not_lt.2 (Nat.le_add_left _ _))
abbrev spec1 : Fin 19 → Pipeline.WinSpec sig grid1.rank := fun w => (win1 w).toWinSpec

abbrev win2_0 : Pipeline.Window sig grid2 :=
  Pipeline.Window.ofSpec (Memref.whole main_v18_1) S1x256x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S64x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v25) S1x256x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S16x256x64 : Shape := ⟨3, ![16, 256, 64]⟩
abbrev S32x128 : Shape := ⟨2, ![32, 128]⟩
abbrev S32 : Shape := ⟨1, ![32]⟩
abbrev S32x32 : Shape := ⟨2, ![32, 32]⟩
abbrev S2x32 : Shape := ⟨2, ![2, 32]⟩
abbrev S2 : Shape := ⟨1, ![2]⟩
abbrev S16x128 : Shape := ⟨2, ![16, 128]⟩
abbrev S16 : Shape := ⟨1, ![16]⟩
abbrev S64x16 : Shape := ⟨2, ![64, 16]⟩
abbrev S64 : Shape := ⟨1, ![64]⟩
abbrev S256 : Shape := ⟨1, ![256]⟩
abbrev S256x256 : Shape := ⟨2, ![256, 256]⟩
abbrev S65536 : Shape := ⟨1, ![65536]⟩
abbrev S1x256 : Shape := ⟨2, ![1, 256]⟩
abbrev S_ : Shape := ⟨0, ![]⟩
abbrev S65536x1 : Shape := ⟨2, ![65536, 1]⟩
abbrev S16x65536x64 : Shape := ⟨3, ![16, 65536, 64]⟩
abbrev S16x65536x128 : Shape := ⟨3, ![16, 65536, 128]⟩
abbrev S1048576x128 : Shape := ⟨2, ![1048576, 128]⟩
abbrev S128x32 : Shape := ⟨2, ![128, 32]⟩
abbrev S1048576x32 : Shape := ⟨2, ![1048576, 32]⟩
abbrev S1x32 : Shape := ⟨2, ![1, 32]⟩
abbrev S32x2 : Shape := ⟨2, ![32, 2]⟩
abbrev S1048576x2 : Shape := ⟨2, ![1048576, 2]⟩
abbrev S1x2 : Shape := ⟨2, ![1, 2]⟩
abbrev S16x65536x2 : Shape := ⟨3, ![16, 65536, 2]⟩
abbrev S16x65536x1 : Shape := ⟨3, ![16, 65536, 1]⟩
abbrev S16x65536 : Shape := ⟨2, ![16, 65536]⟩
abbrev S16x256x4x64 : Shape := ⟨4, ![16, 256, 4, 64]⟩
abbrev S16x256x128 : Shape := ⟨3, ![16, 256, 128]⟩
abbrev S4096x128 : Shape := ⟨2, ![4096, 128]⟩
abbrev S128x16 : Shape := ⟨2, ![128, 16]⟩
abbrev S4096x16 : Shape := ⟨2, ![4096, 16]⟩
abbrev S1x16 : Shape := ⟨2, ![1, 16]⟩
abbrev S16x64 : Shape := ⟨2, ![16, 64]⟩
abbrev S4096x64 : Shape := ⟨2, ![4096, 64]⟩
abbrev S1x64 : Shape := ⟨2, ![1, 64]⟩

abbrev nBuf : Space → Nat
  | .hbm => 171
  | .vmem => 0
  | .smem => 0
  | _ => 0

abbrev hbmTy0_0 (i : Nat) : BufTy := match i % 128 with
  | 0 => ⟨S16x256x64, .f32⟩
  | 1 => ⟨S32x128, .f32⟩
  | 2 => ⟨S32, .f32⟩
  | 3 => ⟨S32, .f32⟩
  | 4 => ⟨S32, .f32⟩
  | 5 => ⟨S32x32, .f32⟩
  | 6 => ⟨S32, .f32⟩
  | 7 => ⟨S2x32, .f32⟩
  | 8 => ⟨S2, .f32⟩
  | 9 => ⟨S16x128, .f32⟩
  | 10 => ⟨S16, .f32⟩
  | 11 => ⟨S16, .f32⟩
  | 12 => ⟨S16, .f32⟩
  | 13 => ⟨S64x16, .f32⟩
  | 14 => ⟨S64, .f32⟩
  | 15 => ⟨S256, .i32⟩
  | 16 => ⟨S256x256, .i32⟩
  | 17 => ⟨S65536, .i32⟩
  | 18 => ⟨S256, .i32⟩
  | 19 => ⟨S1x256, .i32⟩
  | 20 => ⟨S256x256, .i32⟩
  | 21 => ⟨S65536, .i32⟩
  | 22 => ⟨S_, .i32⟩
  | 23 => ⟨S65536, .i32⟩
  | 24 => ⟨S65536, .i1⟩
  | 25 => ⟨S_, .i32⟩
  | 26 => ⟨S65536, .i32⟩
  | 27 => ⟨S65536, .i32⟩
  | 28 => ⟨S65536, .i32⟩
  | 29 => ⟨S65536x1, .i32⟩
  | 30 => ⟨S16x65536x64, .f32⟩
  | 31 => ⟨S_, .i32⟩
  | 32 => ⟨S65536, .i32⟩
  | 33 => ⟨S65536, .i1⟩
  | 34 => ⟨S_, .i32⟩
  | 35 => ⟨S65536, .i32⟩
  | 36 => ⟨S65536, .i32⟩
  | 37 => ⟨S65536, .i32⟩
  | 38 => ⟨S65536x1, .i32⟩
  | 39 => ⟨S16x65536x64, .f32⟩
  | 40 => ⟨S16x65536x128, .f32⟩
  | 41 => ⟨S1048576x128, .f32⟩
  | 42 => ⟨S128x32, .f32⟩
  | 43 => ⟨S1048576x32, .f32⟩
  | 44 => ⟨S1x32, .f32⟩
  | 45 => ⟨S1048576x32, .f32⟩
  | 46 => ⟨S1048576x32, .f32⟩
  | 47 => ⟨S_, .f32⟩
  | 48 => ⟨S32, .f32⟩
  | 49 => ⟨S_, .f32⟩
  | 50 => ⟨S32, .f32⟩
  | 51 => ⟨S32, .f32⟩
  | 52 => ⟨S1x32, .f32⟩
  | 53 => ⟨S1048576x32, .f32⟩
  | 54 => ⟨S1048576x32, .f32⟩
  | 55 => ⟨S1048576x32, .f32⟩
  | 56 => ⟨S_, .f32⟩
  | 57 => ⟨S32, .f32⟩
  | 58 => ⟨S_, .f32⟩
  | 59 => ⟨S32, .f32⟩
  | 60 => ⟨S32, .f32⟩
  | 61 => ⟨S1x32, .f32⟩
  | 62 => ⟨S1048576x32, .f32⟩
  | 63 => ⟨S1048576x32, .f32⟩
  | 64 => ⟨S_, .f32⟩
  | 65 => ⟨S32, .f32⟩
  | 66 => ⟨S32, .f32⟩
  | 67 => ⟨S32, .f32⟩
  | 68 => ⟨S1x32, .f32⟩
  | 69 => ⟨S1048576x32, .f32⟩
  | 70 => ⟨S1048576x32, .f32⟩
  | 71 => ⟨S1x32, .f32⟩
  | 72 => ⟨S1048576x32, .f32⟩
  | 73 => ⟨S1048576x32, .f32⟩
  | 74 => ⟨S1x32, .f32⟩
  | 75 => ⟨S1048576x32, .f32⟩
  | 76 => ⟨S1048576x32, .f32⟩
  | 77 => ⟨S_, .f32⟩
  | 78 => ⟨S_, .f32⟩
  | 79 => ⟨S1048576x32, .f32⟩
  | 80 => ⟨S1048576x32, .i1⟩
  | 81 => ⟨S_, .f32⟩
  | 82 => ⟨S1048576x32, .f32⟩
  | 83 => ⟨S1048576x32, .f32⟩
  | 84 => ⟨S1048576x32, .f32⟩
  | 85 => ⟨S32x32, .f32⟩
  | 86 => ⟨S1048576x32, .f32⟩
  | 87 => ⟨S1x32, .f32⟩
  | 88 => ⟨S1048576x32, .f32⟩
  | 89 => ⟨S1048576x32, .f32⟩
  | 90 => ⟨S_, .f32⟩
  | 91 => ⟨S_, .f32⟩
  | 92 => ⟨S1048576x32, .f32⟩
  | 93 => ⟨S1048576x32, .i1⟩
  | 94 => ⟨S_, .f32⟩
  | 95 => ⟨S1048576x32, .f32⟩
  | 96 => ⟨S1048576x32, .f32⟩
  | 97 => ⟨S1048576x32, .f32⟩
  | 98 => ⟨S32x2, .f32⟩
  | 99 => ⟨S1048576x2, .f32⟩
  | 100 => ⟨S1x2, .f32⟩
  | 101 => ⟨S1048576x2, .f32⟩
  | 102 => ⟨S1048576x2, .f32⟩
  | 103 => ⟨S16x65536x2, .f32⟩
  | 104 => ⟨S16x65536x1, .f32⟩
  | 105 => ⟨S16x65536, .f32⟩
  | 106 => ⟨S16x65536, .f32⟩
  | 107 => ⟨S16x65536, .f32⟩
  | 108 => ⟨S_, .f32⟩
  | 109 => ⟨S16x65536, .f32⟩
  | 110 => ⟨S16x65536, .f32⟩
  | 111 => ⟨S_, .f32⟩
  | 112 => ⟨S16x65536, .f32⟩
  | 113 => ⟨S16x65536, .f32⟩
  | 114 => ⟨S16x65536x1, .f32⟩
  | 115 => ⟨S16x65536, .f32⟩
  | 116 => ⟨S16x65536, .f32⟩
  | 117 => ⟨S16x256x4x64, .f32⟩
  | 118 => ⟨S_, .f32⟩
  | 119 => ⟨S16x256x64, .f32⟩
  | 120 => ⟨S16x256x128, .f32⟩
  | 121 => ⟨S4096x128, .f32⟩
  | 122 => ⟨S128x16, .f32⟩
  | 123 => ⟨S4096x16, .f32⟩
  | 124 => ⟨S1x16, .f32⟩
  | 125 => ⟨S4096x16, .f32⟩
  | 126 => ⟨S4096x16, .f32⟩
  | 127 => ⟨S_, .f32⟩
  | _ => ⟨S16x256x64, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S1x16, .f32⟩
  | 5 => ⟨S4096x16, .f32⟩
  | 6 => ⟨S4096x16, .f32⟩
  | 7 => ⟨S4096x16, .f32⟩
  | 8 => ⟨S_, .f32⟩
  | 9 => ⟨S16, .f32⟩
  | 10 => ⟨S_, .f32⟩
  | 11 => ⟨S16, .f32⟩
  | 12 => ⟨S16, .f32⟩
  | 13 => ⟨S1x16, .f32⟩
  | 14 => ⟨S4096x16, .f32⟩
  | 15 => ⟨S4096x16, .f32⟩
  | 16 => ⟨S_, .f32⟩
  | 17 => ⟨S16, .f32⟩
  | 18 => ⟨S16, .f32⟩
  | 19 => ⟨S16, .f32⟩
  | 20 => ⟨S1x16, .f32⟩
  | 21 => ⟨S4096x16, .f32⟩
  | 22 => ⟨S4096x16, .f32⟩
  | 23 => ⟨S1x16, .f32⟩
  | 24 => ⟨S4096x16, .f32⟩
  | 25 => ⟨S4096x16, .f32⟩
  | 26 => ⟨S1x16, .f32⟩
  | 27 => ⟨S4096x16, .f32⟩
  | 28 => ⟨S4096x16, .f32⟩
  | 29 => ⟨S_, .f32⟩
  | 30 => ⟨S_, .f32⟩
  | 31 => ⟨S4096x16, .f32⟩
  | 32 => ⟨S4096x16, .i1⟩
  | 33 => ⟨S_, .f32⟩
  | 34 => ⟨S4096x16, .f32⟩
  | 35 => ⟨S4096x16, .f32⟩
  | 36 => ⟨S4096x16, .f32⟩
  | 37 => ⟨S16x64, .f32⟩
  | 38 => ⟨S4096x64, .f32⟩
  | 39 => ⟨S1x64, .f32⟩
  | 40 => ⟨S4096x64, .f32⟩
  | 41 => ⟨S4096x64, .f32⟩
  | 42 => ⟨S16x256x64, .f32⟩
  | _ => ⟨S16x256x64, .f32⟩

abbrev hbmTy (i : Nat) : BufTy := match i / 128 with
  | 0 => hbmTy0_0 i
  | 1 => hbmTy0_1 i
  | _ => ⟨S16x256x64, .f32⟩

abbrev bufTy : (tb : Table) → Fin (tcTables nBuf tb) → BufTy
  | .hbm, ⟨i, _⟩ => hbmTy i
  | _, _ => ⟨S16x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_8 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_9 : Ref sig .tc := ⟨.hbm, 108, rfl⟩
abbrev main_v70 : Ref sig .tc := ⟨.hbm, 109, rfl⟩
abbrev main_v71 : Ref sig .tc := ⟨.hbm, 110, rfl⟩
abbrev main_cst_10 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_11 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_12 : Ref sig .tc := ⟨.hbm, 127, rfl⟩
abbrev main_v86 : Ref sig .tc := ⟨.hbm, 128, rfl⟩
abbrev main_cst_13 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_14 : Ref sig .tc := ⟨.hbm, 136, rfl⟩
abbrev main_v93 : Ref sig .tc := ⟨.hbm, 137, rfl⟩
abbrev main_cst_15 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_16 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_17 : Ref sig .tc := ⟨.hbm, 157, rfl⟩
abbrev main_call2_cst : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩

abbrev nD : Nat := 1
abbrev τ : Topo := Topo.v7x

variable {F : FTy → Type} [FloatOps F]

class Facts₀ : Prop where
  bcast_S256_S256x256_0 : S256.BroadcastsInDim S256x256 (![0] : Fin 1 → Fin S256x256.rank)
  shapeCasts_S256x256_S65536 : S256x256.ShapeCasts S65536
  shapeCasts_S256_S1x256 : S256.ShapeCasts S1x256
  bcast_S1x256_S256x256_0_1 : S1x256.BroadcastsInDim S256x256 (![0, 1] : Fin 2 → Fin S256x256.rank)
  bcast_S_S65536 : S_.BroadcastsInDim S65536 (![] : Fin 0 → Fin S65536.rank)
  bcast_S65536_S65536x1_0 : S65536.BroadcastsInDim S65536x1 (![0] : Fin 1 → Fin S65536x1.rank)
  concatenates_S16x65536x64_S16x65536x64_S16x65536x128_d2 : Shape.Concatenates [S16x65536x64, S16x65536x64] S16x65536x128 2
  shapeCasts_S16x65536x128_S1048576x128 : S16x65536x128.ShapeCasts S1048576x128
  transposes_S32x128_S128x32_1_0 : S32x128.Transposes [1, 0] S128x32
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  reducesTo_S1048576x32_S32_d0 : S1048576x32.ReducesTo [0] S32
  h_S_ : 0 < S_.numel
  bcast_S_S32 : S_.BroadcastsInDim S32 (![] : Fin 0 → Fin S32.rank)
  bcast_S_S1048576x32 : S_.BroadcastsInDim S1048576x32 (![] : Fin 0 → Fin S1048576x32.rank)
  transposes_S32x32_S32x32_1_0 : S32x32.Transposes [1, 0] S32x32
  transposes_S2x32_S32x2_1_0 : S2x32.Transposes [1, 0] S32x2
  bcast_S2_S1x2_1 : S2.BroadcastsInDim S1x2 (![1] : Fin 1 → Fin S1x2.rank)
  bcast_S1x2_S1048576x2_0_1 : S1x2.BroadcastsInDim S1048576x2 (![0, 1] : Fin 2 → Fin S1048576x2.rank)
  shapeCasts_S1048576x2_S16x65536x2 : S1048576x2.ShapeCasts S16x65536x2
  slices_S16x65536x2_S16x65536x1_0_0_0 : S16x65536x2.Slices ![0, 0, 0] S16x65536x1
  shapeCasts_S16x65536x1_S16x65536 : S16x65536x1.ShapeCasts S16x65536
  bcast_S_S16x65536 : S_.BroadcastsInDim S16x65536 (![] : Fin 0 → Fin S16x65536.rank)
  slices_S16x65536x2_S16x65536x1_0_0_1 : S16x65536x2.Slices ![0, 0, 1] S16x65536x1
  shapeCasts_S16x65536_S16x256x4x64 : S16x65536.ShapeCasts S16x256x4x64
  reducesTo_S16x256x4x64_S16x256x64_d2 : S16x256x4x64.ReducesTo [2] S16x256x64
  concatenates_S16x256x64_S16x256x64_S16x256x128_d2 : Shape.Concatenates [S16x256x64, S16x256x64] S16x256x128 2
  shapeCasts_S16x256x128_S4096x128 : S16x256x128.ShapeCasts S4096x128
  transposes_S16x128_S128x16_1_0 : S16x128.Transposes [1, 0] S128x16
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S16_d0 : S4096x16.ReducesTo [0] S16
  bcast_S_S16 : S_.BroadcastsInDim S16 (![] : Fin 0 → Fin S16.rank)
  bcast_S_S4096x16 : S_.BroadcastsInDim S4096x16 (![] : Fin 0 → Fin S4096x16.rank)
  transposes_S64x16_S16x64_1_0 : S64x16.Transposes [1, 0] S16x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  shapeCasts_S4096x64_S16x256x64 : S4096x64.ShapeCasts S16x256x64
  gather_S16x256x64_S65536x1_S16x65536x64_02_1_n_n_1_1_16164_wf : GatherDims.WF S16x256x64 S65536x1 S16x65536x64 [0, 2] [1] [] [1] [] 1 ![16, 1, 64]
  dot_S1048576x128_S128x32_S1048576x32_1_0_0_1_n_n_wf : DotDims.WF S1048576x128 S128x32 S1048576x32 [1] [0] [0] [1] [] []
  dot_S1048576x32_S32x32_S1048576x32_1_0_0_1_n_n_wf : DotDims.WF S1048576x32 S32x32 S1048576x32 [1] [0] [0] [1] [] []
  dot_S1048576x32_S32x2_S1048576x2_1_0_0_1_n_n_wf : DotDims.WF S1048576x32 S32x2 S1048576x2 [1] [0] [0] [1] [] []
  dot_S4096x128_S128x16_S4096x16_1_0_0_1_n_n_wf : DotDims.WF S4096x128 S128x16 S4096x16 [1] [0] [0] [1] [] []
  dot_S4096x16_S16x64_S4096x64_1_0_0_1_n_n_wf : DotDims.WF S4096x16 S16x64 S4096x64 [1] [0] [0] [1] [] []

variable [Facts₀]

def gather_S16x256x64_S65536x1_S16x65536x64_02_1_n_n_1_1_16164 : GatherDims S16x256x64 S65536x1 S16x65536x64 where
  offsetDims := [0, 2]
  collapsedSliceDims := [1]
  operandBatchingDims := []
  startIndicesBatchingDims := []
  startIndexMap := [1]
  indexVectorDim := 1
  sliceSizes := ![16, 1, 64]
  wf := gather_S16x256x64_S65536x1_S16x65536x64_02_1_n_n_1_1_16164_wf
def dot_S1048576x128_S128x32_S1048576x32_1_0_0_1_n_n : DotDims S1048576x128 S128x32 S1048576x32 where
  lhsContracting := [1]
  rhsContracting := [0]
  lhsNonContracting := [0]
  rhsNonContracting := [1]
  lhsBatch := []
  rhsBatch := []
  wf := dot_S1048576x128_S128x32_S1048576x32_1_0_0_1_n_n_wf
def dot_S1048576x32_S32x32_S1048576x32_1_0_0_1_n_n : DotDims S1048576x32 S32x32 S1048576x32 where
  lhsContracting := [1]
  rhsContracting := [0]
  lhsNonContracting := [0]
  rhsNonContracting := [1]
  lhsBatch := []
  rhsBatch := []
  wf := dot_S1048576x32_S32x32_S1048576x32_1_0_0_1_n_n_wf
def dot_S1048576x32_S32x2_S1048576x2_1_0_0_1_n_n : DotDims S1048576x32 S32x2 S1048576x2 where
  lhsContracting := [1]
  rhsContracting := [0]
  lhsNonContracting := [0]
  rhsNonContracting := [1]
  lhsBatch := []
  rhsBatch := []
  wf := dot_S1048576x32_S32x2_S1048576x2_1_0_0_1_n_n_wf
def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S4096x16_S16x64_S4096x64_1_0_0_1_n_n : DotDims S4096x16 S16x64 S4096x64 where
  lhsContracting := [1]
  rhsContracting := [0]
  lhsNonContracting := [0]
  rhsNonContracting := [1]
  lhsBatch := []
  rhsBatch := []
  wf := dot_S4096x16_S16x64_S4096x64_1_0_0_1_n_n_wf

class Facts : Prop extends Facts₀ where

variable [Facts]
-- ==== Proof.KI.Reg0RunA.lean ====
import proofs.«145300_j21964462751805_1_alg».proof.Proof.Gen.KernelIdeal.Launch
import proofs.«145300_j21964462751805_1_alg».proof.Proof.Gen.KernelIdeal.Skeleton
import proofs.«145300_j21964462751805_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem hcond0_0 : ∀ t : Fin cfg0.N, cond0_0 (grid0.coords t) ↔ t.val = 0 :=
  (by decide +kernel : ∀ t : Fin grid0.N, cond0_0 (grid0.coords t) ↔ t.val = 0)

abbrev VO0_5 : View sig .tc .vmem S1x32 .f32 := (Memref.whole cc0_stg5_0 : Memref sig .tc .vmem S1x32 .f32).view

abbrev VO0_6 : View sig .tc .vmem S1x32 .f32 := (Memref.whole cc0_stg6_0 : Memref sig .tc .vmem S1x32 .f32).view

set_option maxHeartbeats 1000000 in

noncomputable def kernelRun0_A (c : Dev nD) (i : grid0.Coords) (arg2 : Memref sig .tc .vmem S1x64x64 .f32) (harg2 : arg2.IsWhole) (arg3 : Memref sig .tc .vmem S1x256x64 .f32) (harg3 : arg3.IsWhole)
    (arg4 : Memref sig .tc .vmem S32x64 .f32) (harg4 : arg4.IsWhole) (arg5 : Memref sig .tc .vmem S32x64 .f32) (harg5 : arg5.IsWhole)
    (arg6 : Memref sig .tc .vmem S1x32 .f32) (harg6 : arg6.IsWhole) (arg7 : Memref sig .tc .vmem S1x32 .f32) (harg7 : arg7.IsWhole)
    (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) :
    Σ' (L5 : List (View.Piece (Elt F) S1x32 .f32)), { L6 : List (View.Piece (Elt F) S1x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__stats_body i arg2 harg2 arg3 harg3 arg4 harg4 arg5 harg5 arg6 harg6 arg7 harg7 arg8 harg8) K } := by
  refine ⟨?_, ?_, fun E K => ?run⟩
  case run =>
    simp only [cc0__stats_body_eq_skeleton]; unfold cc0__stats_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.KernelIdeal.Hand

end
-- ==== Proof.KI.Reg0RunB.lean ====
import proofs.«145300_j21964462751805_1_alg».proof.Proof.KI.Reg0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_B (c : Dev nD) (i : grid0.Coords) (arg2 : Memref sig .tc .vmem S1x64x64 .f32) (harg2 : arg2.IsWhole) (arg3 : Memref sig .tc .vmem S1x256x64 .f32) (harg3 : arg3.IsWhole)
    (arg4 : Memref sig .tc .vmem S32x64 .f32) (harg4 : arg4.IsWhole) (arg5 : Memref sig .tc .vmem S32x64 .f32) (harg5 : arg5.IsWhole)
    (arg6 : Memref sig .tc .vmem S1x32 .f32) (harg6 : arg6.IsWhole) (arg7 : Memref sig .tc .vmem S1x32 .f32) (harg7 : arg7.IsWhole)
    (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 : Vec F S1x32 .f32) (xo6 : Vec F S1x32 .f32) :
    Σ' (L5 : List (View.Piece (Elt F) S1x32 .f32)), { L6 : List (View.Piece (Elt F) S1x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__stats_body i arg2 harg2 arg3 harg3 arg4 harg4 arg5 harg5 arg6 harg6 arg7 harg7 arg8 harg8) K } := by
  refine ⟨?_, ?_, fun E K => ?run⟩
  case run =>
    simp only [cc0__stats_body_eq_skeleton]; unfold cc0__stats_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.KernelIdeal.Hand

end
-- ==== Proof.KI.Reg0.lean ====
import proofs.«145300_j21964462751805_1_alg».proof.Proof.KI.Reg0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S1x64x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32 .f32 := win0_6.stage (cfg0.slots t 6)
abbrev hs0_6 (t : Fin cfg0.N) : (ms0_6 t).IsWhole := hstage0_6 ((cfg0.slots t 6).cast nbuf0_6)

theorem cover0_A_5 (c : Dev nD) (i : grid0.Coords) (arg2 : Memref sig .tc .vmem S1x64x64 .f32) (harg2 : arg2.IsWhole) (arg3 : Memref sig .tc .vmem S1x256x64 .f32) (harg3 : arg3.IsWhole)
    (arg4 : Memref sig .tc .vmem S32x64 .f32) (harg4 : arg4.IsWhole) (arg5 : Memref sig .tc .vmem S32x64 .f32) (harg5 : arg5.IsWhole)
    (arg6 : Memref sig .tc .vmem S1x32 .f32) (harg6 : arg6.IsWhole) (arg7 : Memref sig .tc .vmem S1x32 .f32) (harg7 : arg7.IsWhole)
    (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) (y : S1x32.Idx) :
    ∃ pc ∈ (kernelRun0_A c i arg2 harg2 arg3 harg3 arg4 harg4 arg5 harg5 arg6 harg6 arg7 harg7 arg8 harg8 hc0 x0 x1 x2 x3 x4).1, y ∈ pc.1.set :=
  View.cover_of_tiledL (kernelRun0_A c i arg2 harg2 arg3 harg3 arg4 harg4 arg5 harg5 arg6 harg6 arg7 harg7 arg8 harg8 hc0 x0 x1 x2 x3 x4).1 S1x32.size (by sl_kernel_rfl) y

theorem cover0_A_6 (c : Dev nD) (i : grid0.Coords) (arg2 : Memref sig .tc .vmem S1x64x64 .f32) (harg2 : arg2.IsWhole) (arg3 : Memref sig .tc .vmem S1x256x64 .f32) (harg3 : arg3.IsWhole)
    (arg4 : Memref sig .tc .vmem S32x64 .f32) (harg4 : arg4.IsWhole) (arg5 : Memref sig .tc .vmem S32x64 .f32) (harg5 : arg5.IsWhole)
    (arg6 : Memref sig .tc .vmem S1x32 .f32) (harg6 : arg6.IsWhole) (arg7 : Memref sig .tc .vmem S1x32 .f32) (harg7 : arg7.IsWhole)
    (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) (y : S1x32.Idx) :
    ∃ pc ∈ (kernelRun0_A c i arg2 harg2 arg3 harg3 arg4 harg4 arg5 harg5 arg6 harg6 arg7 harg7 arg8 harg8 hc0 x0 x1 x2 x3 x4).2.1, y ∈ pc.1.set :=
  View.cover_of_tiledL (kernelRun0_A c i arg2 harg2 arg3 harg3 arg4 harg4 arg5 harg5 arg6 harg6 arg7 harg7 arg8 harg8 hc0 x0 x1 x2 x3 x4).2.1 S1x32.size (by sl_kernel_rfl) y

def out0_A_5 (c : Dev nD) (i : grid0.Coords) (arg2 : Memref sig .tc .vmem S1x64x64 .f32) (harg2 : arg2.IsWhole) (arg3 : Memref sig .tc .vmem S1x256x64 .f32) (harg3 : arg3.IsWhole)
    (arg4 : Memref sig .tc .vmem S32x64 .f32) (harg4 : arg4.IsWhole) (arg5 : Memref sig .tc .vmem S32x64 .f32) (harg5 : arg5.IsWhole)
    (arg6 : Memref sig .tc .vmem S1x32 .f32) (harg6 : arg6.IsWhole) (arg7 : Memref sig .tc .vmem S1x32 .f32) (harg7 : arg7.IsWhole)
    (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) : Vec F S1x32 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3 x4).1)

def out0_A_6 (c : Dev nD) (i : grid0.Coords) (arg2 : Memref sig .tc .vmem S1x64x64 .f32) (harg2 : arg2.IsWhole) (arg3 : Memref sig .tc .vmem S1x256x64 .f32) (harg3 : arg3.IsWhole)
    (arg4 : Memref sig .tc .vmem S32x64 .f32) (harg4 : arg4.IsWhole) (arg5 : Memref sig .tc .vmem S32x64 .f32) (harg5 : arg5.IsWhole)
    (arg6 : Memref sig .tc .vmem S1x32 .f32) (harg6 : arg6.IsWhole) (arg7 : Memref sig .tc .vmem S1x32 .f32) (harg7 : arg7.IsWhole)
    (arg8 : Memref sig .tc .vmem S1x32 .f32) (harg8 : arg8.IsWhole) (hc0 : cond0_0 i)
    (x0 : Vec F S1x64x64 .f32) (x1 : Vec F S1x256x64 .f32) (x2 : Vec F S32x64 .f32) (x3 : Vec F S32x64 .f32) (x4 : Vec F S1x32 .f32) : Vec F S1x32 .f32 :=
  VO0_6.read (Elt F) (VO0_6.writes (Elt F) VO0_6.junk (kernelRun0_A c i arg2 harg2 arg3 harg3 arg4 harg4 arg5 harg5 arg6 harg6 arg7 harg7 arg8 harg8 hc0 x0 x1 x2 x3 x4).2.1)

theorem cover0_B_5 (c : Dev nD) (i : grid0.Coords) (arg2 : Memref sig .tc .vmem S1x64x64 .f32) (harg2 : arg2.IsWhole) (arg3 : Memref sig .tc .vmem S1x256x64 .f32) (harg3 : arg3.IsWhole)
    (arg4 : Memref sig .tc .vmem S32x64 .f32) (harg4 : arg4.IsWhole) (arg5 : Memref sig .tc .vmem S32x64 .f32) (harg5 : arg5.IsWhole)
    (arg6 : Memref sig .tc .vmem S1x32 .f32) (harg6 : arg6.IsWhole) (arg7 : Memref sig .tc .vmem S1x32 .f32) (harg7 : arg7.IsWhole)
    (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 xo6 : Vec F S1x32 .f32) (y : S1x32.Idx) :
    ∃ pc ∈ (kernelRun0_B c i arg2 harg2 arg3 harg3 arg4 harg4 arg5 harg5 arg6 harg6 arg7 harg7 arg8 harg8 hc0 x0 x1 x2 x3 x4 xo5 xo6).1, y ∈ pc.1.set :=
  View.cover_of_tiledL (kernelRun0_B c i arg2 harg2 arg3 harg3 arg4 harg4 arg5 harg5 arg6 harg6 arg7 harg7 arg8 harg8 hc0 x0 x1 x2 x3 x4 xo5 xo6).1 S1x32.size (by sl_kernel_rfl) y

theorem cover0_B_6 (c : Dev nD) (i : grid0.Coords) (arg2 : Memref sig .tc .vmem S1x64x64 .f32) (harg2 : arg2.IsWhole) (arg3 : Memref sig .tc .vmem S1x256x64 .f32) (harg3 : arg3.IsWhole)
    (arg4 : Memref sig .tc .vmem S32x64 .f32) (harg4 : arg4.IsWhole) (arg5 : Memref sig .tc .vmem S32x64 .f32) (harg5 : arg5.IsWhole)
    (arg6 : Memref sig .tc .vmem S1x32 .f32) (harg6 : arg6.IsWhole) (arg7 : Memref sig .tc .vmem S1x32 .f32) (harg7 : arg7.IsWhole)
    (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 xo6 : Vec F S1x32 .f32) (y : S1x32.Idx) :
    ∃ pc ∈ (kernelRun0_B c i arg2 harg2 arg3 harg3 arg4 harg4 arg5 harg5 arg6 harg6 arg7 harg7 arg8 harg8 hc0 x0 x1 x2 x3 x4 xo5 xo6).2.1, y ∈ pc.1.set :=
  View.cover_of_tiledL (kernelRun0_B c i arg2 harg2 arg3 harg3 arg4 harg4 arg5 harg5 arg6 harg6 arg7 harg7 arg8 harg8 hc0 x0 x1 x2 x3 x4 xo5 xo6).2.1 S1x32.size (by sl_kernel_rfl) y

def out0_B_5 (c : Dev nD) (i : grid0.Coords) (arg2 : Memref sig .tc .vmem S1x64x64 .f32) (harg2 : arg2.IsWhole) (arg3 : Memref sig .tc .vmem S1x256x64 .f32) (harg3 : arg3.IsWhole)
    (arg4 : Memref sig .tc .vmem S32x64 .f32) (harg4 : arg4.IsWhole) (arg5 : Memref sig .tc .vmem S32x64 .f32) (harg5 : arg5.IsWhole)
    (arg6 : Memref sig .tc .vmem S1x32 .f32) (harg6 : arg6.IsWhole) (arg7 : Memref sig .tc .vmem S1x32 .f32) (harg7 : arg7.IsWhole)
    (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 xo6 : Vec F S1x32 .f32) : Vec F S1x32 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 x4 xo5 xo6).1)

def out0_B_6 (c : Dev nD) (i : grid0.Coords) (arg2 : Memref sig .tc .vmem S1x64x64 .f32) (harg2 : arg2.IsWhole) (arg3 : Memref sig .tc .vmem S1x256x64 .f32) (harg3 : arg3.IsWhole)
    (arg4 : Memref sig .tc .vmem S32x64 .f32) (harg4 : arg4.IsWhole) (arg5 : Memref sig .tc .vmem S32x64 .f32) (harg5 : arg5.IsWhole)
    (arg6 : Memref sig .tc .vmem S1x32 .f32) (harg6 : arg6.IsWhole) (arg7 : Memref sig .tc .vmem S1x32 .f32) (harg7 : arg7.IsWhole)
    (arg8 : Memref sig .tc .vmem S1x32 .f32) (harg8 : arg8.IsWhole) (hc0 : ¬cond0_0 i)
    (x0 : Vec F S1x64x64 .f32) (x1 : Vec F S1x256x64 .f32) (x2 : Vec F S32x64 .f32) (x3 : Vec F S32x64 .f32) (x4 : Vec F S1x32 .f32) (xo5 xo6 : Vec F S1x32 .f32) : Vec F S1x32 .f32 :=
  VO0_6.read (Elt F) (VO0_6.writes (Elt F) VO0_6.junk (kernelRun0_B c i arg2 harg2 arg3 harg3 arg4 harg4 arg5 harg5 arg6 harg6 arg7 harg7 arg8 harg8 hc0 x0 x1 x2 x3 x4 xo5 xo6).2.1)

def outsAt0 (c : Dev nD) : (n : ℕ) → n < cfg0.N → Vec F S1x32 .f32 × Vec F S1x32 .f32
  | 0, hn =>
    (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩),
     out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
        (outsAt0 c n (Nat.lt_of_succ_lt hn)).1 (outsAt0 c n (Nat.lt_of_succ_lt hn)).2,
     out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
        (outsAt0 c n (Nat.lt_of_succ_lt hn)).1 (outsAt0 c n (Nat.lt_of_succ_lt hn)).2)

theorem outsAt0_A (c : Dev nD) (t : Fin cfg0.N) (h0 : t.val = 0) :
    outsAt0 V c t.val t.isLt =
      (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t),
       out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt =
      (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t)
          (outsAt0 V c (t.val - 1) (Nat.lt_of_le_of_lt (Nat.sub_le _ _) t.isLt)).1 (outsAt0 V c (t.val - 1) (Nat.lt_of_le_of_lt (Nat.sub_le _ _) t.isLt)).2,
       out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t)
          (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact absurd rfl h0
  | succ n => exact rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2
  Φ _ := Pipeline.ΦA spec0 c
  q := fun w => match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem Phi0 (c : Dev nD) (t) : (dat0 V c).Φ t = Pipeline.ΦA spec0 c := rfl
theorem owed0 (c : Dev nD) (t) : (dat0 V c).owed t = 0 := rfl
theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]
theorem q0_3 (c : Dev nD) : (dat0 V c).q 3 = fullShare := by dsimp only [dat0]
theorem q0_4 (c : Dev nD) : (dat0 V c).q 4 = fullShare := by dsimp only [dat0]
theorem q0_5 (c : Dev nD) : (dat0 V c).q 5 = fullShare := by dsimp only [dat0]
theorem q0_6 (c : Dev nD) : (dat0 V c).q 6 = fullShare := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

theorem before0_5_B (c : Dev nD) (t : Fin cfg0.N) (h0 : ¬t.val = 0) (d) :
    (dat0 V c).before 5 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 5 rfl t h0 (Bool.eq_false_iff.mpr fun h => by have := (flush0_5 _).mp h; dsimp only at this; omega)
    (fun _ => rfl) (fun _ _ => rfl)]
  dsimp only [dat0]

theorem before0_6_B (c : Dev nD) (t : Fin cfg0.N) (h0 : ¬t.val = 0) (d) :
    (dat0 V c).before 6 t d = (outsAt0 V c (t.val - 1) (Nat.lt_of_le_of_lt (Nat.sub_le _ _) t.isLt)).2 := by
  have hN : t.val < 64 := lt_of_lt_of_eq t.isLt (show cfg0.N = 64 from N_0)
  rw [Dat.before_out_kept _ 6 rfl t h0 (Bool.eq_false_iff.mpr fun h => by have := (flush0_6 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val = 0
  · rw [outsAt0_A V c t h0]
    dsimp only
    unfold out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk0 V c 0 t) (iblk0 V c 1 t) (iblk0 V c 2 t) (iblk0 V c 3 t) (iblk0 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _ _)
  · rw [outsAt0_B V c t h0]
    dsimp only
    simp only [before0_5_B V c t h0, before0_6_B V c t h0]
    unfold out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk0 V c 0 t) (iblk0 V c 1 t) (iblk0 V c 2 t) (iblk0 V c 3 t) (iblk0 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI.Reg1RunA.lean ====
import proofs.«145300_j21964462751805_1_alg».proof.Proof.Gen.KernelIdeal.Launch
import proofs.«145300_j21964462751805_1_alg».proof.Proof.Gen.KernelIdeal.Skeleton
import proofs.«145300_j21964462751805_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem hcond1_0 : ∀ t : Fin cfg1.N, cond1_0 (grid1.coords t) ↔ t.val % 64 = 0 :=
  (by decide +kernel : ∀ t : Fin grid1.N, cond1_0 (grid1.coords t) ↔ t.val % 64 = 0)

abbrev rS1x64x64 : Rect S1x64x64 := Rect.unit (s := S1x64x64) ![0, 0, 0] S1x64x64.size inb_S1x64x64_S1x64x64_0_0_0
abbrev rS1x256x64 : Rect S1x256x64 := Rect.unit (s := S1x256x64) ![0, 0, 0] S1x256x64.size inb_S1x256x64_S1x256x64_0_0_0
abbrev rS32x64 : Rect S32x64 := Rect.unit (s := S32x64) ![0, 0] S32x64.size inb_S32x64_S32x64_0_0
abbrev rS1x32 : Rect S1x32 := Rect.unit (s := S1x32) ![0, 0] S1x32.size inb_S1x32_S1x32_0_0
abbrev rS32x32 : Rect S32x32 := Rect.unit (s := S32x32) ![0, 0] S32x32.size inb_S32x32_S32x32_0_0
abbrev rS2x32 : Rect S2x32 := Rect.unit (s := S2x32) ![0, 0] S2x32.size inb_S2x32_S2x32_0_0
abbrev rS1x2 : Rect S1x2 := Rect.unit (s := S1x2) ![0, 0] S1x2.size inb_S1x2_S1x2_0_0
abbrev rS16x128 : Rect S16x128 := Rect.unit (s := S16x128) ![0, 0] S16x128.size inb_S16x128_S16x128_0_0
abbrev rS1x16 : Rect S1x16 := Rect.unit (s := S1x16) ![0, 0] S1x16.size inb_S1x16_S1x16_0_0
abbrev rS1x64x256 : Rect S1x64x256 := Rect.unit (s := S1x64x256) ![0, 0, 0] S1x64x256.size inb_S1x64x256_S1x64x256_0_0_0
abbrev rS1x64x16 : Rect S1x64x16 := Rect.unit (s := S1x64x16) ![0, 0, 0] S1x64x16.size inb_S1x64x16_S1x64x16_0_0_0

abbrev WholeRect {s : Shape} (r : Rect s) : Prop :=
  (∀ a, r.off a = 0) ∧ (∀ a, r.size a = s.size a) ∧ ∀ a, r.stride a = 1

theorem mem_of_whole {s : Shape} (r : Rect s) (h : WholeRect r) (y : s.Idx) : y ∈ r.set :=
  r.mem_set.mpr fun a => ⟨y a, by rw [h.2.1]; exact (y a).isLt, by rw [h.1, h.2.2]; omega⟩

theorem cover_head {s : Shape} {e : EltTy} (r : Rect s) (w : r.shape.Idx → Elt F e) (L : List (View.Piece (Elt F) s e))
    (h : WholeRect r) (y : s.Idx) :
    ∃ p ∈ ((⟨r, w⟩ : View.Piece (Elt F) s e) :: L), y ∈ p.1.set :=
  ⟨_, List.mem_cons_self, mem_of_whole r h y⟩

theorem canon_whole_head {s : Shape} {e : EltTy} (r : Rect s) (w w' : r.shape.Idx → Elt F e) (hr : WholeRect r)
    (L L' : List (View.Piece (Elt F) s e)) (h : w = w') :
    View.canon ((⟨r, w⟩ : View.Piece (Elt F) s e) :: L) = View.canon ((⟨r, w'⟩ : View.Piece (Elt F) s e) :: L') := by
  funext y
  obtain ⟨x, rfl⟩ : ∃ x, r.emb x = y := r.exists_idx_of_mem (mem_of_whole r hr y)
  rw [View.canon_cons_emb, View.canon_cons_emb, h]

def v1_6 (x0 : Vec F S1x64x64 .f32) : FVec F S64x64 .f32 := k1_pay4 (View.ld x0 rS1x64x64)

def v1_30 (x0 : Vec F S1x64x64 .f32) (x1 : Vec F S1x256x64 .f32) (x2 : Vec F S32x64 .f32) (x3 : Vec F S32x64 .f32) (x4 : Vec F S1x32 .f32) : FVec F S64x256x32 .f32 := k1_pay5 (View.ld x0 rS1x64x64) (View.ld x1 rS1x256x64) (View.ld x2 rS32x64) (View.ld x3 rS32x64) (View.ld x4 rS1x32)

def v1_32 (x5 : Vec F S1x32 .f32) : FVec F S32 .f32 := k1_pay6 (View.ld x5 rS1x32)
def v1_34 (x6 : Vec F S1x32 .f32) : FVec F S32 .f32 := k1_pay7 (View.ld x6 rS1x32)

def c1_18 : F .f32 := Scalar.ofBits .f32 0x3727C5AC#32

def v1_75 (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) : FVec F S16384x32 .bf16 :=
  k1_pay8 (v1_30 x0 x1 x2 x3 x4) (v1_32 x5) (v1_34 x6) c1_18 (View.ld x7 rS1x32) (View.ld x8 rS1x32) (View.ld x9 rS32x32) (View.ld x10 rS1x32)

def v1_78 (x11 : Vec F S2x32 .f32) : FVec F S32x2 .bf16 := k1_pay9 (View.ld x11 rS2x32)

def c1_34 : FVec F S16384x2 .f32 := constant S16384x2 .f32 0x00000000#32

def pay1_15 (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) : FVec F S1x64x256 .f32 :=
  k1_pay12 (v1_75 x0 x1 x2 x3 x4 x5 x6 x7 x8 x9 x10) (v1_78 x11) c1_34 (View.ld x12 rS1x2)

def pay1_16 (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : FVec F S1x64x16 .f32 :=
  k1_pay14 (v1_6 x0) (v1_75 x0 x1 x2 x3 x4 x5 x6 x7 x8 x9 x10) (v1_78 x11) c1_34 (View.ld x12 rS1x2) (View.ld x13 rS16x128) (View.ld x14 rS1x16)

def v1_113 (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : FVec F S16 .f32 :=
  k1_pay15 (v1_6 x0) (v1_75 x0 x1 x2 x3 x4 x5 x6 x7 x8 x9 x10) (v1_78 x11) c1_34 (View.ld x12 rS1x2) (View.ld x13 rS16x128) (View.ld x14 rS1x16)

def pay1_17 (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) : FVec F S1x16 .f32 :=
  k1_pay16 (v1_6 x0) (v1_75 x0 x1 x2 x3 x4 x5 x6 x7 x8 x9 x10) (v1_78 x11) c1_34 (View.ld x12 rS1x2) (View.ld x13 rS16x128) (View.ld x14 rS1x16) (View.ld xo17 rS1x16)

def pay1_18 (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo18 : Vec F S1x16 .f32) : FVec F S1x16 .f32 :=
  k1_pay1 (v1_113 x0 x1 x2 x3 x4 x5 x6 x7 x8 x9 x10 x11 x12 x13 x14) (View.ld xo18 rS1x16)

def out1_15 (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : Vec F S1x64x256 .f32 :=
  View.canon [⟨rS1x64x256, pay1_15 x0 x1 x2 x3 x4 x5 x6 x7 x8 x9 x10 x11 x12⟩]

def out1_16 (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : Vec F S1x64x16 .f32 :=
  View.canon [⟨rS1x64x16, pay1_16 x0 x1 x2 x3 x4 x5 x6 x7 x8 x9 x10 x11 x12 x13 x14⟩]

def out1_B_17 (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo17 : Vec F S1x16 .f32) : Vec F S1x16 .f32 :=
  View.canon [⟨rS1x16, pay1_17 x0 x1 x2 x3 x4 x5 x6 x7 x8 x9 x10 x11 x12 x13 x14 xo17⟩]

def out1_B_18 (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo18 : Vec F S1x16 .f32) : Vec F S1x16 .f32 :=
  View.canon [⟨rS1x16, pay1_18 x0 x1 x2 x3 x4 x5 x6 x7 x8 x9 x10 x11 x12 x13 x14 xo18⟩]

def out1_A_17 (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : Vec F S1x16 .f32 :=
  out1_B_17 x0 x1 x2 x3 x4 x5 x6 x7 x8 x9 x10 x11 x12 x13 x14 (View.canon [⟨rS1x16, k1_pay2 (F := F)⟩])

def out1_A_18 (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) : Vec F S1x16 .f32 :=
  out1_B_18 x0 x1 x2 x3 x4 x5 x6 x7 x8 x9 x10 x11 x12 x13 x14 (View.canon [⟨rS1x16, k1_pay3 (F := F)⟩])

set_option maxHeartbeats 4000000 in

theorem sound_kernel1_A (c : Dev nD) (E : Set ℕ) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo15 : Vec F S1x64x256 .f32) (xo16 : Vec F S1x64x16 .f32) (xo17 : Vec F S1x16 .f32) (xo18 : Vec F S1x16 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xo15 ∗ owns (c : Thread nD τ) arg18 fullShare xo16 ∗ owns (c : Thread nD τ) arg19 fullShare xo17 ∗ owns (c : Thread nD τ) arg20 fullShare xo18
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare (out1_15 x0 x1 x2 x3 x4 x5 x6 x7 x8 x9 x10 x11 x12 x13 x14) ∗ owns (c : Thread nD τ) arg18 fullShare (out1_16 x0 x1 x2 x3 x4 x5 x6 x7 x8 x9 x10 x11 x12 x13 x14) ∗ owns (c : Thread nD τ) arg19 fullShare (out1_A_17 x0 x1 x2 x3 x4 x5 x6 x7 x8 x9 x10 x11 x12 x13 x14) ∗ owns (c : Thread nD τ) arg20 fullShare (out1_A_18 x0 x1 x2 x3 x4 x5 x6 x7 x8 x9 x10 x11 x12 x13 x14)) -∗ K ⟨⟩))
      ⊢ wp frame (wpE (defs₀ (F := F)) Variants.none c none) E (cc1__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1__main_body_eq_skeleton]; unfold cc1__main_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover_head _ _ _ (by decide))
  isplitl [H16]
  · iexists _; isplitr
    swap; · iexact H16
    ipureintro
    exact View.read_writes_eq_canon _ _ _ (cover_head _ _ _ (by decide))
  isplitl [H17]
  · iexists _; isplitr
    swap; · iexact H17
    ipureintro
    refine (View.read_writes_eq_canon _ _ _ (cover_head _ _ _ (by decide))).trans ?_
    exact canon_whole_head _ _ _ (by decide) _ _ (congrArg (k1_pay16 _ _ _ _ _ _ _) (View.readCov_eq_canon' _ _ _))
  iexists _; isplitr
  swap; · iexact H18
  ipureintro
  refine (View.read_writes_eq_canon _ _ _ (cover_head _ _ _ (by decide))).trans ?_
  exact canon_whole_head _ _ _ (by decide) _ _ (congrArg (k1_pay1 _) (View.readCov_eq_canon' _ _ _))

end Cert.KernelIdeal.Hand

end
-- ==== Proof.KI.Reg1RunB.lean ====
import proofs.«145300_j21964462751805_1_alg».proof.Proof.KI.Reg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

theorem sound_kernel1_B (c : Dev nD) (E : Set ℕ) (i : grid1.Coords) (arg2 : Memref sig .tc .vmem S1x64x64 .f32) (harg2 : arg2.IsWhole) (arg3 : Memref sig .tc .vmem S1x256x64 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S2x32 .f32) (harg13 : arg13.IsWhole) (arg14 : Memref sig .tc .vmem S1x2 .f32) (harg14 : arg14.IsWhole) (arg15 : Memref sig .tc .vmem S16x128 .f32) (harg15 : arg15.IsWhole) (arg16 : Memref sig .tc .vmem S1x16 .f32) (harg16 : arg16.IsWhole) (arg17 : Memref sig .tc .vmem S1x64x256 .f32) (harg17 : arg17.IsWhole) (arg18 : Memref sig .tc .vmem S1x64x16 .f32) (harg18 : arg18.IsWhole) (arg19 : Memref sig .tc .vmem S1x16 .f32) (harg19 : arg19.IsWhole) (arg20 : Memref sig .tc .vmem S1x16 .f32) (harg20 : arg20.IsWhole) (hc0 : ¬cond1_0 i)
    (x0 : Vec F S1x64x64 .f32) (x1 : Vec F S1x256x64 .f32) (x2 : Vec F S32x64 .f32) (x3 : Vec F S32x64 .f32) (x4 : Vec F S1x32 .f32) (x5 : Vec F S1x32 .f32) (x6 : Vec F S1x32 .f32) (x7 : Vec F S1x32 .f32) (x8 : Vec F S1x32 .f32) (x9 : Vec F S32x32 .f32) (x10 : Vec F S1x32 .f32) (x11 : Vec F S2x32 .f32) (x12 : Vec F S1x2 .f32) (x13 : Vec F S16x128 .f32) (x14 : Vec F S1x16 .f32) (xo15 : Vec F S1x64x256 .f32) (xo16 : Vec F S1x64x16 .f32) (xo17 : Vec F S1x16 .f32) (xo18 : Vec F S1x16 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xo15 ∗ owns (c : Thread nD τ) arg18 fullShare xo16 ∗ owns (c : Thread nD τ) arg19 fullShare xo17 ∗ owns (c : Thread nD τ) arg20 fullShare xo18
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare (out1_15 x0 x1 x2 x3 x4 x5 x6 x7 x8 x9 x10 x11 x12 x13 x14) ∗ owns (c : Thread nD τ) arg18 fullShare (out1_16 x0 x1 x2 x3 x4 x5 x6 x7 x8 x9 x10 x11 x12 x13 x14) ∗ owns (c : Thread nD τ) arg19 fullShare (out1_B_17 x0 x1 x2 x3 x4 x5 x6 x7 x8 x9 x10 x11 x12 x13 x14 xo17) ∗ owns (c : Thread nD τ) arg20 fullShare (out1_B_18 x0 x1 x2 x3 x4 x5 x6 x7 x8 x9 x10 x11 x12 x13 x14 xo18)) -∗ K ⟨⟩))
      ⊢ wp frame (wpE (defs₀ (F := F)) Variants.none c none) E (cc1__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1__main_body_eq_skeleton]; unfold cc1__main_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover_head _ _ _ (by decide))
  isplitl [H16]
  · iexists _; isplitr
    swap; · iexact H16
    ipureintro
    exact View.read_writes_eq_canon _ _ _ (cover_head _ _ _ (by decide))
  isplitl [H17]
  · iexists _; isplitr
    swap; · iexact H17
    ipureintro
    exact View.read_writes_eq_canon _ _ _ (cover_head _ _ _ (by decide))
  iexists _; isplitr
  swap; · iexact H18
  ipureintro
  exact View.read_writes_eq_canon _ _ _ (cover_head _ _ _ (by decide))

end Cert.KernelIdeal.Hand

end
-- ==== Proof.KI.Reg1.lean ====
import proofs.«145300_j21964462751805_1_alg».proof.Proof.KI.Reg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def outsAt1 (c : Dev nD) : (n : ℕ) → n < cfg1.N → Vec F S1x16 .f32 × Vec F S1x16 .f32
  | 0, hn => (out1_A_17 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩), out1_A_18 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩))
  | n + 1, hn =>
    if h0 : (n + 1) % 64 = 0 then
      (out1_A_17 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩), out1_A_18 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩))
    else
      (out1_B_17 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (outsAt1 c n (Nat.lt_of_succ_lt hn)).1,
       out1_B_18 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (outsAt1 c n (Nat.lt_of_succ_lt hn)).2)

theorem outsAt1_A (c : Dev nD) (t : Fin cfg1.N) (h0 : t.val % 64 = 0) :
    outsAt1 V c t.val t.isLt = (out1_A_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t), out1_A_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)) := by
  obtain ⟨n, hn⟩ := t
  cases n with
  | zero => exact rfl
  | succ n => exact (dif_pos h0).trans rfl

theorem outsAt1_B (c : Dev nD) (t : Fin cfg1.N) (h0 : ¬t.val % 64 = 0) :
    outsAt1 V c t.val t.isLt =
      (out1_B_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).1,
       out1_B_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨17, _⟩ => (outsAt1 V c t.val t.isLt).1
    | ⟨18, _⟩ => (outsAt1 V c t.val t.isLt).2
    | ⟨_ + 19, h⟩ => absurd h (Nat.not_lt.2 (Nat.le_add_left _ _))
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨_ + 19, h⟩ => absurd h (Nat.not_lt.2 (Nat.le_add_left _ _))
  owed _ := 0

theorem A_eq1 (c : Dev nD) (w : Fin cfg1.W) : (dat1 V c).A w = V c (Pipeline.arrRef spec1 w) := by
  dsimp only [dat1]
theorem Phi1 (c : Dev nD) (t : Fin (cfg1.N + 1)) : (dat1 V c).Φ t = Pipeline.ΦA spec1 c := rfl
theorem owed1 (c : Dev nD) (t : Fin (cfg1.N + 1)) : (dat1 V c).owed t = 0 := rfl

theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]
theorem q1_5 (c : Dev nD) : (dat1 V c).q 5 = fullShare := by dsimp only [dat1]
theorem q1_6 (c : Dev nD) : (dat1 V c).q 6 = fullShare := by dsimp only [dat1]
theorem q1_7 (c : Dev nD) : (dat1 V c).q 7 = fullShare := by dsimp only [dat1]
theorem q1_8 (c : Dev nD) : (dat1 V c).q 8 = fullShare := by dsimp only [dat1]
theorem q1_9 (c : Dev nD) : (dat1 V c).q 9 = fullShare := by dsimp only [dat1]
theorem q1_10 (c : Dev nD) : (dat1 V c).q 10 = fullShare := by dsimp only [dat1]
theorem q1_11 (c : Dev nD) : (dat1 V c).q 11 = fullShare := by dsimp only [dat1]
theorem q1_12 (c : Dev nD) : (dat1 V c).q 12 = fullShare := by dsimp only [dat1]
theorem q1_13 (c : Dev nD) : (dat1 V c).q 13 = fullShare := by dsimp only [dat1]
theorem q1_14 (c : Dev nD) : (dat1 V c).q 14 = fullShare := by dsimp only [dat1]
theorem q1_15 (c : Dev nD) : (dat1 V c).q 15 = fullShare := by dsimp only [dat1]
theorem q1_16 (c : Dev nD) : (dat1 V c).q 16 = fullShare := by dsimp only [dat1]
theorem q1_17 (c : Dev nD) : (dat1 V c).q 17 = fullShare := by dsimp only [dat1]
theorem q1_18 (c : Dev nD) : (dat1 V c).q 18 = fullShare := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_17 (c : Dev nD) (t : Fin cfg1.N) : (dat1 V c).after 17 t = (outsAt1 V c t.val t.isLt).1 := by dsimp only [dat1]
theorem after1_18 (c : Dev nD) (t : Fin cfg1.N) : (dat1 V c).after 18 t = (outsAt1 V c t.val t.isLt).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl
theorem before1_9 (c : Dev nD) (t : Fin cfg1.N) (d) : (dat1 V c).before 9 t d = iblk1 V c 9 t :=
  ((dat1 V c).before_in_eq_fetched 9 rfl (fun _ => rfl) (fun _ _ _ => rfl) (fun _ => rfl) t d).trans rfl
theorem before1_10 (c : Dev nD) (t : Fin cfg1.N) (d) : (dat1 V c).before 10 t d = iblk1 V c 10 t :=
  ((dat1 V c).before_in_eq_fetched 10 rfl (fun _ => rfl) (fun _ _ _ => rfl) (fun _ => rfl) t d).trans rfl
theorem before1_11 (c : Dev nD) (t : Fin cfg1.N) (d) : (dat1 V c).before 11 t d = iblk1 V c 11 t :=
  ((dat1 V c).before_in_eq_fetched 11 rfl (fun _ => rfl) (fun _ _ _ => rfl) (fun _ => rfl) t d).trans rfl
theorem before1_12 (c : Dev nD) (t : Fin cfg1.N) (d) : (dat1 V c).before 12 t d = iblk1 V c 12 t :=
  ((dat1 V c).before_in_eq_fetched 12 rfl (fun _ => rfl) (fun _ _ _ => rfl) (fun _ => rfl) t d).trans rfl
theorem before1_13 (c : Dev nD) (t : Fin cfg1.N) (d) : (dat1 V c).before 13 t d = iblk1 V c 13 t :=
  ((dat1 V c).before_in_eq_fetched 13 rfl (fun _ => rfl) (fun _ _ _ => rfl) (fun _ => rfl) t d).trans rfl
theorem before1_14 (c : Dev nD) (t : Fin cfg1.N) (d) : (dat1 V c).before 14 t d = iblk1 V c 14 t :=
  ((dat1 V c).before_in_eq_fetched 14 rfl (fun _ => rfl) (fun _ _ _ => rfl) (fun _ => rfl) t d).trans rfl

theorem before1_17_B (c : Dev nD) (t : Fin cfg1.N) (h0 : ¬t.val % 64 = 0) (d) :
    (dat1 V c).before 17 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 17 rfl t (by omega) (Bool.eq_false_iff.mpr fun h => by have := (flush1_17 _).mp h; dsimp only at this; omega)
    (fun _ => rfl) (fun _ _ => rfl)]
  dsimp only [dat1]
theorem before1_18_B (c : Dev nD) (t : Fin cfg1.N) (h0 : ¬t.val % 64 = 0) (d) :
    (dat1 V c).before 18 t d = (outsAt1 V c (t.val - 1) (Nat.lt_of_le_of_lt (Nat.sub_le _ _) t.isLt)).2 := by
  have hN : t.val < 64 := lt_of_lt_of_eq t.isLt (show cfg1.N = 64 from N_1)
  rw [Dat.before_out_kept _ 18 rfl t (by omega) (Bool.eq_false_iff.mpr fun h => by have := (flush1_18 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t))

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18]
  by_cases h0 : t.val % 64 = 0
  ·
    simp only [outsAt1_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (sound_kernel1_A c Set.univ (grid1.coords t) _ _ _ _ _ _ _ _ _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H0, H1, H2, H3, H4, H5, H6, H7, H8, H9, H10, H11, H12, H13, H14, H15, H16, H17, H18⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  ·
    simp only [outsAt1_B V c t h0, before1_17_B V c t h0, before1_18_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (sound_kernel1_B c Set.univ (grid1.coords t) _ _ _ _ _ _ _ _ _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H0, H1, H2, H3, H4, H5, H6, H7, H8, H9, H10, H11, H12, H13, H14, H15, H16, H17, H18⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Reg2.lean ====
import proofs.«145300_j21964462751805_1_alg».proof.Proof.Gen.KernelIdeal.Launch
import proofs.«145300_j21964462751805_1_alg».proof.Proof.Gen.KernelIdeal.Skeleton
import proofs.«145300_j21964462751805_1_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1x256x16 := Rect.unit (s := S1x256x16) ![0, 0, 0] S1x256x16.size inb_S1x256x16_S1x256x16_0_0_0
abbrev r2_1 : Rect S1x16 := Rect.unit (s := S1x16) ![0, 0] S1x16.size inb_S1x16_S1x16_0_0
abbrev r2_5 : Rect S64x16 := Rect.unit (s := S64x16) ![0, 0] S64x16.size inb_S64x16_S64x16_0_0
abbrev r2_6 : Rect S1x64 := Rect.unit (s := S1x64) ![0, 0] S1x64.size inb_S1x64_S1x64_0_0
abbrev r2_7 : Rect S1x256x64 := Rect.unit (s := S1x256x64) ![0, 0, 0] S1x256x64.size inb_S1x256x64_S1x256x64_0_0_0

def out2_7 (x0 : Vec F S1x256x16 .f32) (x1 x2 x3 x4 : Vec F S1x16 .f32) (x5 : Vec F S64x16 .f32) (x6 : Vec F S1x64 .f32) : Vec F S1x256x64 .f32 :=
  View.canon [⟨r2_7, k2_pay1 (k2_pay2 (View.ld x0 r2_0) (View.ld x1 r2_1) (View.ld x2 r2_1) (View.ld x3 r2_1) (View.ld x4 r2_1) (View.ld x5 r2_5) (View.ld x6 r2_6))⟩]

theorem cover2_7 (p0 : Vec F S1x256x64 .f32) (y : S1x256x64.Idx) :
    ∃ pc ∈ ([⟨r2_7, p0⟩] : List (View.Piece (Elt F) S1x256x64 .f32)), y ∈ pc.1.set :=
  View.cover_of_tiled [⟨r2_7, p0⟩] S1x256x64.size (by rfl) y

set_option maxHeartbeats 1000000 in

theorem sound_kernel2 (c : Dev nD) (E : Set ℕ) (i : grid2.Coords)
    (arg1 : Memref sig .tc .vmem S1x256x16 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S1x16 .f32) (harg4 : arg4.IsWhole)
    (arg5 : Memref sig .tc .vmem S1x16 .f32) (harg5 : arg5.IsWhole) (arg6 : Memref sig .tc .vmem S64x16 .f32) (harg6 : arg6.IsWhole)
    (arg7 : Memref sig .tc .vmem S1x64 .f32) (harg7 : arg7.IsWhole) (arg8 : Memref sig .tc .vmem S1x256x64 .f32) (harg8 : arg8.IsWhole)
    (x0 : Vec F S1x256x16 .f32) (x1 x2 x3 x4 : Vec F S1x16 .f32) (x5 : Vec F S64x16 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__finalize_body i arg1 harg1 arg2 harg2 arg3 harg3 arg4 harg4 arg5 harg5 arg6 harg6 arg7 harg7 arg8 harg8) K := by
  simp only [cc2__finalize_body_eq_skeleton]; unfold cc2__finalize_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem Phi2 (c : Dev nD) (j) : (dat2 V c).Φ j = Pipeline.ΦA spec2 c := rfl
theorem owed2 (c : Dev nD) (j) : (dat2 V c).owed j = 0 := rfl
theorem q2 (c : Dev nD) (w : Fin cfg2.W) : (dat2 V c).q w = fullShare := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Chain.lean ====
import proofs.«145300_j21964462751805_1_alg».proof.Proof.Gen.KernelIdeal.Launch
import proofs.«145300_j21964462751805_1_alg».proof.Proof.Gen.KernelIdeal.Skeleton
import proofs.«145300_j21964462751805_1_alg».proof.Proof.Gen.KernelIdeal.Points
import proofs.«145300_j21964462751805_1_alg».proof.Proof.Gen.KernelIdeal.Regions
import proofs.«145300_j21964462751805_1_alg».proof.Proof.KI.Reg0
import proofs.«145300_j21964462751805_1_alg».proof.Proof.KI.Reg1
import proofs.«145300_j21964462751805_1_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Function.update (Function.update (W1 m c) (Proc.devRef .tc main_v11_0) ((dat0 (V1 m) c).arrAt 5 cfg0.N : Buf (Elt F) ((c : Thread nD τ).loc main_v11_0)))
    (Proc.devRef .tc main_v11_1) ((dat0 (V1 m) c).arrAt 6 cfg0.N : Buf (Elt F) ((c : Thread nD τ).loc main_v11_1))
theorem W2_v11_0 (c : Dev nD) : W2 m c (Proc.devRef .tc main_v11_0) = (dat0 (V1 m) c).arrAt 5 cfg0.N := by
  unfold W2; rw [Function.update_of_ne (StableHlo.devRef_ne_of_ne (by decide)), Function.update_self]
theorem W2_v11_1 (c : Dev nD) : W2 m c (Proc.devRef .tc main_v11_1) = (dat0 (V1 m) c).arrAt 6 cfg0.N := by
  unfold W2; rw [Function.update_self]
theorem W2_of_ne (c : Dev nD) (b : Ref sig .tc) (h0 : b ≠ main_v11_0) (h1 : b ≠ main_v11_1) :
    W2 m c (Proc.devRef .tc b) = W1 m c (Proc.devRef .tc b) := by
  unfold W2; rw [Function.update_of_ne (StableHlo.devRef_ne_of_ne h1), Function.update_of_ne (StableHlo.devRef_ne_of_ne h0)]

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Function.update (Function.update (Function.update (Function.update (W3 m c)
    (Proc.devRef .tc main_v18_0) ((dat1 (V3 m) c).arrAt 15 cfg1.N : Buf (Elt F) ((c : Thread nD τ).loc main_v18_0)))
    (Proc.devRef .tc main_v18_1) ((dat1 (V3 m) c).arrAt 16 cfg1.N : Buf (Elt F) ((c : Thread nD τ).loc main_v18_1)))
    (Proc.devRef .tc main_v18_2) ((dat1 (V3 m) c).arrAt 17 cfg1.N : Buf (Elt F) ((c : Thread nD τ).loc main_v18_2)))
    (Proc.devRef .tc main_v18_3) ((dat1 (V3 m) c).arrAt 18 cfg1.N : Buf (Elt F) ((c : Thread nD τ).loc main_v18_3))
theorem W4_v18_0 (c : Dev nD) : W4 m c (Proc.devRef .tc main_v18_0) = (dat1 (V3 m) c).arrAt 15 cfg1.N := by
  unfold W4; rw [Function.update_of_ne (StableHlo.devRef_ne_of_ne (by decide)), Function.update_of_ne (StableHlo.devRef_ne_of_ne (by decide)),
    Function.update_of_ne (StableHlo.devRef_ne_of_ne (by decide)), Function.update_self]
theorem W4_v18_1 (c : Dev nD) : W4 m c (Proc.devRef .tc main_v18_1) = (dat1 (V3 m) c).arrAt 16 cfg1.N := by
  unfold W4; rw [Function.update_of_ne (StableHlo.devRef_ne_of_ne (by decide)), Function.update_of_ne (StableHlo.devRef_ne_of_ne (by decide)),
    Function.update_self]
theorem W4_v18_2 (c : Dev nD) : W4 m c (Proc.devRef .tc main_v18_2) = (dat1 (V3 m) c).arrAt 17 cfg1.N := by
  unfold W4; rw [Function.update_of_ne (StableHlo.devRef_ne_of_ne (by decide)), Function.update_self]
theorem W4_v18_3 (c : Dev nD) : W4 m c (Proc.devRef .tc main_v18_3) = (dat1 (V3 m) c).arrAt 18 cfg1.N := by
  unfold W4; rw [Function.update_self]
theorem W4_of_ne (c : Dev nD) (b : Ref sig .tc) (h0 : b ≠ main_v18_0) (h1 : b ≠ main_v18_1) (h2 : b ≠ main_v18_2) (h3 : b ≠ main_v18_3) :
    W4 m c (Proc.devRef .tc b) = W3 m c (Proc.devRef .tc b) := by
  unfold W4; rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]

abbrev W5 : Dev nD → Valuation τ sig (Elt F) := fun c => StableHlo.after hostOps2 (W4 m c)
abbrev V5 : (c : Dev nD) → (b : Ref sig .tc) → Buf (Elt F) ((c : Thread nD τ).loc b) := fun c b => W5 m c b

def W6 (c : Dev nD) : Valuation τ sig (Elt F) :=
  Function.update (W5 m c) (Proc.devRef .tc main_v25) ((dat2 (V5 m) c).arrAt 7 cfg2.N : Buf (Elt F) ((c : Thread nD τ).loc main_v25))
theorem W6_v25 (c : Dev nD) : W6 m c (Proc.devRef .tc main_v25) = (dat2 (V5 m) c).arrAt 7 cfg2.N := by
  unfold W6; rw [Function.update_self]
theorem W6_of_ne (c : Dev nD) (b : Ref sig .tc) (h : b ≠ main_v25) : W6 m c (Proc.devRef .tc b) = W5 m c (Proc.devRef .tc b) := by
  unfold W6; rw [Function.update_of_ne (StableHlo.devRef_ne_of_ne h)]
abbrev V6 : (c : Dev nD) → (b : Ref sig .tc) → Buf (Elt F) ((c : Thread nD τ).loc b) := fun c b => W6 m c b

abbrev W7 : Dev nD → Valuation τ sig (Elt F) := fun c => StableHlo.after hostOps3 (W6 m c)

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h

abbrev written : List (Ref sig .tc) :=
  hostOps0_W ++ [main_v11_0, main_v11_1] ++ hostOps1_W ++ [main_v18_0, main_v18_1, main_v18_2, main_v18_3] ++ hostOps2_W ++ [main_v25] ++ hostOps3_W

theorem W7_kept (c : Dev nD) (r : Ref sig .tc) (h : r ∉ written) : W7 m c r = m ((c : Thread nD τ).loc r) := by
  have h' : r ∉ hostOps0_W ∧ (r ≠ main_v11_0 ∧ r ≠ main_v11_1) ∧ r ∉ hostOps1_W ∧ (r ≠ main_v18_0 ∧ r ≠ main_v18_1 ∧ r ≠ main_v18_2 ∧ r ≠ main_v18_3)
      ∧ r ∉ hostOps2_W ∧ r ≠ main_v25 ∧ r ∉ hostOps3_W := by
    simp only [written, hostOps0_W, hostOps1_W, hostOps2_W, hostOps3_W, ne_eq, List.mem_append, List.mem_cons, List.not_mem_nil, or_false, not_or] at h ⊢
    tauto
  obtain ⟨a, ⟨b0, b1⟩, d, ⟨e0, e1, e2, e3⟩, f, g, k⟩ := h'
  exact (W7_of m c r k).trans <| (W6_of_ne m c r g).trans <| (W5_of m c r f).trans <| (W4_of_ne m c r e0 e1 e2 e3).trans <|
    (W3_of m c r d).trans <| (W2_of_ne m c r b0 b1).trans <| (W1_of m c r a).trans rfl

end Cert.KernelIdeal.Hand

end
-- ==== Proof.KI.Shared0.lean ====
/-
  Region 0's arrays as separate buffers. Two of its windows read the node features' array; each holds one half of
  that buffer's share, so that together they hold it whole: at the region's entry the whole buffer is split into
  the two halves, at its exit the halves are joined. Every other array's buffer is held whole by its one window.
-/
import proofs.«145300_j21964462751805_1_alg».proof.Proof.Gen.KernelIdeal.Launch
import proofs.«145300_j21964462751805_1_alg».proof.Proof.Gen.KernelIdeal.Skeleton
import proofs.«145300_j21964462751805_1_alg».proof.Proof.Gen.KernelIdeal.Points
import proofs.«145300_j21964462751805_1_alg».proof.Proof.Gen.KernelIdeal.Regions
import proofs.«145300_j21964462751805_1_alg».proof.Proof.KI.Reg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg0
variable (V : (c : Dev nD) → (b : Ref sig .tc) → Buf (Elt F) ((c : Thread nD τ).loc b))

/-! The share each window of region 0 holds of its array: the two windows on the node features hold its two halves. -/
theorem share0_0 (c : Dev nD) : (dat0 V c).share 0 = fullShare.left := by
  unfold Dat.share; rw [show (cfg0.win 0).isOut = false from rfl]; exact q0_0 V c
theorem share0_1 (c : Dev nD) : (dat0 V c).share 1 = fullShare.right := by
  unfold Dat.share; rw [show (cfg0.win 1).isOut = false from rfl]; exact q0_1 V c
theorem share0_2 (c : Dev nD) : (dat0 V c).share 2 = fullShare := by
  unfold Dat.share; rw [show (cfg0.win 2).isOut = false from rfl]; exact q0_2 V c
theorem share0_3 (c : Dev nD) : (dat0 V c).share 3 = fullShare := by
  unfold Dat.share; rw [show (cfg0.win 3).isOut = false from rfl]; exact q0_3 V c
theorem share0_4 (c : Dev nD) : (dat0 V c).share 4 = fullShare := by
  unfold Dat.share; rw [show (cfg0.win 4).isOut = false from rfl]; exact q0_4 V c
theorem share0_5 (c : Dev nD) : (dat0 V c).share 5 = fullShare := by
  unfold Dat.share; rw [show (cfg0.win 5).isOut = true from rfl]; rfl
theorem share0_6 (c : Dev nD) : (dat0 V c).share 6 = fullShare := by
  unfold Dat.share; rw [show (cfg0.win 6).isOut = true from rfl]; rfl

set_option maxHeartbeats 16000000 in
/-- Region 0's arrays, window by window: the node features' buffer held in two halves by the two windows that
    read it, every other array's buffer whole. -/
theorem arrays0_eq (c : Dev nD) (G : (w : Fin cfg0.W) → Buf (Elt F) ((cfg0.win w).arr.view.loc (c : Thread nD τ))) :
    ((dat0 V c).arrays G : sProp 𝕄) = iprop(
      (((c : Thread nD τ).loc main_arg0) ↦{fullShare.left} G 0)
      ∗ (((c : Thread nD τ).loc main_arg0) ↦{fullShare.right} G 1)
      ∗ (((c : Thread nD τ).loc main_v0) ↦{fullShare} G 2)
      ∗ (((c : Thread nD τ).loc main_v1) ↦{fullShare} G 3)
      ∗ (((c : Thread nD τ).loc main_v2) ↦{fullShare} G 4)
      ∗ (((c : Thread nD τ).loc main_v11_0) ↦{fullShare} G 5)
      ∗ (((c : Thread nD τ).loc main_v11_1) ↦{fullShare} G 6)) := by
  unfold Dat.arrays
  rw [bigSep_W0]
  rw [(arr_whole0 0).set_eq_univ, (arr_whole0 2).set_eq_univ, (arr_whole0 3).set_eq_univ, (arr_whole0 4).set_eq_univ, (arr_whole0 5).set_eq_univ, (arr_whole0 6).set_eq_univ]
  rw [share0_0, share0_1, share0_2, share0_3, share0_4, share0_5, share0_6]

/-- The distinct buffers behind region 0's arrays, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄) = iprop(
      (((c : Thread nD τ).loc main_arg0) ↦{fullShare} V' main_arg0)
      ∗ (((c : Thread nD τ).loc main_v0) ↦{fullShare} V' main_v0)
      ∗ (((c : Thread nD τ).loc main_v1) ↦{fullShare} V' main_v1)
      ∗ (((c : Thread nD τ).loc main_v2) ↦{fullShare} V' main_v2)
      ∗ (((c : Thread nD τ).loc main_v11_0) ↦{fullShare} V' main_v11_0)
      ∗ (((c : Thread nD τ).loc main_v11_1) ↦{fullShare} V' main_v11_1)) := by
  unfold Pipeline.arrBufs
  exact bigSep_eq_bigSepL_of_eq [main_arg0, main_v0, main_v1, main_v2, main_v11_0, main_v11_1] (by decide) (by decide) _

set_option maxHeartbeats 16000000 in
/-- ENTRY: the distinct buffers behind region 0's arrays, each whole at the entry contents, are its arrays at their
    entry contents: the node features' buffer splits into the two halves its two windows hold. -/
theorem entry0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrays0_eq, arrBufs0_eq]
  rw [show (dat0 V c).arrAt 0 0 = V c main_arg0 from A_eq0 V c 0,
    show (dat0 V c).arrAt 1 0 = V c main_arg0 from A_eq0 V c 1,
    show (dat0 V c).arrAt 2 0 = V c main_v0 from A_eq0 V c 2,
    show (dat0 V c).arrAt 3 0 = V c main_v1 from A_eq0 V c 3,
    show (dat0 V c).arrAt 4 0 = V c main_v2 from A_eq0 V c 4,
    show (dat0 V c).arrAt 5 0 = V c main_v11_0 from A_eq0 V c 5,
    show (dat0 V c).arrAt 6 0 = V c main_v11_1 from A_eq0 V c 6]
  iintro ⟨H0, H1, H2, H3, H4, H5⟩
  ihave Hs := (pointsTo_share (PosShare.mem_left_op_right fullShare)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  iexact H5

set_option maxHeartbeats 16000000 in
/-- EXIT: region 0's arrays at what the pipeline leaves are the distinct buffers behind them whole at any contents
    `V'` that has the inputs as entered and each result at what its write-backs leave: the two halves of the node
    features' buffer join. -/
theorem exit0 (c : Dev nD) (V' : (b : Ref sig .tc) → Buf (Elt F) ((c : Thread nD τ).loc b))
    (h_main_arg0 : V' main_arg0 = V c main_arg0)
    (h_main_v0 : V' main_v0 = V c main_v0)
    (h_main_v1 : V' main_v1 = V c main_v1)
    (h_main_v2 : V' main_v2 = V c main_v2)
    (h_main_v11_0 : V' main_v11_0 = (dat0 V c).arrAt 5 cfg0.N)
    (h_main_v11_1 : V' main_v11_1 = (dat0 V c).arrAt 6 cfg0.N) :
    ((dat0 V c).arrays ((dat0 V c).arrAt · cfg0.N) : sProp 𝕄)
      ⊢ Pipeline.arrBufs (Ix := Unit) (Name := ℕ) (U := UR sig nD τ) (Lvl := ℕ) spec0 c V' := by
  rw [arrays0_eq, arrBufs0_eq]
  rw [show (dat0 V c).arrAt 0 cfg0.N = V c main_arg0 from ((dat0 V c).arrAt_in 0 rfl _).trans (A_eq0 V c 0),
    show (dat0 V c).arrAt 1 cfg0.N = V c main_arg0 from ((dat0 V c).arrAt_in 1 rfl _).trans (A_eq0 V c 1),
    show (dat0 V c).arrAt 2 cfg0.N = V c main_v0 from ((dat0 V c).arrAt_in 2 rfl _).trans (A_eq0 V c 2),
    show (dat0 V c).arrAt 3 cfg0.N = V c main_v1 from ((dat0 V c).arrAt_in 3 rfl _).trans (A_eq0 V c 3),
    show (dat0 V c).arrAt 4 cfg0.N = V c main_v2 from ((dat0 V c).arrAt_in 4 rfl _).trans (A_eq0 V c 4)]
  rw [h_main_arg0, h_main_v0, h_main_v1, h_main_v2, h_main_v11_0, h_main_v11_1]
  iintro ⟨Ha, Hb, H1, H2, H3, H4, H5⟩
  isplitl [Ha Hb]
  · iapply (pointsTo_share (PosShare.mem_left_op_right fullShare)).2
    isplitl [Ha]; · iexact Ha
    iexact Hb
  isplitl [H1]; · iexact H1
  isplitl [H2]; · iexact H2
  isplitl [H3]; · iexact H3
  isplitl [H4]; · iexact H4
  iexact H5

end Reg0

end Cert.KernelIdeal.Hand

end
-- ==== Proof.KI.Shared1.lean ====
/-
  Region 1's arrays as separate buffers. Two of its windows read the node features' array; each holds one half of
  that buffer's share, so that together they hold it whole: at the region's entry the whole buffer is split into
  the two halves, at its exit the halves are joined. Every other array's buffer is held whole by its one window.
-/
import proofs.«145300_j21964462751805_1_alg».proof.Proof.Gen.KernelIdeal.Launch
import proofs.«145300_j21964462751805_1_alg».proof.Proof.Gen.KernelIdeal.Skeleton
import proofs.«145300_j21964462751805_1_alg».proof.Proof.Gen.KernelIdeal.Points
import proofs.«145300_j21964462751805_1_alg».proof.Proof.Gen.KernelIdeal.Regions
import proofs.«145300_j21964462751805_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reg1
variable (V : (c : Dev nD) → (b : Ref sig .tc) → Buf (Elt F) ((c : Thread nD τ).loc b))

/-! The share each window of region 1 holds of its array: the two windows on the node features hold its two halves. -/
theorem share1_0 (c : Dev nD) : (dat1 V c).share 0 = fullShare.left := by
  unfold Dat.share; rw [show (cfg1.win 0).isOut = false from rfl]; exact q1_0 V c
theorem share1_1 (c : Dev nD) : (dat1 V c).share 1 = fullShare.right := by
  unfold Dat.share; rw [show (cfg1.win 1).isOut = false from rfl]; exact q1_1 V c
theorem share1_2 (c : Dev nD) : (dat1 V c).share 2 = fullShare := by
  unfold Dat.share; rw [show (cfg1.win 2).isOut = false from rfl]; exact q1_2 V c
theorem share1_3 (c : Dev nD) : (dat1 V c).share 3 = fullShare := by
  unfold Dat.share; rw [show (cfg1.win 3).isOut = false from rfl]; exact q1_3 V c
theorem share1_4 (c : Dev nD) : (dat1 V c).share 4 = fullShare := by
  unfold Dat.share; rw [show (cfg1.win 4).isOut = false from rfl]; exact q1_4 V c
theorem share1_5 (c : Dev nD) : (dat1 V c).share 5 = fullShare := by
  unfold Dat.share; rw [show (cfg1.win 5).isOut = false from rfl]; exact q1_5 V c
theorem share1_6 (c : Dev nD) : (dat1 V c).share 6 = fullShare := by
  unfold Dat.share; rw [show (cfg1.win 6).isOut = false from rfl]; exact q1_6 V c
theorem share1_7 (c : Dev nD) : (dat1 V c).share 7 = fullShare := by
  unfold Dat.share; rw [show (cfg1.win 7).isOut = false from rfl]; exact q1_7 V c
theorem share1_8 (c : Dev nD) : (dat1 V c).share 8 = fullShare := by
  unfold Dat.share; rw [show (cfg1.win 8).isOut = false from rfl]; exact q1_8 V c
theorem share1_9 (c : Dev nD) : (dat1 V c).share 9 = fullShare := by
  unfold Dat.share; rw [show (cfg1.win 9).isOut = false from rfl]; exact q1_9 V c
theorem share1_10 (c : Dev nD) : (dat1 V c).share 10 = fullShare := by
  unfold Dat.share; rw [show (cfg1.win 10).isOut = false from rfl]; exact q1_10 V c
theorem share1_11 (c : Dev nD) : (dat1 V c).share 11 = fullShare := by
  unfold Dat.share; rw [show (cfg1.win 11).isOut = false from rfl]; exact q1_11 V c
theorem share1_12 (c : Dev nD) : (dat1 V c).share 12 = fullShare := by
  unfold Dat.share; rw [show (cfg1.win 12).isOut = false from rfl]; exact q1_12 V c
theorem share1_13 (c : Dev nD) : (dat1 V c).share 13 = fullShare := by
  unfold Dat.share; rw [show (cfg1.win 13).isOut = false from rfl]; exact q1_13 V c
theorem share1_14 (c : Dev nD) : (dat1 V c).share 14 = fullShare := by
  unfold Dat.share; rw [show (cfg1.win 14).isOut = false from rfl]; exact q1_14 V c
theorem share1_15 (c : Dev nD) : (dat1 V c).share 15 = fullShare := by
  unfold Dat.share; rw [show (cfg1.win 15).isOut = true from rfl]; rfl
theorem share1_16 (c : Dev nD) : (dat1 V c).share 16 = fullShare := by
  unfold Dat.share; rw [show (cfg1.win 16).isOut = true from rfl]; rfl
theorem share1_17 (c : Dev nD) : (dat1 V c).share 17 = fullShare := by
  unfold Dat.share; rw [show (cfg1.win 17).isOut = true from rfl]; rfl
theorem share1_18 (c : Dev nD) : (dat1 V c).share 18 = fullShare := by
  unfold Dat.share; rw [show (cfg1.win 18).isOut = true from rfl]; rfl

set_option maxHeartbeats 16000000 in
/-- Region 1's arrays, window by window: the node features' buffer held in two halves by the two windows that
    read it, every other array's buffer whole. -/
theorem arrays1_eq (c : Dev nD) (G : (w : Fin cfg1.W) → Buf (Elt F) ((cfg1.win w).arr.view.loc (c : Thread nD τ))) :
    ((dat1 V c).arrays G : sProp 𝕄) = iprop(
      (((c : Thread nD τ).loc main_arg0) ↦{fullShare.left} G 0)
      ∗ (((c : Thread nD τ).loc main_arg0) ↦{fullShare.right} G 1)
      ∗ (((c : Thread nD τ).loc main_v0) ↦{fullShare} G 2)
      ∗ (((c : Thread nD τ).loc main_v1) ↦{fullShare} G 3)
      ∗ (((c : Thread nD τ).loc main_v2) ↦{fullShare} G 4)
      ∗ (((c : Thread nD τ).loc main_v13) ↦{fullShare} G 5)
      ∗ (((c : Thread nD τ).loc main_v17) ↦{fullShare} G 6)
      ∗ (((c : Thread nD τ).loc main_v3) ↦{fullShare} G 7)
      ∗ (((c : Thread nD τ).loc main_v4) ↦{fullShare} G 8)
      ∗ (((c : Thread nD τ).loc main_arg5) ↦{fullShare} G 9)
      ∗ (((c : Thread nD τ).loc main_v5) ↦{fullShare} G 10)
      ∗ (((c : Thread nD τ).loc main_arg7) ↦{fullShare} G 11)
      ∗ (((c : Thread nD τ).loc main_v6) ↦{fullShare} G 12)
      ∗ (((c : Thread nD τ).loc main_arg9) ↦{fullShare} G 13)
      ∗ (((c : Thread nD τ).loc main_v7) ↦{fullShare} G 14)
      ∗ (((c : Thread nD τ).loc main_v18_0) ↦{fullShare} G 15)
      ∗ (((c : Thread nD τ).loc main_v18_1) ↦{fullShare} G 16)
      ∗ (((c : Thread nD τ).loc main_v18_2) ↦{fullShare} G 17)
      ∗ (((c : Thread nD τ).loc main_v18_3) ↦{fullShare} G 18)) := by
  unfold Dat.arrays
  rw [bigSep_W1]
  rw [(arr_whole1 0).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ, (arr_whole1 11).set_eq_univ, (arr_whole1 12).set_eq_univ, (arr_whole1 13).set_eq_univ, (arr_whole1 14).set_eq_univ, (arr_whole1 15).set_eq_univ, (arr_whole1 16).set_eq_univ, (arr_whole1 17).set_eq_univ, (arr_whole1 18).set_eq_univ]
  rw [share1_0, share1_1, share1_2, share1_3, share1_4, share1_5, share1_6, share1_7, share1_8, share1_9, share1_10, share1_11, share1_12, share1_13, share1_14, share1_15, share1_16, share1_17, share1_18]

/-- The distinct buffers behind region 1's arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄) = iprop(
      (((c : Thread nD τ).loc main_arg0) ↦{fullShare} V' main_arg0)
      ∗ (((c : Thread nD τ).loc main_v0) ↦{fullShare} V' main_v0)
      ∗ (((c : Thread nD τ).loc main_v1) ↦{fullShare} V' main_v1)
      ∗ (((c : Thread nD τ).loc main_v2) ↦{fullShare} V' main_v2)
      ∗ (((c : Thread nD τ).loc main_v13) ↦{fullShare} V' main_v13)
      ∗ (((c : Thread nD τ).loc main_v17) ↦{fullShare} V' main_v17)
      ∗ (((c : Thread nD τ).loc main_v3) ↦{fullShare} V' main_v3)
      ∗ (((c : Thread nD τ).loc main_v4) ↦{fullShare} V' main_v4)
      ∗ (((c : Thread nD τ).loc main_arg5) ↦{fullShare} V' main_arg5)
      ∗ (((c : Thread nD τ).loc main_v5) ↦{fullShare} V' main_v5)
      ∗ (((c : Thread nD τ).loc main_arg7) ↦{fullShare} V' main_arg7)
      ∗ (((c : Thread nD τ).loc main_v6) ↦{fullShare} V' main_v6)
      ∗ (((c : Thread nD τ).loc main_arg9) ↦{fullShare} V' main_arg9)
      ∗ (((c : Thread nD τ).loc main_v7) ↦{fullShare} V' main_v7)
      ∗ (((c : Thread nD τ).loc main_v18_0) ↦{fullShare} V' main_v18_0)
      ∗ (((c : Thread nD τ).loc main_v18_1) ↦{fullShare} V' main_v18_1)
      ∗ (((c : Thread nD τ).loc main_v18_2) ↦{fullShare} V' main_v18_2)
      ∗ (((c : Thread nD τ).loc main_v18_3) ↦{fullShare} V' main_v18_3)) := by
  unfold Pipeline.arrBufs
  exact bigSep_eq_bigSepL_of_eq [main_arg0, main_v0, main_v1, main_v2, main_v13, main_v17, main_v3, main_v4, main_arg5, main_v5, main_arg7, main_v6, main_arg9, main_v7, main_v18_0, main_v18_1, main_v18_2, main_v18_3] (by decide) (by decide) _

set_option maxHeartbeats 16000000 in
/-- ENTRY: the distinct buffers behind region 1's arrays, each whole at the entry contents, are its arrays at their
    entry contents: the node features' buffer splits into the two halves its two windows hold. -/
theorem entry1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrays1_eq, arrBufs1_eq]
  rw [show (dat1 V c).arrAt 0 0 = V c main_arg0 from A_eq1 V c 0,
    show (dat1 V c).arrAt 1 0 = V c main_arg0 from A_eq1 V c 1,
    show (dat1 V c).arrAt 2 0 = V c main_v0 from A_eq1 V c 2,
    show (dat1 V c).arrAt 3 0 = V c main_v1 from A_eq1 V c 3,
    show (dat1 V c).arrAt 4 0 = V c main_v2 from A_eq1 V c 4,
    show (dat1 V c).arrAt 5 0 = V c main_v13 from A_eq1 V c 5,
    show (dat1 V c).arrAt 6 0 = V c main_v17 from A_eq1 V c 6,
    show (dat1 V c).arrAt 7 0 = V c main_v3 from A_eq1 V c 7,
    show (dat1 V c).arrAt 8 0 = V c main_v4 from A_eq1 V c 8,
    show (dat1 V c).arrAt 9 0 = V c main_arg5 from A_eq1 V c 9,
    show (dat1 V c).arrAt 10 0 = V c main_v5 from A_eq1 V c 10,
    show (dat1 V c).arrAt 11 0 = V c main_arg7 from A_eq1 V c 11,
    show (dat1 V c).arrAt 12 0 = V c main_v6 from A_eq1 V c 12,
    show (dat1 V c).arrAt 13 0 = V c main_arg9 from A_eq1 V c 13,
    show (dat1 V c).arrAt 14 0 = V c main_v7 from A_eq1 V c 14,
    show (dat1 V c).arrAt 15 0 = V c main_v18_0 from A_eq1 V c 15,
    show (dat1 V c).arrAt 16 0 = V c main_v18_1 from A_eq1 V c 16,
    show (dat1 V c).arrAt 17 0 = V c main_v18_2 from A_eq1 V c 17,
    show (dat1 V c).arrAt 18 0 = V c main_v18_3 from A_eq1 V c 18]
  iintro ⟨H0, H1, H2, H3, H4, H5, H6, H7, H8, H9, H10, H11, H12, H13, H14, H15, H16, H17⟩
  ihave Hs := (pointsTo_share (PosShare.mem_left_op_right fullShare)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

set_option maxHeartbeats 16000000 in
/-- EXIT: region 1's arrays at what the pipeline leaves are the distinct buffers behind them whole at any contents
    `V'` that has the inputs as entered and each result at what its write-backs leave: the two halves of the node
    features' buffer join. -/
theorem exit1 (c : Dev nD) (V' : (b : Ref sig .tc) → Buf (Elt F) ((c : Thread nD τ).loc b))
    (h_main_arg0 : V' main_arg0 = V c main_arg0)
    (h_main_v0 : V' main_v0 = V c main_v0)
    (h_main_v1 : V' main_v1 = V c main_v1)
    (h_main_v2 : V' main_v2 = V c main_v2)
    (h_main_v13 : V' main_v13 = V c main_v13)
    (h_main_v17 : V' main_v17 = V c main_v17)
    (h_main_v3 : V' main_v3 = V c main_v3)
    (h_main_v4 : V' main_v4 = V c main_v4)
    (h_main_arg5 : V' main_arg5 = V c main_arg5)
    (h_main_v5 : V' main_v5 = V c main_v5)
    (h_main_arg7 : V' main_arg7 = V c main_arg7)
    (h_main_v6 : V' main_v6 = V c main_v6)
    (h_main_arg9 : V' main_arg9 = V c main_arg9)
    (h_main_v7 : V' main_v7 = V c main_v7)
    (h_main_v18_0 : V' main_v18_0 = (dat1 V c).arrAt 15 cfg1.N)
    (h_main_v18_1 : V' main_v18_1 = (dat1 V c).arrAt 16 cfg1.N)
    (h_main_v18_2 : V' main_v18_2 = (dat1 V c).arrAt 17 cfg1.N)
    (h_main_v18_3 : V' main_v18_3 = (dat1 V c).arrAt 18 cfg1.N) :
    ((dat1 V c).arrays ((dat1 V c).arrAt · cfg1.N) : sProp 𝕄)
      ⊢ Pipeline.arrBufs (Ix := Unit) (Name := ℕ) (U := UR sig nD τ) (Lvl := ℕ) spec1 c V' := by
  rw [arrays1_eq, arrBufs1_eq]
  rw [show (dat1 V c).arrAt 0 cfg1.N = V c main_arg0 from ((dat1 V c).arrAt_in 0 rfl _).trans (A_eq1 V c 0),
    show (dat1 V c).arrAt 1 cfg1.N = V c main_arg0 from ((dat1 V c).arrAt_in 1 rfl _).trans (A_eq1 V c 1),
    show (dat1 V c).arrAt 2 cfg1.N = V c main_v0 from ((dat1 V c).arrAt_in 2 rfl _).trans (A_eq1 V c 2),
    show (dat1 V c).arrAt 3 cfg1.N = V c main_v1 from ((dat1 V c).arrAt_in 3 rfl _).trans (A_eq1 V c 3),
    show (dat1 V c).arrAt 4 cfg1.N = V c main_v2 from ((dat1 V c).arrAt_in 4 rfl _).trans (A_eq1 V c 4),
    show (dat1 V c).arrAt 5 cfg1.N = V c main_v13 from ((dat1 V c).arrAt_in 5 rfl _).trans (A_eq1 V c 5),
    show (dat1 V c).arrAt 6 cfg1.N = V c main_v17 from ((dat1 V c).arrAt_in 6 rfl _).trans (A_eq1 V c 6),
    show (dat1 V c).arrAt 7 cfg1.N = V c main_v3 from ((dat1 V c).arrAt_in 7 rfl _).trans (A_eq1 V c 7),
    show (dat1 V c).arrAt 8 cfg1.N = V c main_v4 from ((dat1 V c).arrAt_in 8 rfl _).trans (A_eq1 V c 8),
    show (dat1 V c).arrAt 9 cfg1.N = V c main_arg5 from ((dat1 V c).arrAt_in 9 rfl _).trans (A_eq1 V c 9),
    show (dat1 V c).arrAt 10 cfg1.N = V c main_v5 from ((dat1 V c).arrAt_in 10 rfl _).trans (A_eq1 V c 10),
    show (dat1 V c).arrAt 11 cfg1.N = V c main_arg7 from ((dat1 V c).arrAt_in 11 rfl _).trans (A_eq1 V c 11),
    show (dat1 V c).arrAt 12 cfg1.N = V c main_v6 from ((dat1 V c).arrAt_in 12 rfl _).trans (A_eq1 V c 12),
    show (dat1 V c).arrAt 13 cfg1.N = V c main_arg9 from ((dat1 V c).arrAt_in 13 rfl _).trans (A_eq1 V c 13),
    show (dat1 V c).arrAt 14 cfg1.N = V c main_v7 from ((dat1 V c).arrAt_in 14 rfl _).trans (A_eq1 V c 14)]
  rw [h_main_arg0, h_main_v0, h_main_v1, h_main_v2, h_main_v13, h_main_v17, h_main_v3, h_main_v4, h_main_arg5, h_main_v5, h_main_arg7, h_main_v6, h_main_arg9, h_main_v7, h_main_v18_0, h_main_v18_1, h_main_v18_2, h_main_v18_3]
  iintro ⟨Ha, Hb, H1, H2, H3, H4, H5, H6, H7, H8, H9, H10, H11, H12, H13, H14, H15, H16, H17⟩
  isplitl [Ha Hb]
  · iapply (pointsTo_share (PosShare.mem_left_op_right fullShare)).2
    isplitl [Ha]; · iexact Ha
    iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

end Reg1

end Cert.KernelIdeal.Hand

end
-- ==== Proof.KI.Launch.lean ====
import proofs.«145300_j21964462751805_1_alg».proof.Proof.Gen.KernelIdeal.Launch
import proofs.«145300_j21964462751805_1_alg».proof.Proof.Gen.KernelIdeal.Skeleton
import proofs.«145300_j21964462751805_1_alg».proof.Proof.Gen.KernelIdeal.Points
import proofs.«145300_j21964462751805_1_alg».proof.Proof.Gen.KernelIdeal.Regions
import proofs.«145300_j21964462751805_1_alg».proof.Proof.KI.Chain
import proofs.«145300_j21964462751805_1_alg».proof.Proof.KI.Shared0
import proofs.«145300_j21964462751805_1_alg».proof.Proof.KI.Shared1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m c) ∗ ∃ r, prngReg c r)

set_option backward.isDefEq.respectTransparency.types false in
set_option maxHeartbeats 4000000 in

def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun c t => owed0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W1 m c) : sProp 𝕄)
        ⊢ iprop((dat0 (V1 m) c).arrays ((dat0 (V1 m) c).arrAt · 0) ∗ Pipeline.unscopedRest spec0 c (V1 m c)) := by
      rw [← Pipeline.unscopedBufs_held c (W1 m c), Pipeline.unscopedBufs_split₀ cfgs 0 winFacts₀0.arr_unscoped c (V1 m c)]
      exact sep_mono (entry0 (V1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 0 c).owed 0 = 0 from owed0 (V1 m) c 0]
      iexact HO
    isplitl [Hp]; · iexact Hp
    iexact Hrest
  hin c := by
    rw [show (pdats m 0 c).Φ 0 = Pipeline.ΦA spec0 c from Phi0 (V1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi0 (V1 m) c _]; unfold Pipeline.ΦA
    iintro ⟨Hr, Hp⟩
    isplitl [Hp]; · iexact Hp
    isplitr; · iempintro
    iexact Hr
  hexit c := by
    have hjoin : iprop((dat0 (V1 m) c).arrays ((dat0 (V1 m) c).arrAt · cfg0.N) ∗ Pipeline.unscopedRest spec0 c (V1 m c))
        ⊢ (StableHlo.held (c : Thread nD τ) (Pipeline.ucRefs τ sig) (W2 m c) : sProp 𝕄) := by
      rw [← Pipeline.unscopedBufs_held c (W2 m c), Pipeline.unscopedBufs_split₀ cfgs 0 winFacts₀0.arr_unscoped c (fun b => W2 m c b)]
      refine sep_mono (exit0 (V1 m) c (fun b => W2 m c b)
        (W2_of_ne m c main_arg0 (by decide : main_arg0 ≠ main_v11_0) (by decide : main_arg0 ≠ main_v11_1)) (W2_of_ne m c main_v0 (by decide : main_v0 ≠ main_v11_0) (by decide : main_v0 ≠ main_v11_1)) (W2_of_ne m c main_v1 (by decide : main_v1 ≠ main_v11_0) (by decide : main_v1 ≠ main_v11_1)) (W2_of_ne m c main_v2 (by decide : main_v2 ≠ main_v11_0) (by decide : main_v2 ≠ main_v11_1))
        (W2_v11_0 m c) (W2_v11_1 m c)) (BIBase.Entails.of_eq ?_)
      unfold Pipeline.unscopedRest
      exact bigSep_congr fun b hb => by
        have hb' := (Finset.mem_sdiff.mp hb).2
        dsimp only
        rw [W2_of_ne m c b (fun h => hb' (h ▸ (by decide : main_v11_0 ∈ Finset.univ.image (Pipeline.arrRef spec0)))) (fun h => hb' (h ▸ (by decide : main_v11_1 ∈ Finset.univ.image (Pipeline.arrRef spec0))))]
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W
    rw [show (pdats m 0 c).owed (Fin.last _) = 0 from owed0 (V1 m) c _]
    iexact HO

set_option backward.isDefEq.respectTransparency.types false in
set_option maxHeartbeats 4000000 in

def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun c t => owed1 (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W3 m c) : sProp 𝕄)
        ⊢ iprop((dat1 (V3 m) c).arrays ((dat1 (V3 m) c).arrAt · 0) ∗ Pipeline.unscopedRest spec1 c (V3 m c)) := by
      rw [← Pipeline.unscopedBufs_held c (W3 m c), Pipeline.unscopedBufs_split₀ cfgs 1 winFacts₀1.arr_unscoped c (V3 m c)]
      exact sep_mono (entry1 (V3 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 1 c).owed 0 = 0 from owed1 (V3 m) c 0]
      iexact HO
    isplitl [Hp]; · iexact Hp
    iexact Hrest
  hin c := by
    rw [show (pdats m 1 c).Φ 0 = Pipeline.ΦA spec1 c from Phi1 (V3 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1 (V3 m) c _]; unfold Pipeline.ΦA
    iintro ⟨Hr, Hp⟩
    isplitl [Hp]; · iexact Hp
    isplitr; · iempintro
    iexact Hr
  hexit c := by
    have hjoin : iprop((dat1 (V3 m) c).arrays ((dat1 (V3 m) c).arrAt · cfg1.N) ∗ Pipeline.unscopedRest spec1 c (V3 m c))
        ⊢ (StableHlo.held (c : Thread nD τ) (Pipeline.ucRefs τ sig) (W4 m c) : sProp 𝕄) := by
      rw [← Pipeline.unscopedBufs_held c (W4 m c), Pipeline.unscopedBufs_split₀ cfgs 1 winFacts₀1.arr_unscoped c (fun b => W4 m c b)]
      refine sep_mono (exit1 (V3 m) c (fun b => W4 m c b)
        (W4_of_ne m c main_arg0 (by decide : main_arg0 ≠ main_v18_0) (by decide : main_arg0 ≠ main_v18_1) (by decide : main_arg0 ≠ main_v18_2) (by decide : main_arg0 ≠ main_v18_3)) (W4_of_ne m c main_v0 (by decide : main_v0 ≠ main_v18_0) (by decide : main_v0 ≠ main_v18_1) (by decide : main_v0 ≠ main_v18_2) (by decide : main_v0 ≠ main_v18_3)) (W4_of_ne m c main_v1 (by decide : main_v1 ≠ main_v18_0) (by decide : main_v1 ≠ main_v18_1) (by decide : main_v1 ≠ main_v18_2) (by decide : main_v1 ≠ main_v18_3)) (W4_of_ne m c main_v2 (by decide : main_v2 ≠ main_v18_0) (by decide : main_v2 ≠ main_v18_1) (by decide : main_v2 ≠ main_v18_2) (by decide : main_v2 ≠ main_v18_3)) (W4_of_ne m c main_v13 (by decide : main_v13 ≠ main_v18_0) (by decide : main_v13 ≠ main_v18_1) (by decide : main_v13 ≠ main_v18_2) (by decide : main_v13 ≠ main_v18_3)) (W4_of_ne m c main_v17 (by decide : main_v17 ≠ main_v18_0) (by decide : main_v17 ≠ main_v18_1) (by decide : main_v17 ≠ main_v18_2) (by decide : main_v17 ≠ main_v18_3)) (W4_of_ne m c main_v3 (by decide : main_v3 ≠ main_v18_0) (by decide : main_v3 ≠ main_v18_1) (by decide : main_v3 ≠ main_v18_2) (by decide : main_v3 ≠ main_v18_3)) (W4_of_ne m c main_v4 (by decide : main_v4 ≠ main_v18_0) (by decide : main_v4 ≠ main_v18_1) (by decide : main_v4 ≠ main_v18_2) (by decide : main_v4 ≠ main_v18_3)) (W4_of_ne m c main_arg5 (by decide : main_arg5 ≠ main_v18_0) (by decide : main_arg5 ≠ main_v18_1) (by decide : main_arg5 ≠ main_v18_2) (by decide : main_arg5 ≠ main_v18_3)) (W4_of_ne m c main_v5 (by decide : main_v5 ≠ main_v18_0) (by decide : main_v5 ≠ main_v18_1) (by decide : main_v5 ≠ main_v18_2) (by decide : main_v5 ≠ main_v18_3)) (W4_of_ne m c main_arg7 (by decide : main_arg7 ≠ main_v18_0) (by decide : main_arg7 ≠ main_v18_1) (by decide : main_arg7 ≠ main_v18_2) (by decide : main_arg7 ≠ main_v18_3)) (W4_of_ne m c main_v6 (by decide : main_v6 ≠ main_v18_0) (by decide : main_v6 ≠ main_v18_1) (by decide : main_v6 ≠ main_v18_2) (by decide : main_v6 ≠ main_v18_3)) (W4_of_ne m c main_arg9 (by decide : main_arg9 ≠ main_v18_0) (by decide : main_arg9 ≠ main_v18_1) (by decide : main_arg9 ≠ main_v18_2) (by decide : main_arg9 ≠ main_v18_3)) (W4_of_ne m c main_v7 (by decide : main_v7 ≠ main_v18_0) (by decide : main_v7 ≠ main_v18_1) (by decide : main_v7 ≠ main_v18_2) (by decide : main_v7 ≠ main_v18_3))
        (W4_v18_0 m c) (W4_v18_1 m c) (W4_v18_2 m c) (W4_v18_3 m c)) (BIBase.Entails.of_eq ?_)
      unfold Pipeline.unscopedRest
      exact bigSep_congr fun b hb => by
        have hb' := (Finset.mem_sdiff.mp hb).2
        dsimp only
        rw [W4_of_ne m c b (fun h => hb' (h ▸ (by decide : main_v18_0 ∈ Finset.univ.image (Pipeline.arrRef spec1)))) (fun h => hb' (h ▸ (by decide : main_v18_1 ∈ Finset.univ.image (Pipeline.arrRef spec1)))) (fun h => hb' (h ▸ (by decide : main_v18_2 ∈ Finset.univ.image (Pipeline.arrRef spec1)))) (fun h => hb' (h ▸ (by decide : main_v18_3 ∈ Finset.univ.image (Pipeline.arrRef spec1))))]
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W
    rw [show (pdats m 1 c).owed (Fin.last _) = 0 from owed1 (V3 m) c _]
    iexact HO

theorem hF2 (c : Dev nD) (w : Fin cfg2.W) : (dat2 (V5 m) c).arrAt w cfg2.N = V6 m c (Pipeline.arrRef spec2 w) := by
  match w with
  | ⟨0, _⟩ => exact (((dat2 (V5 m) c).arrAt_in 0 rfl _).trans (A_eq2 (V5 m) c 0)).trans (W6_of_ne m c main_v18_1 (by decide)).symm
  | ⟨1, _⟩ => exact (((dat2 (V5 m) c).arrAt_in 1 rfl _).trans (A_eq2 (V5 m) c 1)).trans (W6_of_ne m c main_v20 (by decide)).symm
  | ⟨2, _⟩ => exact (((dat2 (V5 m) c).arrAt_in 2 rfl _).trans (A_eq2 (V5 m) c 2)).trans (W6_of_ne m c main_v24 (by decide)).symm
  | ⟨3, _⟩ => exact (((dat2 (V5 m) c).arrAt_in 3 rfl _).trans (A_eq2 (V5 m) c 3)).trans (W6_of_ne m c main_v8 (by decide)).symm
  | ⟨4, _⟩ => exact (((dat2 (V5 m) c).arrAt_in 4 rfl _).trans (A_eq2 (V5 m) c 4)).trans (W6_of_ne m c main_v9 (by decide)).symm
  | ⟨5, _⟩ => exact (((dat2 (V5 m) c).arrAt_in 5 rfl _).trans (A_eq2 (V5 m) c 5)).trans (W6_of_ne m c main_arg13 (by decide)).symm
  | ⟨6, _⟩ => exact (((dat2 (V5 m) c).arrAt_in 6 rfl _).trans (A_eq2 (V5 m) c 6)).trans (W6_of_ne m c main_v10 (by decide)).symm
  | ⟨7, _⟩ => exact (W6_v25 m c).symm
theorem hrest2 (c : Dev nD) : ∀ b, b ∉ Finset.univ.image (Pipeline.arrRef spec2) → V6 m c b = V5 m c b :=
  fun b hb => W6_of_ne m c b fun h => hb (h ▸ (by decide : main_v25 ∈ Finset.univ.image (Pipeline.arrRef spec2)))

set_option backward.isDefEq.respectTransparency.types false in
set_option maxHeartbeats 4000000 in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun c t => owed2 (V5 m) c t
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun w => q2 (V5 m) c w) (V5 m c) fun w => A_eq2 (V5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 2 c).owed 0 = 0 from owed2 (V5 m) c 0]
      iexact HO
    isplitl [Hp]; · iexact Hp
    iexact Hrest
  hin c := by
    rw [show (pdats m 2 c).Φ 0 = Pipeline.ΦA spec2 c from Phi2 (V5 m) c 0]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from Phi2 (V5 m) c _]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q2 (V5 m) c w)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W
    rw [show (pdats m 2 c).owed (Fin.last _) = 0 from owed2 (V5 m) c _]
    iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
set_option maxHeartbeats 4000000 in

theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

theorem ends_kept {r : PUnit × MemSt nD τ sig (Elt F)}
    (h : ∀ c : Dev nD, ∀ b ∈ Pipeline.ucRefs τ sig, r.2.mem (((c : Thread nD τ)).1, b) = W7 m c b)
    (c : Dev nD) (a : Ref sig .tc) (hu : ¬ (Proc.devRef .tc a : DevRef τ sig).isScoped) (hw : a ∉ written) :
    r.2.mem ((c.tc : Thread nD τ).loc a) = m ((c.tc : Thread nD τ).loc a) :=
  (h c _ (mem_uc a hu)).trans (W7_kept m c a hw)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨ends_kept m h c main_arg0 (by decide) (by decide),
    ends_kept m h c main_arg1 (by decide) (by decide),
    ends_kept m h c main_arg2 (by decide) (by decide),
    ends_kept m h c main_arg3 (by decide) (by decide),
    ends_kept m h c main_arg4 (by decide) (by decide),
    ends_kept m h c main_arg5 (by decide) (by decide),
    ends_kept m h c main_arg6 (by decide) (by decide),
    ends_kept m h c main_arg7 (by decide) (by decide),
    ends_kept m h c main_arg8 (by decide) (by decide),
    ends_kept m h c main_arg9 (by decide) (by decide),
    ends_kept m h c main_arg10 (by decide) (by decide),
    ends_kept m h c main_arg11 (by decide) (by decide),
    ends_kept m h c main_arg12 (by decide) (by decide),
    ends_kept m h c main_arg13 (by decide) (by decide),
    ends_kept m h c main_arg14 (by decide) (by decide)⟩) (run m ρ)

end Cert.KernelIdeal.Hand

end
-- ==== Proof.Ref.Run.lean ====
import proofs.«145300_j21964462751805_1_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

abbrev w1 : List (HloOp τ sig (Elt F)) :=
  [ nullary main_v0 (iotaInDim S256 32 0),
    unary main_v0 main_v1 (broadcastInDim S256x256 ![0] bcast_S256_S256x256_0),
    reshape main_v1 main_v2 rfl shapeCasts_S256x256_S65536,
    nullary main_v3 (iotaInDim S256 32 0),
    reshape main_v3 main_v4 rfl shapeCasts_S256_S1x256,
    unary main_v4 main_v5 (broadcastInDim S256x256 ![0, 1] bcast_S1x256_S256x256_0_1),
    reshape main_v5 main_v6 rfl shapeCasts_S256x256_S65536,
    nullary main_c (constantI S_ 32 0#32),
    unary main_c main_v7 (broadcastInDim S65536 ![] bcast_S_S65536),
    binary main_v2 main_v7 main_v8 (cmpi .slt),
    nullary main_c_0 (constantI S_ 32 256#32),
    unary main_c_0 main_v9 (broadcastInDim S65536 ![] bcast_S_S65536),
    binary main_v2 main_v9 main_v10 addi,
    ternary main_v8 main_v10 main_v2 main_v11 select ]

abbrev w2 : List (HloOp τ sig (Elt F)) :=
  [ unary main_v11 main_v12 (broadcastInDim S65536x1 ![0] bcast_S65536_S65536x1_0),
    binary main_arg0 main_v12 main_v13 (fun x i => Host.gather gather_S16x256x64_S65536x1_S16x65536x64_02_1_n_n_1_1_16164 x i),
    nullary main_c_1 (constantI S_ 32 0#32),
    unary main_c_1 main_v14 (broadcastInDim S65536 ![] bcast_S_S65536),
    binary main_v6 main_v14 main_v15 (cmpi .slt),
    nullary main_c_2 (constantI S_ 32 256#32),
    unary main_c_2 main_v16 (broadcastInDim S65536 ![] bcast_S_S65536),
    binary main_v6 main_v16 main_v17 addi,
    ternary main_v15 main_v17 main_v6 main_v18 select,
    unary main_v18 main_v19 (broadcastInDim S65536x1 ![0] bcast_S65536_S65536x1_0),
    binary main_arg0 main_v19 main_v20 (fun x i => Host.gather gather_S16x256x64_S65536x1_S16x65536x64_02_1_n_n_1_1_16164 x i),
    binary main_v13 main_v20 main_v21 (fun a b => concatenate S16x65536x128 2 [⟨S16x65536x64, a⟩, ⟨S16x65536x64, b⟩] concatenates_S16x65536x64_S16x65536x64_S16x65536x128_d2),
    reshape main_v21 main_v22 rfl shapeCasts_S16x65536x128_S1048576x128,
    unary main_arg1 main_v23 (transpose S128x32 [1, 0] · transposes_S32x128_S128x32_1_0),
    binary main_v22 main_v23 main_v24 (fun l r => Host.dotGeneral dot_S1048576x128_S128x32_S1048576x32_1_0_0_1_n_n none l r) ]

abbrev w3 : List (HloOp τ sig (Elt F)) :=
  [ unary main_arg2 main_v25 (broadcastInDim S1x32 ![1] bcast_S32_S1x32_1),
    unary main_v25 main_v26 (broadcastInDim S1048576x32 ![0, 1] bcast_S1x32_S1048576x32_0_1),
    binary main_v24 main_v26 main_v27 addf,
    nullary main_cst (constant S_ .f32 0x00000000#32),
    binary main_v27 main_cst main_v28 (fun x v => Host.reduceAdd x v reducesTo_S1048576x32_S32_d0 h_S_),
    nullary main_cst_3 (constant S_ .f32 0x49800000#32),
    unary main_cst_3 main_v29 (broadcastInDim S32 ![] bcast_S_S32),
    binary main_v28 main_v29 main_v30 Host.divf,
    unary main_v30 main_v31 (broadcastInDim S1x32 ![1] bcast_S32_S1x32_1),
    unary main_v31 main_v32 (broadcastInDim S1048576x32 ![0, 1] bcast_S1x32_S1048576x32_0_1),
    binary main_v27 main_v32 main_v33 subf,
    binary main_v33 main_v33 main_v34 mulf,
    nullary main_cst_4 (constant S_ .f32 0x00000000#32),
    binary main_v34 main_cst_4 main_v35 (fun x v => Host.reduceAdd x v reducesTo_S1048576x32_S32_d0 h_S_),
    nullary main_cst_5 (constant S_ .f32 0x49800000#32),
    unary main_cst_5 main_v36 (broadcastInDim S32 ![] bcast_S_S32),
    binary main_v35 main_v36 main_v37 Host.divf,
    unary main_v30 main_v38 (broadcastInDim S1x32 ![1] bcast_S32_S1x32_1),
    unary main_v38 main_v39 (broadcastInDim S1048576x32 ![0, 1] bcast_S1x32_S1048576x32_0_1),
    binary main_v27 main_v39 main_v40 subf ]

abbrev w4 : List (HloOp τ sig (Elt F)) :=
  [ nullary main_cst_6 (constant S_ .f32 0x3727C5AC#32),
    unary main_cst_6 main_v41 (broadcastInDim S32 ![] bcast_S_S32),
    binary main_v37 main_v41 main_v42 addf,
    unary main_v42 main_v43 Host.rsqrt,
    unary main_v43 main_v44 (broadcastInDim S1x32 ![1] bcast_S32_S1x32_1),
    unary main_v44 main_v45 (broadcastInDim S1048576x32 ![0, 1] bcast_S1x32_S1048576x32_0_1),
    binary main_v40 main_v45 main_v46 mulf,
    unary main_arg3 main_v47 (broadcastInDim S1x32 ![1] bcast_S32_S1x32_1),
    unary main_v47 main_v48 (broadcastInDim S1048576x32 ![0, 1] bcast_S1x32_S1048576x32_0_1),
    binary main_v46 main_v48 main_v49 mulf,
    unary main_arg4 main_v50 (broadcastInDim S1x32 ![1] bcast_S32_S1x32_1) ]

abbrev w5 : List (HloOp τ sig (Elt F)) :=
  [ unary main_v50 main_v51 (broadcastInDim S1048576x32 ![0, 1] bcast_S1x32_S1048576x32_0_1),
    binary main_v49 main_v51 main_v52 addf,
    nullary main_cst_7 (constant S_ .f32 0x3C23D70A#32),
    TRef.nullary main_call0.cst (constant S_ .f32 0x00000000#32),
    TRef.unary main_call0.cst main_call0.v0 (broadcastInDim S1048576x32 ![] bcast_S_S1048576x32),
    TRef.binary (.of main_v52) main_call0.v0 main_call0.v1 (cmpf .oge),
    TRef.unary (.of main_cst_7) main_call0.v2 id,
    TRef.unary main_call0.v2 main_call0.v3 (broadcastInDim S1048576x32 ![] bcast_S_S1048576x32),
    TRef.binary main_call0.v3 (.of main_v52) main_call0.v4 mulf,
    TRef.ternary main_call0.v1 (.of main_v52) main_call0.v4 main_call0.call0.v0 select ]

abbrev w6 : List (HloOp τ sig (Elt F)) :=
  [ unary main_arg5 main_v54 (transpose S32x32 [1, 0] · transposes_S32x32_S32x32_1_0),
    binary main_v53 main_v54 main_v55 (fun l r => Host.dotGeneral dot_S1048576x32_S32x32_S1048576x32_1_0_0_1_n_n none l r),
    unary main_arg6 main_v56 (broadcastInDim S1x32 ![1] bcast_S32_S1x32_1),
    unary main_v56 main_v57 (broadcastInDim S1048576x32 ![0, 1] bcast_S1x32_S1048576x32_0_1),
    binary main_v55 main_v57 main_v58 addf,
    nullary main_cst_8 (constant S_ .f32 0x3C23D70A#32),
    TRef.nullary main_call1.cst (constant S_ .f32 0x00000000#32),
    TRef.unary main_call1.cst main_call1.v0 (broadcastInDim S1048576x32 ![] bcast_S_S1048576x32),
    TRef.binary (.of main_v58) main_call1.v0 main_call1.v1 (cmpf .oge),
    TRef.unary (.of main_cst_8) main_call1.v2 id,
    TRef.unary main_call1.v2 main_call1.v3 (broadcastInDim S1048576x32 ![] bcast_S_S1048576x32),
    TRef.binary main_call1.v3 (.of main_v58) main_call1.v4 mulf,
    TRef.ternary main_call1.v1 (.of main_v58) main_call1.v4 main_call1.call0.v0 select,
    unary main_arg7 main_v60 (transpose S32x2 [1, 0] · transposes_S2x32_S32x2_1_0),
    binary main_v59 main_v60 main_v61 (fun l r => Host.dotGeneral dot_S1048576x32_S32x2_S1048576x2_1_0_0_1_n_n none l r),
    unary main_arg8 main_v62 (broadcastInDim S1x2 ![1] bcast_S2_S1x2_1),
    unary main_v62 main_v63 (broadcastInDim S1048576x2 ![0, 1] bcast_S1x2_S1048576x2_0_1),
    binary main_v61 main_v63 main_v64 addf ]

abbrev w7 : List (HloOp τ sig (Elt F)) :=
  [ reshape main_v64 main_v65 rfl shapeCasts_S1048576x2_S16x65536x2,
    unary main_v65 main_v66 (extractStridedSlice S16x65536x1 ![0, 0, 0] · slices_S16x65536x2_S16x65536x1_0_0_0),
    reshape main_v66 main_v67 rfl shapeCasts_S16x65536x1_S16x65536,
    unary main_v67 main_v68 Host.negf,
    unary main_v68 main_v69 Host.exp,
    nullary main_cst_9 (constant S_ .f32 0x3F800000#32),
    unary main_cst_9 main_v70 (broadcastInDim S16x65536 ![] bcast_S_S16x65536),
    binary main_v70 main_v69 main_v71 addf,
    nullary main_cst_10 (constant S_ .f32 0x3F800000#32),
    unary main_cst_10 main_v72 (broadcastInDim S16x65536 ![] bcast_S_S16x65536),
    binary main_v72 main_v71 main_v73 Host.divf,
    unary main_v65 main_v74 (extractStridedSlice S16x65536x1 ![0, 0, 1] · slices_S16x65536x2_S16x65536x1_0_0_1),
    reshape main_v74 main_v75 rfl shapeCasts_S16x65536x1_S16x65536,
    binary main_v73 main_v75 main_v76 mulf,
    reshape main_v76 main_v77 rfl shapeCasts_S16x65536_S16x256x4x64,
    nullary main_cst_11 (constant S_ .f32 0x00000000#32),
    binary main_v77 main_cst_11 main_v78 (fun x v => Host.reduceAdd x v reducesTo_S16x256x4x64_S16x256x64_d2 h_S_) ]

abbrev w8 : List (HloOp τ sig (Elt F)) :=
  [ binary main_arg0 main_v78 main_v79 (fun a b => concatenate S16x256x128 2 [⟨S16x256x64, a⟩, ⟨S16x256x64, b⟩] concatenates_S16x256x64_S16x256x64_S16x256x128_d2),
    reshape main_v79 main_v80 rfl shapeCasts_S16x256x128_S4096x128,
    unary main_arg9 main_v81 (transpose S128x16 [1, 0] · transposes_S16x128_S128x16_1_0),
    binary main_v80 main_v81 main_v82 (fun l r => Host.dotGeneral dot_S4096x128_S128x16_S4096x16_1_0_0_1_n_n none l r),
    unary main_arg10 main_v83 (broadcastInDim S1x16 ![1] bcast_S16_S1x16_1),
    unary main_v83 main_v84 (broadcastInDim S4096x16 ![0, 1] bcast_S1x16_S4096x16_0_1),
    binary main_v82 main_v84 main_v85 addf,
    nullary main_cst_12 (constant S_ .f32 0x00000000#32),
    binary main_v85 main_cst_12 main_v86 (fun x v => Host.reduceAdd x v reducesTo_S4096x16_S16_d0 h_S_),
    nullary main_cst_13 (constant S_ .f32 0x45800000#32),
    unary main_cst_13 main_v87 (broadcastInDim S16 ![] bcast_S_S16),
    binary main_v86 main_v87 main_v88 Host.divf ]

abbrev w9 : List (HloOp τ sig (Elt F)) :=
  [ unary main_v88 main_v89 (broadcastInDim S1x16 ![1] bcast_S16_S1x16_1),
    unary main_v89 main_v90 (broadcastInDim S4096x16 ![0, 1] bcast_S1x16_S4096x16_0_1),
    binary main_v85 main_v90 main_v91 subf,
    binary main_v91 main_v91 main_v92 mulf,
    nullary main_cst_14 (constant S_ .f32 0x00000000#32),
    binary main_v92 main_cst_14 main_v93 (fun x v => Host.reduceAdd x v reducesTo_S4096x16_S16_d0 h_S_),
    nullary main_cst_15 (constant S_ .f32 0x45800000#32),
    unary main_cst_15 main_v94 (broadcastInDim S16 ![] bcast_S_S16),
    binary main_v93 main_v94 main_v95 Host.divf,
    unary main_v88 main_v96 (broadcastInDim S1x16 ![1] bcast_S16_S1x16_1),
    unary main_v96 main_v97 (broadcastInDim S4096x16 ![0, 1] bcast_S1x16_S4096x16_0_1),
    binary main_v85 main_v97 main_v98 subf,
    nullary main_cst_16 (constant S_ .f32 0x3727C5AC#32),
    unary main_cst_16 main_v99 (broadcastInDim S16 ![] bcast_S_S16),
    binary main_v95 main_v99 main_v100 addf ]

abbrev w10 : List (HloOp τ sig (Elt F)) :=
  [ unary main_v100 main_v101 Host.rsqrt,
    unary main_v101 main_v102 (broadcastInDim S1x16 ![1] bcast_S16_S1x16_1),
    unary main_v102 main_v103 (broadcastInDim S4096x16 ![0, 1] bcast_S1x16_S4096x16_0_1),
    binary main_v98 main_v103 main_v104 mulf,
    unary main_arg11 main_v105 (broadcastInDim S1x16 ![1] bcast_S16_S1x16_1),
    unary main_v105 main_v106 (broadcastInDim S4096x16 ![0, 1] bcast_S1x16_S4096x16_0_1),
    binary main_v104 main_v106 main_v107 mulf,
    unary main_arg12 main_v108 (broadcastInDim S1x16 ![1] bcast_S16_S1x16_1),
    unary main_v108 main_v109 (broadcastInDim S4096x16 ![0, 1] bcast_S1x16_S4096x16_0_1),
    binary main_v107 main_v109 main_v110 addf ]

abbrev w11 : List (HloOp τ sig (Elt F)) :=
  [ nullary main_cst_17 (constant S_ .f32 0x3C23D70A#32),
    TRef.nullary main_call2.cst (constant S_ .f32 0x00000000#32),
    TRef.unary main_call2.cst main_call2.v0 (broadcastInDim S4096x16 ![] bcast_S_S4096x16),
    TRef.binary (.of main_v110) main_call2.v0 main_call2.v1 (cmpf .oge),
    TRef.unary (.of main_cst_17) main_call2.v2 id,
    TRef.unary main_call2.v2 main_call2.v3 (broadcastInDim S4096x16 ![] bcast_S_S4096x16),
    TRef.binary main_call2.v3 (.of main_v110) main_call2.v4 mulf,
    TRef.ternary main_call2.v1 (.of main_v110) main_call2.v4 main_call2.call0.v0 select ]

abbrev w12 : List (HloOp τ sig (Elt F)) :=
  [ unary main_arg13 main_v112 (transpose S16x64 [1, 0] · transposes_S64x16_S16x64_1_0),
    binary main_v111 main_v112 main_v113 (fun l r => Host.dotGeneral dot_S4096x16_S16x64_S4096x64_1_0_0_1_n_n none l r),
    unary main_arg14 main_v114 (broadcastInDim S1x64 ![1] bcast_S64_S1x64_1),
    unary main_v114 main_v115 (broadcastInDim S4096x64 ![0, 1] bcast_S1x64_S4096x64_0_1),
    binary main_v113 main_v115 main_v116 addf,
    reshape main_v116 main_v117 rfl shapeCasts_S4096x64_S16x256x64 ]

-- The reference's operations in order, cut into twelve stretches short enough to evaluate one at a time.
abbrev ws : List (List (HloOp τ sig (Elt F))) := [w1, w2, w3, w4, w5, w6, w7, w8, w9, w10, w11, w12]

abbrev ops : List (HloOp τ sig (Elt F)) := ws.flatten

set_option maxRecDepth 8192 in
theorem main_part0_eq (c : Dev nD) : main_part0 (F := F) c = seq (w1 ++ w2 ++ w3 ++ w4) := rfl

set_option maxRecDepth 8192 in
-- A call is its callee's operations at the call's buffers.
theorem main_part1_eq (c : Dev nD) : main_part1 (F := F) c = seq (w5 ++ w6 ++ w7 ++ w8 ++ w9) := by
  simp only [main_part1, fn_leaky_relu.body, fn_where.body, List.cons_append, List.nil_append, seq, bind_assoc, pure_bind]
  rfl

set_option maxRecDepth 8192 in
theorem main_part2_eq (c : Dev nD) : main_part2 (F := F) c = seq (w10 ++ w11 ++ w12) := by
  simp only [main_part2, fn_leaky_relu_0.body, fn_where_1.body, List.cons_append, List.nil_append, seq, bind_assoc, pure_bind]
  rfl

-- Sequencing is associative, so the three parts in order are the twelve stretches in order.
theorem main_eq (c : Dev nD) : main (F := F) c = seq ops := by
  simp only [main, main_part0_eq, main_part1_eq, main_part2_eq, ops, ws, List.flatten_cons, List.flatten_nil, List.append_nil, seq_append, bind_assoc]

theorem scopedRefs_eq : (Finset.univ.filter fun b : Ref sig .tc => b.isScoped) = ∅ := by decide
theorem scopedSems_eq : (Finset.univ.filter fun sm : SemLoc sig => sm.isScoped .tc) = ∅ := by decide

def args : List (Ref sig .tc) :=
  [main_arg0, main_arg1, main_arg2, main_arg3, main_arg4, main_arg5, main_arg6, main_arg7, main_arg8, main_arg9, main_arg10, main_arg11, main_arg12, main_arg13, main_arg14]

-- Each operation writes its own result, which is no argument.
theorem ws_ok : ∀ w ∈ (ws : List (List (HloOp τ sig (Elt F)))), ∀ op ∈ w,
    op.bufs ⊆ tcRefs τ sig ∧ ∀ r ∈ args, Proc.devRef (τ := τ) .tc r ∉ op.writes := by
  simp only [ws, w1, w2, w3, w4, w5, w6, w7, w8, w9, w10, w11, w12, List.forall_mem_cons, List.not_mem_nil, false_implies, implies_true, and_true,
    nullary_bufs_sub, unary_bufs_sub, binary_bufs_sub, ternary_bufs_sub, reshape_bufs_sub, true_and,
    nullary_writes, unary_writes, binary_writes, ternary_writes, reshape_writes, Finset.mem_singleton, (Proc.devRef_injective _).eq_iff]
  repeat' apply And.intro
  all_goals decide

theorem ops_sub : (ops : List (HloOp τ sig (Elt F))).Forall fun op => op.bufs ⊆ tcRefs τ sig :=
  List.forall_iff_forall_mem.mpr fun op h => by
    obtain ⟨w, hw, ho⟩ := List.mem_flatten.mp h
    exact (ws_ok w hw op ho).1

end Cert.ReferenceIdeal.Hand

end
-- ==== Proof.Ref.Term.lean ====
import Idealize.ShloMosaic.PureOps.Ideal
import proofs.«145300_j21964462751805_1_alg».proof.Proof.Gen.ReferenceIdeal

noncomputable section

namespace Cert.ReferenceIdeal.Hand

open Idealize.ShloMosaic
open Cert.ReferenceIdeal Cert.ReferenceIdeal.Facts₀ Cert.ReferenceIdeal.Facts

variable [Facts]

section Stages
variable (a0 : FVec Ideal S16x256x64 .f32) (a1 : FVec Ideal S32x128 .f32) (a2 a3 a4 : FVec Ideal S32 .f32) (a5 : FVec Ideal S32x32 .f32)
  (a6 : FVec Ideal S32 .f32) (a7 : FVec Ideal S2x32 .f32) (a8 : FVec Ideal S2 .f32) (a9 : FVec Ideal S16x128 .f32) (a10 a11 a12 : FVec Ideal S16 .f32)
  (a13 : FVec Ideal S64x16 .f32) (a14 : FVec Ideal S64 .f32)

def st_v0 : IVec S256 32 :=
  iotaInDim S256 32 0
def st_v1 : IVec S256x256 32 :=
  broadcastInDim S256x256 ![0] bcast_S256_S256x256_0 st_v0

def st_v2 : IVec S65536 32 :=
  shapeCast S65536 st_v1 shapeCasts_S256x256_S65536

def st_v3 : IVec S256 32 :=
  iotaInDim S256 32 0
def st_v4 : IVec S1x256 32 :=
  shapeCast S1x256 st_v3 shapeCasts_S256_S1x256
def st_v5 : IVec S256x256 32 :=
  broadcastInDim S256x256 ![0, 1] bcast_S1x256_S256x256_0_1 st_v4

def st_v6 : IVec S65536 32 :=
  shapeCast S65536 st_v5 shapeCasts_S256x256_S65536

def st_c : IVec S_ 32 :=
  constantI S_ 32 0#32
def st_v7 : IVec S65536 32 :=
  broadcastInDim S65536 ![] bcast_S_S65536 st_c
def st_v8 : IVec S65536 1 :=
  cmpi .slt st_v2 st_v7
def st_c_0 : IVec S_ 32 :=
  constantI S_ 32 256#32
def st_v9 : IVec S65536 32 :=
  broadcastInDim S65536 ![] bcast_S_S65536 st_c_0
def st_v10 : IVec S65536 32 :=
  addi st_v2 st_v9

def st_v11 : IVec S65536 32 :=
  select st_v8 st_v10 st_v2

def st_v12 : IVec S65536x1 32 :=
  broadcastInDim S65536x1 ![0] bcast_S65536_S65536x1_0 st_v11

def st_v13 : FVec Ideal S16x65536x64 .f32 :=
  Host.gather gather_S16x256x64_S65536x1_S16x65536x64_02_1_n_n_1_1_16164 a0 st_v12

def st_c_1 : IVec S_ 32 :=
  constantI S_ 32 0#32
def st_v14 : IVec S65536 32 :=
  broadcastInDim S65536 ![] bcast_S_S65536 st_c_1
def st_v15 : IVec S65536 1 :=
  cmpi .slt st_v6 st_v14
def st_c_2 : IVec S_ 32 :=
  constantI S_ 32 256#32
def st_v16 : IVec S65536 32 :=
  broadcastInDim S65536 ![] bcast_S_S65536 st_c_2
def st_v17 : IVec S65536 32 :=
  addi st_v6 st_v16

def st_v18 : IVec S65536 32 :=
  select st_v15 st_v17 st_v6

def st_v19 : IVec S65536x1 32 :=
  broadcastInDim S65536x1 ![0] bcast_S65536_S65536x1_0 st_v18

def st_v20 : FVec Ideal S16x65536x64 .f32 :=
  Host.gather gather_S16x256x64_S65536x1_S16x65536x64_02_1_n_n_1_1_16164 a0 st_v19

def st_v21 : FVec Ideal S16x65536x128 .f32 :=
  concatenate S16x65536x128 2 [⟨S16x65536x64, (st_v13 a0)⟩, ⟨S16x65536x64, (st_v20 a0)⟩] concatenates_S16x65536x64_S16x65536x64_S16x65536x128_d2

def st_v22 : FVec Ideal S1048576x128 .f32 :=
  shapeCast S1048576x128 (st_v21 a0) shapeCasts_S16x65536x128_S1048576x128

def st_v23 : FVec Ideal S128x32 .f32 :=
  transpose S128x32 [1, 0] a1 transposes_S32x128_S128x32_1_0
def st_v24 : FVec Ideal S1048576x32 .f32 :=
  Host.dotGeneral (F := Ideal) dot_S1048576x128_S128x32_S1048576x32_1_0_0_1_n_n none (st_v22 a0) (st_v23 a1)
def st_v25 : FVec Ideal S1x32 .f32 :=
  broadcastInDim S1x32 ![1] bcast_S32_S1x32_1 a2
def st_v26 : FVec Ideal S1048576x32 .f32 :=
  broadcastInDim S1048576x32 ![0, 1] bcast_S1x32_S1048576x32_0_1 (st_v25 a2)

def st_v27 : FVec Ideal S1048576x32 .f32 :=
  addf (st_v24 a0 a1) (st_v26 a2)

def st_cst : FVec Ideal S_ .f32 :=
  constant (F := Ideal) S_ .f32 0x00000000#32
def st_v28 : FVec Ideal S32 .f32 :=
  Host.reduceAdd (F := Ideal) (st_v27 a0 a1 a2) st_cst reducesTo_S1048576x32_S32_d0 h_S_
def st_cst_3 : FVec Ideal S_ .f32 :=
  constant (F := Ideal) S_ .f32 0x49800000#32
def st_v29 : FVec Ideal S32 .f32 :=
  broadcastInDim S32 ![] bcast_S_S32 st_cst_3

def st_v30 : FVec Ideal S32 .f32 :=
  Host.divf (F := Ideal) (st_v28 a0 a1 a2) st_v29

def st_v31 : FVec Ideal S1x32 .f32 :=
  broadcastInDim S1x32 ![1] bcast_S32_S1x32_1 (st_v30 a0 a1 a2)
def st_v32 : FVec Ideal S1048576x32 .f32 :=
  broadcastInDim S1048576x32 ![0, 1] bcast_S1x32_S1048576x32_0_1 (st_v31 a0 a1 a2)
def st_v33 : FVec Ideal S1048576x32 .f32 :=
  subf (st_v27 a0 a1 a2) (st_v32 a0 a1 a2)
def st_v34 : FVec Ideal S1048576x32 .f32 :=
  mulf (st_v33 a0 a1 a2) (st_v33 a0 a1 a2)
def st_cst_4 : FVec Ideal S_ .f32 :=
  constant (F := Ideal) S_ .f32 0x00000000#32
def st_v35 : FVec Ideal S32 .f32 :=
  Host.reduceAdd (F := Ideal) (st_v34 a0 a1 a2) st_cst_4 reducesTo_S1048576x32_S32_d0 h_S_
def st_cst_5 : FVec Ideal S_ .f32 :=
  constant (F := Ideal) S_ .f32 0x49800000#32
def st_v36 : FVec Ideal S32 .f32 :=
  broadcastInDim S32 ![] bcast_S_S32 st_cst_5

def st_v37 : FVec Ideal S32 .f32 :=
  Host.divf (F := Ideal) (st_v35 a0 a1 a2) st_v36

def st_v38 : FVec Ideal S1x32 .f32 :=
  broadcastInDim S1x32 ![1] bcast_S32_S1x32_1 (st_v30 a0 a1 a2)
def st_v39 : FVec Ideal S1048576x32 .f32 :=
  broadcastInDim S1048576x32 ![0, 1] bcast_S1x32_S1048576x32_0_1 (st_v38 a0 a1 a2)
def st_v40 : FVec Ideal S1048576x32 .f32 :=
  subf (st_v27 a0 a1 a2) (st_v39 a0 a1 a2)
def st_cst_6 : FVec Ideal S_ .f32 :=
  constant (F := Ideal) S_ .f32 0x3727C5AC#32
def st_v41 : FVec Ideal S32 .f32 :=
  broadcastInDim S32 ![] bcast_S_S32 st_cst_6
def st_v42 : FVec Ideal S32 .f32 :=
  addf (st_v37 a0 a1 a2) st_v41

def st_v43 : FVec Ideal S32 .f32 :=
  Host.rsqrt (F := Ideal) (st_v42 a0 a1 a2)

def st_v44 : FVec Ideal S1x32 .f32 :=
  broadcastInDim S1x32 ![1] bcast_S32_S1x32_1 (st_v43 a0 a1 a2)
def st_v45 : FVec Ideal S1048576x32 .f32 :=
  broadcastInDim S1048576x32 ![0, 1] bcast_S1x32_S1048576x32_0_1 (st_v44 a0 a1 a2)
def st_v46 : FVec Ideal S1048576x32 .f32 :=
  mulf (st_v40 a0 a1 a2) (st_v45 a0 a1 a2)
def st_v47 : FVec Ideal S1x32 .f32 :=
  broadcastInDim S1x32 ![1] bcast_S32_S1x32_1 a3
def st_v48 : FVec Ideal S1048576x32 .f32 :=
  broadcastInDim S1048576x32 ![0, 1] bcast_S1x32_S1048576x32_0_1 (st_v47 a3)
def st_v49 : FVec Ideal S1048576x32 .f32 :=
  mulf (st_v46 a0 a1 a2) (st_v48 a3)
def st_v50 : FVec Ideal S1x32 .f32 :=
  broadcastInDim S1x32 ![1] bcast_S32_S1x32_1 a4
def st_v51 : FVec Ideal S1048576x32 .f32 :=
  broadcastInDim S1048576x32 ![0, 1] bcast_S1x32_S1048576x32_0_1 (st_v50 a4)

def st_v52 : FVec Ideal S1048576x32 .f32 :=
  addf (st_v49 a0 a1 a2 a3) (st_v51 a4)

def st_cst_7 : FVec Ideal S_ .f32 :=
  constant (F := Ideal) S_ .f32 0x3C23D70A#32
def st_call0_cst : FVec Ideal S_ .f32 :=
  constant (F := Ideal) S_ .f32 0x00000000#32
def st_call0_v0 : FVec Ideal S1048576x32 .f32 :=
  broadcastInDim S1048576x32 ![] bcast_S_S1048576x32 st_call0_cst
def st_call0_v1 : IVec S1048576x32 1 :=
  cmpf .oge (st_v52 a0 a1 a2 a3 a4) st_call0_v0
def st_call0_v2 : FVec Ideal S_ .f32 :=
  id st_cst_7
def st_call0_v3 : FVec Ideal S1048576x32 .f32 :=
  broadcastInDim S1048576x32 ![] bcast_S_S1048576x32 st_call0_v2
def st_call0_v4 : FVec Ideal S1048576x32 .f32 :=
  mulf st_call0_v3 (st_v52 a0 a1 a2 a3 a4)

def st_v53 : FVec Ideal S1048576x32 .f32 :=
  select (st_call0_v1 a0 a1 a2 a3 a4) (st_v52 a0 a1 a2 a3 a4) (st_call0_v4 a0 a1 a2 a3 a4)

def st_v54 : FVec Ideal S32x32 .f32 :=
  transpose S32x32 [1, 0] a5 transposes_S32x32_S32x32_1_0
def st_v55 : FVec Ideal S1048576x32 .f32 :=
  Host.dotGeneral (F := Ideal) dot_S1048576x32_S32x32_S1048576x32_1_0_0_1_n_n none (st_v53 a0 a1 a2 a3 a4) (st_v54 a5)
def st_v56 : FVec Ideal S1x32 .f32 :=
  broadcastInDim S1x32 ![1] bcast_S32_S1x32_1 a6
def st_v57 : FVec Ideal S1048576x32 .f32 :=
  broadcastInDim S1048576x32 ![0, 1] bcast_S1x32_S1048576x32_0_1 (st_v56 a6)

def st_v58 : FVec Ideal S1048576x32 .f32 :=
  addf (st_v55 a0 a1 a2 a3 a4 a5) (st_v57 a6)

def st_cst_8 : FVec Ideal S_ .f32 :=
  constant (F := Ideal) S_ .f32 0x3C23D70A#32
def st_call1_cst : FVec Ideal S_ .f32 :=
  constant (F := Ideal) S_ .f32 0x00000000#32
def st_call1_v0 : FVec Ideal S1048576x32 .f32 :=
  broadcastInDim S1048576x32 ![] bcast_S_S1048576x32 st_call1_cst
def st_call1_v1 : IVec S1048576x32 1 :=
  cmpf .oge (st_v58 a0 a1 a2 a3 a4 a5 a6) st_call1_v0
def st_call1_v2 : FVec Ideal S_ .f32 :=
  id st_cst_8
def st_call1_v3 : FVec Ideal S1048576x32 .f32 :=
  broadcastInDim S1048576x32 ![] bcast_S_S1048576x32 st_call1_v2
def st_call1_v4 : FVec Ideal S1048576x32 .f32 :=
  mulf st_call1_v3 (st_v58 a0 a1 a2 a3 a4 a5 a6)

def st_v59 : FVec Ideal S1048576x32 .f32 :=
  select (st_call1_v1 a0 a1 a2 a3 a4 a5 a6) (st_v58 a0 a1 a2 a3 a4 a5 a6) (st_call1_v4 a0 a1 a2 a3 a4 a5 a6)

def st_v60 : FVec Ideal S32x2 .f32 :=
  transpose S32x2 [1, 0] a7 transposes_S2x32_S32x2_1_0
def st_v61 : FVec Ideal S1048576x2 .f32 :=
  Host.dotGeneral (F := Ideal) dot_S1048576x32_S32x2_S1048576x2_1_0_0_1_n_n none (st_v59 a0 a1 a2 a3 a4 a5 a6) (st_v60 a7)
def st_v62 : FVec Ideal S1x2 .f32 :=
  broadcastInDim S1x2 ![1] bcast_S2_S1x2_1 a8
def st_v63 : FVec Ideal S1048576x2 .f32 :=
  broadcastInDim S1048576x2 ![0, 1] bcast_S1x2_S1048576x2_0_1 (st_v62 a8)

def st_v64 : FVec Ideal S1048576x2 .f32 :=
  addf (st_v61 a0 a1 a2 a3 a4 a5 a6 a7) (st_v63 a8)

def st_v65 : FVec Ideal S16x65536x2 .f32 :=
  shapeCast S16x65536x2 (st_v64 a0 a1 a2 a3 a4 a5 a6 a7 a8) shapeCasts_S1048576x2_S16x65536x2

def st_v66 : FVec Ideal S16x65536x1 .f32 :=
  extractStridedSlice S16x65536x1 ![0, 0, 0] (st_v65 a0 a1 a2 a3 a4 a5 a6 a7 a8) slices_S16x65536x2_S16x65536x1_0_0_0

def st_v67 : FVec Ideal S16x65536 .f32 :=
  shapeCast S16x65536 (st_v66 a0 a1 a2 a3 a4 a5 a6 a7 a8) shapeCasts_S16x65536x1_S16x65536

def st_v68 : FVec Ideal S16x65536 .f32 :=
  Host.negf (F := Ideal) (st_v67 a0 a1 a2 a3 a4 a5 a6 a7 a8)
def st_v69 : FVec Ideal S16x65536 .f32 :=
  Host.exp (F := Ideal) (st_v68 a0 a1 a2 a3 a4 a5 a6 a7 a8)
def st_cst_9 : FVec Ideal S_ .f32 :=
  constant (F := Ideal) S_ .f32 0x3F800000#32
def st_v70 : FVec Ideal S16x65536 .f32 :=
  broadcastInDim S16x65536 ![] bcast_S_S16x65536 st_cst_9
def st_v71 : FVec Ideal S16x65536 .f32 :=
  addf st_v70 (st_v69 a0 a1 a2 a3 a4 a5 a6 a7 a8)
def st_cst_10 : FVec Ideal S_ .f32 :=
  constant (F := Ideal) S_ .f32 0x3F800000#32
def st_v72 : FVec Ideal S16x65536 .f32 :=
  broadcastInDim S16x65536 ![] bcast_S_S16x65536 st_cst_10

def st_v73 : FVec Ideal S16x65536 .f32 :=
  Host.divf (F := Ideal) st_v72 (st_v71 a0 a1 a2 a3 a4 a5 a6 a7 a8)

def st_v74 : FVec Ideal S16x65536x1 .f32 :=
  extractStridedSlice S16x65536x1 ![0, 0, 1] (st_v65 a0 a1 a2 a3 a4 a5 a6 a7 a8) slices_S16x65536x2_S16x65536x1_0_0_1

def st_v75 : FVec Ideal S16x65536 .f32 :=
  shapeCast S16x65536 (st_v74 a0 a1 a2 a3 a4 a5 a6 a7 a8) shapeCasts_S16x65536x1_S16x65536

def st_v76 : FVec Ideal S16x65536 .f32 :=
  mulf (st_v73 a0 a1 a2 a3 a4 a5 a6 a7 a8) (st_v75 a0 a1 a2 a3 a4 a5 a6 a7 a8)

def st_v77 : FVec Ideal S16x256x4x64 .f32 :=
  shapeCast S16x256x4x64 (st_v76 a0 a1 a2 a3 a4 a5 a6 a7 a8) shapeCasts_S16x65536_S16x256x4x64

def st_cst_11 : FVec Ideal S_ .f32 :=
  constant (F := Ideal) S_ .f32 0x00000000#32

def st_v78 : FVec Ideal S16x256x64 .f32 :=
  Host.reduceAdd (F := Ideal) (st_v77 a0 a1 a2 a3 a4 a5 a6 a7 a8) st_cst_11 reducesTo_S16x256x4x64_S16x256x64_d2 h_S_

def st_v79 : FVec Ideal S16x256x128 .f32 :=
  concatenate S16x256x128 2 [⟨S16x256x64, a0⟩, ⟨S16x256x64, (st_v78 a0 a1 a2 a3 a4 a5 a6 a7 a8)⟩] concatenates_S16x256x64_S16x256x64_S16x256x128_d2

def st_v80 : FVec Ideal S4096x128 .f32 :=
  shapeCast S4096x128 (st_v79 a0 a1 a2 a3 a4 a5 a6 a7 a8) shapeCasts_S16x256x128_S4096x128

def st_v81 : FVec Ideal S128x16 .f32 :=
  transpose S128x16 [1, 0] a9 transposes_S16x128_S128x16_1_0
def st_v82 : FVec Ideal S4096x16 .f32 :=
  Host.dotGeneral (F := Ideal) dot_S4096x128_S128x16_S4096x16_1_0_0_1_n_n none (st_v80 a0 a1 a2 a3 a4 a5 a6 a7 a8) (st_v81 a9)
def st_v83 : FVec Ideal S1x16 .f32 :=
  broadcastInDim S1x16 ![1] bcast_S16_S1x16_1 a10
def st_v84 : FVec Ideal S4096x16 .f32 :=
  broadcastInDim S4096x16 ![0, 1] bcast_S1x16_S4096x16_0_1 (st_v83 a10)

def st_v85 : FVec Ideal S4096x16 .f32 :=
  addf (st_v82 a0 a1 a2 a3 a4 a5 a6 a7 a8 a9) (st_v84 a10)

def st_cst_12 : FVec Ideal S_ .f32 :=
  constant (F := Ideal) S_ .f32 0x00000000#32
def st_v86 : FVec Ideal S16 .f32 :=
  Host.reduceAdd (F := Ideal) (st_v85 a0 a1 a2 a3 a4 a5 a6 a7 a8 a9 a10) st_cst_12 reducesTo_S4096x16_S16_d0 h_S_
def st_cst_13 : FVec Ideal S_ .f32 :=
  constant (F := Ideal) S_ .f32 0x45800000#32
def st_v87 : FVec Ideal S16 .f32 :=
  broadcastInDim S16 ![] bcast_S_S16 st_cst_13

def st_v88 : FVec Ideal S16 .f32 :=
  Host.divf (F := Ideal) (st_v86 a0 a1 a2 a3 a4 a5 a6 a7 a8 a9 a10) st_v87

def st_v89 : FVec Ideal S1x16 .f32 :=
  broadcastInDim S1x16 ![1] bcast_S16_S1x16_1 (st_v88 a0 a1 a2 a3 a4 a5 a6 a7 a8 a9 a10)
def st_v90 : FVec Ideal S4096x16 .f32 :=
  broadcastInDim S4096x16 ![0, 1] bcast_S1x16_S4096x16_0_1 (st_v89 a0 a1 a2 a3 a4 a5 a6 a7 a8 a9 a10)
def st_v91 : FVec Ideal S4096x16 .f32 :=
  subf (st_v85 a0 a1 a2 a3 a4 a5 a6 a7 a8 a9 a10) (st_v90 a0 a1 a2 a3 a4 a5 a6 a7 a8 a9 a10)
def st_v92 : FVec Ideal S4096x16 .f32 :=
  mulf (st_v91 a0 a1 a2 a3 a4 a5 a6 a7 a8 a9 a10) (st_v91 a0 a1 a2 a3 a4 a5 a6 a7 a8 a9 a10)
def st_cst_14 : FVec Ideal S_ .f32 :=
  constant (F := Ideal) S_ .f32 0x00000000#32
def st_v93 : FVec Ideal S16 .f32 :=
  Host.reduceAdd (F := Ideal) (st_v92 a0 a1 a2 a3 a4 a5 a6 a7 a8 a9 a10) st_cst_14 reducesTo_S4096x16_S16_d0 h_S_
def st_cst_15 : FVec Ideal S_ .f32 :=
  constant (F := Ideal) S_ .f32 0x45800000#32
def st_v94 : FVec Ideal S16 .f32 :=
  broadcastInDim S16 ![] bcast_S_S16 st_cst_15

def st_v95 : FVec Ideal S16 .f32 :=
  Host.divf (F := Ideal) (st_v93 a0 a1 a2 a3 a4 a5 a6 a7 a8 a9 a10) st_v94

def st_v96 : FVec Ideal S1x16 .f32 :=
  broadcastInDim S1x16 ![1] bcast_S16_S1x16_1 (st_v88 a0 a1 a2 a3 a4 a5 a6 a7 a8 a9 a10)
def st_v97 : FVec Ideal S4096x16 .f32 :=
  broadcastInDim S4096x16 ![0, 1] bcast_S1x16_S4096x16_0_1 (st_v96 a0 a1 a2 a3 a4 a5 a6 a7 a8 a9 a10)
def st_v98 : FVec Ideal S4096x16 .f32 :=
  subf (st_v85 a0 a1 a2 a3 a4 a5 a6 a7 a8 a9 a10) (st_v97 a0 a1 a2 a3 a4 a5 a6 a7 a8 a9 a10)
def st_cst_16 : FVec Ideal S_ .f32 :=
  constant (F := Ideal) S_ .f32 0x3727C5AC#32
def st_v99 : FVec Ideal S16 .f32 :=
  broadcastInDim S16 ![] bcast_S_S16 st_cst_16
def st_v100 : FVec Ideal S16 .f32 :=
  addf (st_v95 a0 a1 a2 a3 a4 a5 a6 a7 a8 a9 a10) st_v99
def st_v101 : FVec Ideal S16 .f32 :=
  Host.rsqrt (F := Ideal) (st_v100 a0 a1 a2 a3 a4 a5 a6 a7 a8 a9 a10)
def st_v102 : FVec Ideal S1x16 .f32 :=
  broadcastInDim S1x16 ![1] bcast_S16_S1x16_1 (st_v101 a0 a1 a2 a3 a4 a5 a6 a7 a8 a9 a10)
def st_v103 : FVec Ideal S4096x16 .f32 :=
  broadcastInDim S4096x16 ![0, 1] bcast_S1x16_S4096x16_0_1 (st_v102 a0 a1 a2 a3 a4 a5 a6 a7 a8 a9 a10)
def st_v104 : FVec Ideal S4096x16 .f32 :=
  mulf (st_v98 a0 a1 a2 a3 a4 a5 a6 a7 a8 a9 a10) (st_v103 a0 a1 a2 a3 a4 a5 a6 a7 a8 a9 a10)
def st_v105 : FVec Ideal S1x16 .f32 :=
  broadcastInDim S1x16 ![1] bcast_S16_S1x16_1 a11
def st_v106 : FVec Ideal S4096x16 .f32 :=
  broadcastInDim S4096x16 ![0, 1] bcast_S1x16_S4096x16_0_1 (st_v105 a11)
def st_v107 : FVec Ideal S4096x16 .f32 :=
  mulf (st_v104 a0 a1 a2 a3 a4 a5 a6 a7 a8 a9 a10) (st_v106 a11)
def st_v108 : FVec Ideal S1x16 .f32 :=
  broadcastInDim S1x16 ![1] bcast_S16_S1x16_1 a12
def st_v109 : FVec Ideal S4096x16 .f32 :=
  broadcastInDim S4096x16 ![0, 1] bcast_S1x16_S4096x16_0_1 (st_v108 a12)

def st_v110 : FVec Ideal S4096x16 .f32 :=
  addf (st_v107 a0 a1 a2 a3 a4 a5 a6 a7 a8 a9 a10 a11) (st_v109 a12)

def st_cst_17 : FVec Ideal S_ .f32 :=
  constant (F := Ideal) S_ .f32 0x3C23D70A#32
def st_call2_cst : FVec Ideal S_ .f32 :=
  constant (F := Ideal) S_ .f32 0x00000000#32
def st_call2_v0 : FVec Ideal S4096x16 .f32 :=
  broadcastInDim S4096x16 ![] bcast_S_S4096x16 st_call2_cst
def st_call2_v1 : IVec S4096x16 1 :=
  cmpf .oge (st_v110 a0 a1 a2 a3 a4 a5 a6 a7 a8 a9 a10 a11 a12) st_call2_v0
def st_call2_v2 : FVec Ideal S_ .f32 :=
  id st_cst_17
def st_call2_v3 : FVec Ideal S4096x16 .f32 :=
  broadcastInDim S4096x16 ![] bcast_S_S4096x16 st_call2_v2
def st_call2_v4 : FVec Ideal S4096x16 .f32 :=
  mulf st_call2_v3 (st_v110 a0 a1 a2 a3 a4 a5 a6 a7 a8 a9 a10 a11 a12)

def st_v111 : FVec Ideal S4096x16 .f32 :=
  select (st_call2_v1 a0 a1 a2 a3 a4 a5 a6 a7 a8 a9 a10 a11 a12) (st_v110 a0 a1 a2 a3 a4 a5 a6 a7 a8 a9 a10 a11 a12) (st_call2_v4 a0 a1 a2 a3 a4 a5 a6 a7 a8 a9 a10 a11 a12)

def st_v112 : FVec Ideal S16x64 .f32 :=
  transpose S16x64 [1, 0] a13 transposes_S64x16_S16x64_1_0
def st_v113 : FVec Ideal S4096x64 .f32 :=
  Host.dotGeneral (F := Ideal) dot_S4096x16_S16x64_S4096x64_1_0_0_1_n_n none (st_v111 a0 a1 a2 a3 a4 a5 a6 a7 a8 a9 a10 a11 a12) (st_v112 a13)
def st_v114 : FVec Ideal S1x64 .f32 :=
  broadcastInDim S1x64 ![1] bcast_S64_S1x64_1 a14
def st_v115 : FVec Ideal S4096x64 .f32 :=
  broadcastInDim S4096x64 ![0, 1] bcast_S1x64_S4096x64_0_1 (st_v114 a14)

def st_v116 : FVec Ideal S4096x64 .f32 :=
  addf (st_v113 a0 a1 a2 a3 a4 a5 a6 a7 a8 a9 a10 a11 a12 a13) (st_v115 a14)

def st_v117 : FVec Ideal S16x256x64 .f32 :=
  shapeCast S16x256x64 (st_v116 a0 a1 a2 a3 a4 a5 a6 a7 a8 a9 a10 a11 a12 a13 a14) shapeCasts_S4096x64_S16x256x64

end Stages

def refEdges (a0 : FVec Ideal S16x256x64 .f32) (a1 : FVec Ideal S32x128 .f32) (a2 : FVec Ideal S32 .f32) (a3 : FVec Ideal S32 .f32) (a4 : FVec Ideal S32 .f32) (a5 : FVec Ideal S32x32 .f32) (a6 : FVec Ideal S32 .f32) (a7 : FVec Ideal S2x32 .f32) (a8 : FVec Ideal S2 .f32) (a9 : FVec Ideal S16x128 .f32) (a10 : FVec Ideal S16 .f32) (a11 : FVec Ideal S16 .f32) (a12 : FVec Ideal S16 .f32) (a13 : FVec Ideal S64x16 .f32) (a14 : FVec Ideal S64 .f32) : FVec Ideal S16x65536 .f32 :=
  (st_v73 a0 a1 a2 a3 a4 a5 a6 a7 a8)

def refPred (a0 : FVec Ideal S16x256x64 .f32) (a1 : FVec Ideal S32x128 .f32) (a2 : FVec Ideal S32 .f32) (a3 : FVec Ideal S32 .f32) (a4 : FVec Ideal S32 .f32) (a5 : FVec Ideal S32x32 .f32) (a6 : FVec Ideal S32 .f32) (a7 : FVec Ideal S2x32 .f32) (a8 : FVec Ideal S2 .f32) (a9 : FVec Ideal S16x128 .f32) (a10 : FVec Ideal S16 .f32) (a11 : FVec Ideal S16 .f32) (a12 : FVec Ideal S16 .f32) (a13 : FVec Ideal S64x16 .f32) (a14 : FVec Ideal S64 .f32) : FVec Ideal S16x256x64 .f32 :=
  (st_v117 a0 a1 a2 a3 a4 a5 a6 a7 a8 a9 a10 a11 a12 a13 a14)

end Cert.ReferenceIdeal.Hand

end
-- ==== Proof.Ref.Read.lean ====
import proofs.«145300_j21964462751805_1_alg».proof.Proof.Ref.Run
import proofs.«145300_j21964462751805_1_alg».proof.Proof.Ref.Term
import Idealize.ShloMosaic.Lib.StableHlo.RunLoop

noncomputable section

namespace Cert.ReferenceIdeal.Hand

open Cert.ReferenceIdeal Cert.ReferenceIdeal.Facts₀ Idealize.ShloMosaic Idealize.ShloMosaic.TcCoe Idealize.SL.Sem Idealize.ShloMosaic.StableHlo

section

variable (V0 : Valuation τ sig (Elt Ideal))

-- The contents after the first K stretches.
def val (K : ℕ) : Valuation τ sig (Elt Ideal) := afterL ((ws (F := Ideal)).take K) V0

-- No stretch writes an argument.
theorem val_keep (K : ℕ) {r : Ref sig .tc} (hr : r ∈ args) : val V0 K (no_index (Proc.devRef .tc r)) = V0 (Proc.devRef .tc r) := by
  rw [val, afterL_eq_after_flatten]
  exact after_of_forall_not_mem _ V0 fun op hop => by
    obtain ⟨w, hw, ho⟩ := List.mem_flatten.mp hop
    exact (ws_ok w (List.mem_of_mem_take hw) op ho).2 r hr

theorem val1_v6 : val V0 1 (no_index (Proc.devRef .tc main_v6)) = st_v6 := by
  show after w1 (val V0 0) (Proc.devRef .tc main_v6) = _
  simp only [w1]
  after_results_simp
  all_goals rfl

theorem val1_v11 : val V0 1 (no_index (Proc.devRef .tc main_v11)) = st_v11 := by
  show after w1 (val V0 0) (Proc.devRef .tc main_v11) = _
  simp only [w1]
  after_results_simp
  all_goals rfl

theorem val2_v24 : val V0 2 (no_index (Proc.devRef .tc main_v24)) = st_v24 (V0 (Proc.devRef .tc main_arg0)) (V0 (Proc.devRef .tc main_arg1)) := by
  show after w2 (val V0 1) (Proc.devRef .tc main_v24) = _
  simp only [w2]
  after_results_simp
  simp (disch := decide) only [val_keep, val1_v6, val1_v11] <;> rfl

theorem val3_v37 : val V0 3 (no_index (Proc.devRef .tc main_v37)) = st_v37 (V0 (Proc.devRef .tc main_arg0)) (V0 (Proc.devRef .tc main_arg1)) (V0 (Proc.devRef .tc main_arg2)) := by
  show after w3 (val V0 2) (Proc.devRef .tc main_v37) = _
  simp only [w3]
  after_results_simp
  simp (disch := decide) only [val_keep, val2_v24] <;> rfl

theorem val3_v40 : val V0 3 (no_index (Proc.devRef .tc main_v40)) = st_v40 (V0 (Proc.devRef .tc main_arg0)) (V0 (Proc.devRef .tc main_arg1)) (V0 (Proc.devRef .tc main_arg2)) := by
  show after w3 (val V0 2) (Proc.devRef .tc main_v40) = _
  simp only [w3]
  after_results_simp
  simp (disch := decide) only [val_keep, val2_v24] <;> rfl

theorem val4_v49 : val V0 4 (no_index (Proc.devRef .tc main_v49)) = st_v49 (V0 (Proc.devRef .tc main_arg0)) (V0 (Proc.devRef .tc main_arg1)) (V0 (Proc.devRef .tc main_arg2)) (V0 (Proc.devRef .tc main_arg3)) := by
  show after w4 (val V0 3) (Proc.devRef .tc main_v49) = _
  simp only [w4]
  after_results_simp
  simp (disch := decide) only [val_keep, val3_v37, val3_v40] <;> rfl

theorem val4_v50 : val V0 4 (no_index (Proc.devRef .tc main_v50)) = st_v50 (V0 (Proc.devRef .tc main_arg4)) := by
  show after w4 (val V0 3) (Proc.devRef .tc main_v50) = _
  simp only [w4]
  after_results_simp
  simp (disch := decide) only [val_keep] <;> rfl

theorem val5_v53 : val V0 5 (no_index (Proc.devRef .tc main_v53)) = st_v53 (V0 (Proc.devRef .tc main_arg0)) (V0 (Proc.devRef .tc main_arg1)) (V0 (Proc.devRef .tc main_arg2)) (V0 (Proc.devRef .tc main_arg3)) (V0 (Proc.devRef .tc main_arg4)) := by
  show after w5 (val V0 4) (Proc.devRef .tc main_v53) = _
  simp only [w5]
  after_results_simp
  simp (disch := decide) only [val_keep, val4_v50, val4_v49] <;> rfl

theorem val6_v64 : val V0 6 (no_index (Proc.devRef .tc main_v64)) = st_v64 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  show after w6 (val V0 5) (Proc.devRef .tc main_v64) = _
  simp only [w6]
  after_results_simp
  simp (disch := decide) only [val_keep, val5_v53] <;> rfl

theorem val7_v73 : val V0 7 (no_index (Proc.devRef .tc main_v73)) = st_v73 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  show after w7 (val V0 6) (Proc.devRef .tc main_v73) = _
  simp only [w7]
  after_results_simp
  simp (disch := decide) only [val_keep, val6_v64] <;> rfl

theorem val7_v78 : val V0 7 (no_index (Proc.devRef .tc main_v78)) = st_v78 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  show after w7 (val V0 6) (Proc.devRef .tc main_v78) = _
  simp only [w7]
  after_results_simp
  simp (disch := decide) only [val_keep, val6_v64] <;> rfl

theorem val8_v85 : val V0 8 (no_index (Proc.devRef .tc main_v85)) = st_v85 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  show after w8 (val V0 7) (Proc.devRef .tc main_v85) = _
  simp only [w8]
  after_results_simp
  simp (disch := decide) only [val_keep]
  rw [val7_v78, val_keep V0 7 (r := main_arg0) (by decide)]
  rfl

theorem val8_v88 : val V0 8 (no_index (Proc.devRef .tc main_v88)) = st_v88 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  show after w8 (val V0 7) (Proc.devRef .tc main_v88) = _
  simp only [w8]
  after_results_simp
  simp (disch := decide) only [val_keep]
  rw [val7_v78, val_keep V0 7 (r := main_arg0) (by decide)]
  rfl

theorem val9_v98 : val V0 9 (no_index (Proc.devRef .tc main_v98)) = st_v98 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  show after w9 (val V0 8) (Proc.devRef .tc main_v98) = _
  simp only [w9]
  after_results_simp
  simp (disch := decide) only [val_keep, val8_v88, val8_v85] <;> rfl

theorem val9_v100 : val V0 9 (no_index (Proc.devRef .tc main_v100)) = st_v100 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  show after w9 (val V0 8) (Proc.devRef .tc main_v100) = _
  simp only [w9]
  after_results_simp
  simp (disch := decide) only [val_keep, val8_v88, val8_v85] <;> rfl

theorem val10_v110 : val V0 10 (no_index (Proc.devRef .tc main_v110)) = st_v110 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  show after w10 (val V0 9) (Proc.devRef .tc main_v110) = _
  simp only [w10]
  after_results_simp
  simp (disch := decide) only [val_keep, val9_v100, val9_v98] <;> rfl

theorem val11_v111 : val V0 11 (no_index (Proc.devRef .tc main_v111)) = st_v111 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  show after w11 (val V0 10) (Proc.devRef .tc main_v111) = _
  simp only [w11]
  after_results_simp
  simp (disch := decide) only [val_keep, val10_v110] <;> rfl

theorem val12_v117 : val V0 12 (no_index (Proc.devRef .tc main_v117)) = st_v117 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  show after w12 (val V0 11) (Proc.devRef .tc main_v117) = _
  simp only [w12]
  after_results_simp
  simp (disch := decide) only [val_keep, val11_v111] <;> rfl

-- The last five stretches do not write the first result.
theorem val12_v73 : val V0 12 (no_index (Proc.devRef .tc main_v73)) = st_v73 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  show after w12 (after w11 (after w10 (after w9 (after w8 (val V0 7))))) (Proc.devRef .tc main_v73) = _
  simp only [w8, w9, w10, w11, w12]
  after_results_simp
  exact val7_v73 V0

theorem after_ops : after (ops (F := Ideal)) V0 = val V0 12 := (afterL_eq_after_flatten ws V0).symm

end

theorem run' (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v73) = refEdges (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v117) = refPred (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => by
      have k := fun r hr => (h c r).trans ((congrFun (after_ops _) _).trans (val_keep (launchContents m c) 12 (r := r) hr))
      exact ⟨(h c _).trans ((congrFun (after_ops _) _).trans (val12_v73 _)), (h c _).trans ((congrFun (after_ops _) _).trans (val12_v117 _)),
        k _ (by decide), k _ (by decide), k _ (by decide), k _ (by decide), k _ (by decide), k _ (by decide), k _ (by decide), k _ (by decide),
        k _ (by decide), k _ (by decide), k _ (by decide), k _ (by decide), k _ (by decide), k _ (by decide), k _ (by decide)⟩)
    (run_seq scopedRefs_eq scopedSems_eq defs main (fun _ => ops) main_eq (fun _ => ops_sub) m ρ)

end Cert.ReferenceIdeal.Hand

end
-- ==== Proof.Spec.lean ====
import Idealize.ShloMosaic.PureOps.Ideal

noncomputable section

namespace Cert.Spec

open Idealize.ShloMosaic

abbrev eps : EReal := Ideal.ofBits .f32 0x3727C5AC#32
abbrev slope : EReal := Ideal.ofBits .f32 0x3C23D70A#32
abbrev cnt1 : EReal := Ideal.ofBits .f32 0x49800000#32
abbrev cnt2 : EReal := Ideal.ofBits .f32 0x45800000#32

def leaky (x : EReal) : EReal := if 0 ≤ x then x else slope * x

def act (h mu sg g be : EReal) : EReal := leaky (((h - mu) * Ideal.rsqrt (sg + eps)) * g + be)

def mean {ι : Type} (S : ι → EReal) (n : EReal) (j : ι) : EReal := Ideal.div (S j) n
def varSq {ι : Type} (Q S : ι → EReal) (n : EReal) (j : ι) : EReal := Ideal.div (Q j) n - mean S n j * mean S n j

structure Params where
  X : Fin 16 → Fin 256 → Fin 64 → EReal
  W1 : Fin 32 → Fin 128 → EReal
  b1 : Fin 32 → EReal
  g1 : Fin 32 → EReal
  be1 : Fin 32 → EReal
  W2 : Fin 32 → Fin 32 → EReal
  b2 : Fin 32 → EReal
  W3 : Fin 2 → Fin 32 → EReal
  b3 : Fin 2 → EReal
  F1 : Fin 16 → Fin 128 → EReal
  fb1 : Fin 16 → EReal
  fg : Fin 16 → EReal
  fbb : Fin 16 → EReal
  F2 : Fin 64 → Fin 16 → EReal
  fb2 : Fin 64 → EReal

variable (P : Params)

def Params.Wa (j : Fin 32) (k : Fin 64) : EReal := P.W1 j ⟨k.val, by omega⟩
def Params.Wb (j : Fin 32) (k : Fin 64) : EReal := P.W1 j ⟨64 + k.val, by omega⟩

def Params.h1 (b : Fin 16) (s t : Fin 256) (j : Fin 32) : EReal :=
  (∑ k : Fin 64, P.X b s k * P.Wa j k) + (∑ k : Fin 64, P.X b t k * P.Wb j k) + P.b1 j

def Params.pair (b : Fin 16) (s t : Fin 256) (k : Fin 128) : EReal :=
  if h : k.val < 64 then P.X b s ⟨k.val, h⟩ else P.X b t ⟨k.val - 64, by omega⟩
def Params.h1cat (b : Fin 16) (s t : Fin 256) (j : Fin 32) : EReal :=
  (∑ k : Fin 128, P.pair b s t k * P.W1 j k) + P.b1 j

def Params.sum1 (j : Fin 32) : EReal := ∑ b : Fin 16, ∑ s : Fin 256, ∑ t : Fin 256, P.h1 b s t j
def Params.sumsq1 (j : Fin 32) : EReal := ∑ b : Fin 16, ∑ s : Fin 256, ∑ t : Fin 256, P.h1 b s t j * P.h1 b s t j

variable (mu sg : Fin 32 → EReal)

def Params.act1 (b : Fin 16) (s t : Fin 256) (j : Fin 32) : EReal :=
  act (P.h1 b s t j) (mu j) (sg j) (P.g1 j) (P.be1 j)
def Params.hid (b : Fin 16) (s t : Fin 256) (j : Fin 32) : EReal :=
  leaky ((∑ k : Fin 32, P.act1 mu sg b s t k * P.W2 j k) + P.b2 j)
def Params.out (b : Fin 16) (s t : Fin 256) (u : Fin 2) : EReal :=
  (∑ k : Fin 32, P.hid mu sg b s t k * P.W3 u k) + P.b3 u
def Params.edge (b : Fin 16) (s t : Fin 256) : EReal := Ideal.logistic (P.out mu sg b s t 0)
def Params.wgt (b : Fin 16) (s t : Fin 256) : EReal := P.edge mu sg b s t * P.out mu sg b s t 1
def Params.agg (b : Fin 16) (s : Fin 256) (d : Fin 64) : EReal :=
  ∑ g : Fin 4, P.wgt mu sg b s ⟨64 * g.val + d.val, by omega⟩
def Params.cat (b : Fin 16) (s : Fin 256) (k : Fin 128) : EReal :=
  if h : k.val < 64 then P.X b s ⟨k.val, h⟩ else P.agg mu sg b s ⟨k.val - 64, by omega⟩
def Params.pre (b : Fin 16) (s : Fin 256) (j : Fin 16) : EReal :=
  (∑ k : Fin 128, P.cat mu sg b s k * P.F1 j k) + P.fb1 j
def Params.sum2 (j : Fin 16) : EReal := ∑ b : Fin 16, ∑ s : Fin 256, P.pre mu sg b s j
def Params.sumsq2 (j : Fin 16) : EReal := ∑ b : Fin 16, ∑ s : Fin 256, P.pre mu sg b s j * P.pre mu sg b s j

def Params.proj (p : Fin 16 → Fin 256 → Fin 16 → EReal) (mu2 sg2 : Fin 16 → EReal) (b : Fin 16) (s : Fin 256) (d : Fin 64) : EReal :=
  (∑ j : Fin 16, act (p b s j) (mu2 j) (sg2 j) (P.fg j) (P.fbb j) * P.F2 d j) + P.fb2 d

def Params.mean1 : Fin 32 → EReal := mean P.sum1 cnt1
def Params.var1 : Fin 32 → EReal := varSq P.sumsq1 P.sum1 cnt1
def Params.mean2 : Fin 16 → EReal := mean (P.sum2 P.mean1 P.var1) cnt2
def Params.var2 : Fin 16 → EReal := varSq (P.sumsq2 P.mean1 P.var1) (P.sum2 P.mean1 P.var1) cnt2

def Params.edges (b : Fin 16) (s t : Fin 256) : EReal := P.edge P.mean1 P.var1 b s t
def Params.pred (b : Fin 16) (s : Fin 256) (d : Fin 64) : EReal :=
  P.proj (P.pre P.mean1 P.var1) P.mean2 P.var2 b s d

end Cert.Spec

end
-- ==== Proof.Arrays.lean ====
import Idealize.ShloMosaic.Lib.ValueIdx
import proofs.«145300_j21964462751805_1_alg».proof.Proof.Spec

noncomputable section

namespace Cert.Spec

open Idealize.ShloMosaic Idealize.ShloMosaic.ValueIdx

abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal

def ofArrays (x : Arr3 16 256 64) (w1 : Arr2 32 128) (b1 g1 be1 : Arr1 32) (w2 : Arr2 32 32) (b2 : Arr1 32)
    (w3 : Arr2 2 32) (b3 : Arr1 2) (f1 : Arr2 16 128) (fb1 fg fbb : Arr1 16) (f2 : Arr2 64 16) (fb2 : Arr1 64) : Params where
  X b n k := x (ix3 b n k)
  W1 j k := w1 (ix2 j k)
  b1 j := b1 (ix1 j)
  g1 j := g1 (ix1 j)
  be1 j := be1 (ix1 j)
  W2 j k := w2 (ix2 j k)
  b2 j := b2 (ix1 j)
  W3 u k := w3 (ix2 u k)
  b3 u := b3 (ix1 u)
  F1 j k := f1 (ix2 j k)
  fb1 j := fb1 (ix1 j)
  fg j := fg (ix1 j)
  fbb j := fbb (ix1 j)
  F2 d j := f2 (ix2 d j)
  fb2 d := fb2 (ix1 d)

def Params.IsReal (P : Params) : Prop :=
  (∀ b n k, ∃ r : ℝ, P.X b n k = (r : EReal)) ∧ (∀ j k, ∃ r : ℝ, P.W1 j k = (r : EReal)) ∧ (∀ j, ∃ r : ℝ, P.b1 j = (r : EReal))
  ∧ (∀ j, ∃ r : ℝ, P.g1 j = (r : EReal)) ∧ (∀ j, ∃ r : ℝ, P.be1 j = (r : EReal)) ∧ (∀ j k, ∃ r : ℝ, P.W2 j k = (r : EReal))
  ∧ (∀ j, ∃ r : ℝ, P.b2 j = (r : EReal)) ∧ (∀ u k, ∃ r : ℝ, P.W3 u k = (r : EReal)) ∧ (∀ u, ∃ r : ℝ, P.b3 u = (r : EReal))
  ∧ (∀ j k, ∃ r : ℝ, P.F1 j k = (r : EReal)) ∧ (∀ j, ∃ r : ℝ, P.fb1 j = (r : EReal)) ∧ (∀ j, ∃ r : ℝ, P.fg j = (r : EReal))
  ∧ (∀ j, ∃ r : ℝ, P.fbb j = (r : EReal)) ∧ (∀ d j, ∃ r : ℝ, P.F2 d j = (r : EReal)) ∧ (∀ d, ∃ r : ℝ, P.fb2 d = (r : EReal))

end Cert.Spec

end
-- ==== Proof.KI.KVal0.lean ====
import proofs.«145300_j21964462751805_1_alg».proof.Proof.KI.Chain
import proofs.«145300_j21964462751805_1_alg».proof.Proof.Arrays
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

def kP : Cert.Spec.Params :=
  Cert.Spec.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem V1_kept (r : Ref sig .tc) (h : r ∉ hostOps0_W) : V1 m c r = m ((c : Thread nD τ).loc r) :=
  (W1_of m c r h).trans rfl

theorem V1_arg0 (b : Fin 16) (n : Fin 256) (k : Fin 64) : (V1 m c main_arg0 : S16x256x64.Idx → EReal) (ix3 b n k) = (kP m c).X b n k := by
  rw [V1_kept m c main_arg0 (by decide)]; rfl
theorem V1_arg5 (j k : Fin 32) : (V1 m c main_arg5 : S32x32.Idx → EReal) (ix2 j k) = (kP m c).W2 j k := by
  rw [V1_kept m c main_arg5 (by decide)]; rfl
theorem V1_arg7 (u : Fin 2) (k : Fin 32) : (V1 m c main_arg7 : S2x32.Idx → EReal) (ix2 u k) = (kP m c).W3 u k := by
  rw [V1_kept m c main_arg7 (by decide)]; rfl
theorem V1_arg9 (j : Fin 16) (k : Fin 128) : (V1 m c main_arg9 : S16x128.Idx → EReal) (ix2 j k) = (kP m c).F1 j k := by
  rw [V1_kept m c main_arg9 (by decide)]; rfl
theorem V1_arg13 (d : Fin 64) (j : Fin 16) : (V1 m c main_arg13 : S64x16.Idx → EReal) (ix2 d j) = (kP m c).F2 d j := by
  rw [V1_kept m c main_arg13 (by decide)]; rfl

theorem V1_v0 (j : Fin 32) (k : Fin 64) : (V1 m c main_v0 : S32x64.Idx → EReal) (ix2 j k) = (kP m c).Wa j k := by
  have e : (V1 m c main_v0 : S32x64.Idx → EReal)
      = extractStridedSlice S32x64 ![0, 0] ((m ((c : Thread nD τ).loc main_arg1)) : S32x128.Idx → EReal) slices_S32x128_S32x64_0_0 := by
    show StableHlo.after hostOps0 (W0 m c) (Proc.devRef .tc main_v0) = _; after_results <;> rfl
  rw [e]
  exact slice2_axis1_apply 0 _ _ j k ⟨k.val, by omega⟩ (Nat.zero_add _).symm

theorem V1_v1 (j : Fin 32) (k : Fin 64) : (V1 m c main_v1 : S32x64.Idx → EReal) (ix2 j k) = (kP m c).Wb j k := by
  have e : (V1 m c main_v1 : S32x64.Idx → EReal)
      = extractStridedSlice S32x64 ![0, 64] ((m ((c : Thread nD τ).loc main_arg1)) : S32x128.Idx → EReal) slices_S32x128_S32x64_0_64 := by
    show StableHlo.after hostOps0 (W0 m c) (Proc.devRef .tc main_v1) = _; after_results <;> rfl
  rw [e]
  exact slice2_axis1_apply 64 _ _ j k ⟨64 + k.val, by omega⟩ rfl

theorem V1_v2 (j : Fin 32) : (V1 m c main_v2 : S1x32.Idx → EReal) (ix2 0 j) = (kP m c).b1 j := by
  have e : (V1 m c main_v2 : S1x32.Idx → EReal) = shapeCast S1x32 ((m ((c : Thread nD τ).loc main_arg2)) : S32.Idx → EReal) shapeCasts_S32_S1x32 := by
    show StableHlo.after hostOps0 (W0 m c) (Proc.devRef .tc main_v2) = _; after_results <;> rfl
  rw [e]; exact shapeCast_a_1a_apply _ _ 0 j

theorem V1_v3 (j : Fin 32) : (V1 m c main_v3 : S1x32.Idx → EReal) (ix2 0 j) = (kP m c).g1 j := by
  have e : (V1 m c main_v3 : S1x32.Idx → EReal) = shapeCast S1x32 ((m ((c : Thread nD τ).loc main_arg3)) : S32.Idx → EReal) shapeCasts_S32_S1x32 := by
    show StableHlo.after hostOps0 (W0 m c) (Proc.devRef .tc main_v3) = _; after_results <;> rfl
  rw [e]; exact shapeCast_a_1a_apply _ _ 0 j

theorem V1_v4 (j : Fin 32) : (V1 m c main_v4 : S1x32.Idx → EReal) (ix2 0 j) = (kP m c).be1 j := by
  have e : (V1 m c main_v4 : S1x32.Idx → EReal) = shapeCast S1x32 ((m ((c : Thread nD τ).loc main_arg4)) : S32.Idx → EReal) shapeCasts_S32_S1x32 := by
    show StableHlo.after hostOps0 (W0 m c) (Proc.devRef .tc main_v4) = _; after_results <;> rfl
  rw [e]; exact shapeCast_a_1a_apply _ _ 0 j

theorem V1_v5 (j : Fin 32) : (V1 m c main_v5 : S1x32.Idx → EReal) (ix2 0 j) = (kP m c).b2 j := by
  have e : (V1 m c main_v5 : S1x32.Idx → EReal) = shapeCast S1x32 ((m ((c : Thread nD τ).loc main_arg6)) : S32.Idx → EReal) shapeCasts_S32_S1x32 := by
    show StableHlo.after hostOps0 (W0 m c) (Proc.devRef .tc main_v5) = _; after_results <;> rfl
  rw [e]; exact shapeCast_a_1a_apply _ _ 0 j

theorem V1_v6 (j : Fin 2) : (V1 m c main_v6 : S1x2.Idx → EReal) (ix2 0 j) = (kP m c).b3 j := by
  have e : (V1 m c main_v6 : S1x2.Idx → EReal) = shapeCast S1x2 ((m ((c : Thread nD τ).loc main_arg8)) : S2.Idx → EReal) shapeCasts_S2_S1x2 := by
    show StableHlo.after hostOps0 (W0 m c) (Proc.devRef .tc main_v6) = _; after_results <;> rfl
  rw [e]; exact shapeCast_a_1a_apply _ _ 0 j

theorem V1_v7 (j : Fin 16) : (V1 m c main_v7 : S1x16.Idx → EReal) (ix2 0 j) = (kP m c).fb1 j := by
  have e : (V1 m c main_v7 : S1x16.Idx → EReal) = shapeCast S1x16 ((m ((c : Thread nD τ).loc main_arg10)) : S16.Idx → EReal) shapeCasts_S16_S1x16 := by
    show StableHlo.after hostOps0 (W0 m c) (Proc.devRef .tc main_v7) = _; after_results <;> rfl
  rw [e]; exact shapeCast_a_1a_apply _ _ 0 j

theorem V1_v8 (j : Fin 16) : (V1 m c main_v8 : S1x16.Idx → EReal) (ix2 0 j) = (kP m c).fg j := by
  have e : (V1 m c main_v8 : S1x16.Idx → EReal) = shapeCast S1x16 ((m ((c : Thread nD τ).loc main_arg11)) : S16.Idx → EReal) shapeCasts_S16_S1x16 := by
    show StableHlo.after hostOps0 (W0 m c) (Proc.devRef .tc main_v8) = _; after_results <;> rfl
  rw [e]; exact shapeCast_a_1a_apply _ _ 0 j

theorem V1_v9 (j : Fin 16) : (V1 m c main_v9 : S1x16.Idx → EReal) (ix2 0 j) = (kP m c).fbb j := by
  have e : (V1 m c main_v9 : S1x16.Idx → EReal) = shapeCast S1x16 ((m ((c : Thread nD τ).loc main_arg12)) : S16.Idx → EReal) shapeCasts_S16_S1x16 := by
    show StableHlo.after hostOps0 (W0 m c) (Proc.devRef .tc main_v9) = _; after_results <;> rfl
  rw [e]; exact shapeCast_a_1a_apply _ _ 0 j

theorem V1_v10 (j : Fin 64) : (V1 m c main_v10 : S1x64.Idx → EReal) (ix2 0 j) = (kP m c).fb2 j := by
  have e : (V1 m c main_v10 : S1x64.Idx → EReal) = shapeCast S1x64 ((m ((c : Thread nD τ).loc main_arg14)) : S64.Idx → EReal) shapeCasts_S64_S1x64 := by
    show StableHlo.after hostOps0 (W0 m c) (Proc.devRef .tc main_v10) = _; after_results <;> rfl
  rw [e]; exact shapeCast_a_1a_apply _ _ 0 j

end Cert.KernelIdeal.Hand

end
-- ==== Proof.KI.KVal1.lean ====
import proofs.«145300_j21964462751805_1_alg».proof.Proof.KI.KVal0

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

theorem V3_kept (r : Ref sig .tc) (h1 : r ∉ hostOps1_W) (ha : r ≠ main_v11_0) (hb : r ≠ main_v11_1) : V3 m c r = V1 m c r :=
  (W3_of m c r h1).trans (W2_of_ne m c r ha hb)

theorem V3_arg0 (b : Fin 16) (n : Fin 256) (k : Fin 64) : (V3 m c main_arg0 : S16x256x64.Idx → EReal) (ix3 b n k) = (kP m c).X b n k := by
  rw [V3_kept m c main_arg0 (by decide) (by decide) (by decide)]; exact V1_arg0 m c b n k
theorem V3_v0 (j : Fin 32) (k : Fin 64) : (V3 m c main_v0 : S32x64.Idx → EReal) (ix2 j k) = (kP m c).Wa j k := by
  rw [V3_kept m c main_v0 (by decide) (by decide) (by decide)]; exact V1_v0 m c j k
theorem V3_v1 (j : Fin 32) (k : Fin 64) : (V3 m c main_v1 : S32x64.Idx → EReal) (ix2 j k) = (kP m c).Wb j k := by
  rw [V3_kept m c main_v1 (by decide) (by decide) (by decide)]; exact V1_v1 m c j k
theorem V3_v2 (j : Fin 32) : (V3 m c main_v2 : S1x32.Idx → EReal) (ix2 0 j) = (kP m c).b1 j := by
  rw [V3_kept m c main_v2 (by decide) (by decide) (by decide)]; exact V1_v2 m c j
theorem V3_v3 (j : Fin 32) : (V3 m c main_v3 : S1x32.Idx → EReal) (ix2 0 j) = (kP m c).g1 j := by
  rw [V3_kept m c main_v3 (by decide) (by decide) (by decide)]; exact V1_v3 m c j
theorem V3_v4 (j : Fin 32) : (V3 m c main_v4 : S1x32.Idx → EReal) (ix2 0 j) = (kP m c).be1 j := by
  rw [V3_kept m c main_v4 (by decide) (by decide) (by decide)]; exact V1_v4 m c j
theorem V3_arg5 (j k : Fin 32) : (V3 m c main_arg5 : S32x32.Idx → EReal) (ix2 j k) = (kP m c).W2 j k := by
  rw [V3_kept m c main_arg5 (by decide) (by decide) (by decide)]; exact V1_arg5 m c j k
theorem V3_v5 (j : Fin 32) : (V3 m c main_v5 : S1x32.Idx → EReal) (ix2 0 j) = (kP m c).b2 j := by
  rw [V3_kept m c main_v5 (by decide) (by decide) (by decide)]; exact V1_v5 m c j
theorem V3_arg7 (u : Fin 2) (k : Fin 32) : (V3 m c main_arg7 : S2x32.Idx → EReal) (ix2 u k) = (kP m c).W3 u k := by
  rw [V3_kept m c main_arg7 (by decide) (by decide) (by decide)]; exact V1_arg7 m c u k
theorem V3_v6 (u : Fin 2) : (V3 m c main_v6 : S1x2.Idx → EReal) (ix2 0 u) = (kP m c).b3 u := by
  rw [V3_kept m c main_v6 (by decide) (by decide) (by decide)]; exact V1_v6 m c u
theorem V3_arg9 (j : Fin 16) (k : Fin 128) : (V3 m c main_arg9 : S16x128.Idx → EReal) (ix2 j k) = (kP m c).F1 j k := by
  rw [V3_kept m c main_arg9 (by decide) (by decide) (by decide)]; exact V1_arg9 m c j k
theorem V3_v7 (j : Fin 16) : (V3 m c main_v7 : S1x16.Idx → EReal) (ix2 0 j) = (kP m c).fb1 j := by
  rw [V3_kept m c main_v7 (by decide) (by decide) (by decide)]; exact V1_v7 m c j

theorem V3_v13 (S : Fin 32 → EReal) (hS : ∀ j, (W2 m c (Proc.devRef .tc main_v11_0) : S1x32.Idx → EReal) (ix2 0 j) = S j) (j : Fin 32) :
    (V3 m c main_v13 : S1x32.Idx → EReal) (ix2 0 j) = Cert.Spec.mean S Cert.Spec.cnt1 j := by
  have e : (V3 m c main_v13 : S1x32.Idx → EReal)
      = Host.divf (W2 m c (Proc.devRef .tc main_v11_0) : S1x32.Idx → EReal)
          (broadcastInDim S1x32 ![] bcast_S_S1x32 (constant (F := Ideal) S_ .f32 0x49800000#32)) := by
    show StableHlo.after hostOps1 (W2 m c) (Proc.devRef .tc main_v13) = _; after_results <;> rfl
  rw [e, hostDivf_apply, broadcastInDim_scalar_apply, constant_apply, hS]; rfl

theorem V3_v17 (S Q : Fin 32 → EReal) (hS : ∀ j, (W2 m c (Proc.devRef .tc main_v11_0) : S1x32.Idx → EReal) (ix2 0 j) = S j)
    (hQ : ∀ j, (W2 m c (Proc.devRef .tc main_v11_1) : S1x32.Idx → EReal) (ix2 0 j) = Q j) (j : Fin 32) :
    (V3 m c main_v17 : S1x32.Idx → EReal) (ix2 0 j) = Cert.Spec.varSq Q S Cert.Spec.cnt1 j := by
  have e : (V3 m c main_v17 : S1x32.Idx → EReal)
      = subf (Host.divf (W2 m c (Proc.devRef .tc main_v11_1) : S1x32.Idx → EReal)
            (broadcastInDim S1x32 ![] bcast_S_S1x32 (constant (F := Ideal) S_ .f32 0x49800000#32)))
          (mulf (Host.divf (W2 m c (Proc.devRef .tc main_v11_0) : S1x32.Idx → EReal)
              (broadcastInDim S1x32 ![] bcast_S_S1x32 (constant (F := Ideal) S_ .f32 0x49800000#32)))
            (Host.divf (W2 m c (Proc.devRef .tc main_v11_0) : S1x32.Idx → EReal)
              (broadcastInDim S1x32 ![] bcast_S_S1x32 (constant (F := Ideal) S_ .f32 0x49800000#32)))) := by
    show StableHlo.after hostOps1 (W2 m c) (Proc.devRef .tc main_v17) = _; after_results <;> rfl
  rw [e, subf_apply, mulf_apply, hostDivf_apply, hostDivf_apply, broadcastInDim_scalar_apply, constant_apply, hS, hQ]; rfl

theorem V5_kept (r : Ref sig .tc) (h2 : r ∉ hostOps2_W) (e0 : r ≠ main_v18_0) (e1 : r ≠ main_v18_1) (e2 : r ≠ main_v18_2) (e3 : r ≠ main_v18_3)
    (h1 : r ∉ hostOps1_W) (ha : r ≠ main_v11_0) (hb : r ≠ main_v11_1) : V5 m c r = V1 m c r :=
  (W5_of m c r h2).trans ((W4_of_ne m c r e0 e1 e2 e3).trans (V3_kept m c r h1 ha hb))

theorem V5_v8 (j : Fin 16) : (V5 m c main_v8 : S1x16.Idx → EReal) (ix2 0 j) = (kP m c).fg j := by
  rw [V5_kept m c main_v8 (by decide) (by decide) (by decide) (by decide) (by decide) (by decide) (by decide) (by decide)]; exact V1_v8 m c j
theorem V5_v9 (j : Fin 16) : (V5 m c main_v9 : S1x16.Idx → EReal) (ix2 0 j) = (kP m c).fbb j := by
  rw [V5_kept m c main_v9 (by decide) (by decide) (by decide) (by decide) (by decide) (by decide) (by decide) (by decide)]; exact V1_v9 m c j
theorem V5_arg13 (d : Fin 64) (j : Fin 16) : (V5 m c main_arg13 : S64x16.Idx → EReal) (ix2 d j) = (kP m c).F2 d j := by
  rw [V5_kept m c main_arg13 (by decide) (by decide) (by decide) (by decide) (by decide) (by decide) (by decide) (by decide)]; exact V1_arg13 m c d j
theorem V5_v10 (d : Fin 64) : (V5 m c main_v10 : S1x64.Idx → EReal) (ix2 0 d) = (kP m c).fb2 d := by
  rw [V5_kept m c main_v10 (by decide) (by decide) (by decide) (by decide) (by decide) (by decide) (by decide) (by decide)]; exact V1_v10 m c d

theorem V5_v18_1 : V5 m c main_v18_1 = (dat1 (V3 m) c).arrAt 16 cfg1.N :=
  (W5_of m c main_v18_1 (by decide)).trans (W4_v18_1 m c)

theorem V5_v20 (S : Fin 16 → EReal) (hS : ∀ j, (W4 m c (Proc.devRef .tc main_v18_2) : S1x16.Idx → EReal) (ix2 0 j) = S j) (j : Fin 16) :
    (V5 m c main_v20 : S1x16.Idx → EReal) (ix2 0 j) = Cert.Spec.mean S Cert.Spec.cnt2 j := by
  have e : (V5 m c main_v20 : S1x16.Idx → EReal)
      = Host.divf (W4 m c (Proc.devRef .tc main_v18_2) : S1x16.Idx → EReal)
          (broadcastInDim S1x16 ![] bcast_S_S1x16 (constant (F := Ideal) S_ .f32 0x45800000#32)) := by
    show StableHlo.after hostOps2 (W4 m c) (Proc.devRef .tc main_v20) = _; after_results <;> rfl
  rw [e, hostDivf_apply, broadcastInDim_scalar_apply, constant_apply, hS]; rfl

theorem V5_v24 (S Q : Fin 16 → EReal) (hS : ∀ j, (W4 m c (Proc.devRef .tc main_v18_2) : S1x16.Idx → EReal) (ix2 0 j) = S j)
    (hQ : ∀ j, (W4 m c (Proc.devRef .tc main_v18_3) : S1x16.Idx → EReal) (ix2 0 j) = Q j) (j : Fin 16) :
    (V5 m c main_v24 : S1x16.Idx → EReal) (ix2 0 j) = Cert.Spec.varSq Q S Cert.Spec.cnt2 j := by
  have e : (V5 m c main_v24 : S1x16.Idx → EReal)
      = subf (Host.divf (W4 m c (Proc.devRef .tc main_v18_3) : S1x16.Idx → EReal)
            (broadcastInDim S1x16 ![] bcast_S_S1x16 (constant (F := Ideal) S_ .f32 0x45800000#32)))
          (mulf (Host.divf (W4 m c (Proc.devRef .tc main_v18_2) : S1x16.Idx → EReal)
              (broadcastInDim S1x16 ![] bcast_S_S1x16 (constant (F := Ideal) S_ .f32 0x45800000#32)))
            (Host.divf (W4 m c (Proc.devRef .tc main_v18_2) : S1x16.Idx → EReal)
              (broadcastInDim S1x16 ![] bcast_S_S1x16 (constant (F := Ideal) S_ .f32 0x45800000#32)))) := by
    show StableHlo.after hostOps2 (W4 m c) (Proc.devRef .tc main_v24) = _; after_results <;> rfl
  rw [e, subf_apply, mulf_apply, hostDivf_apply, hostDivf_apply, broadcastInDim_scalar_apply, constant_apply, hS, hQ]; rfl

theorem W7_v26 (b : Fin 16) (s t : Fin 256) :
    (W7 m c (Proc.devRef .tc main_v26) : S16x65536.Idx → EReal) (ix2 b ⟨256 * s.val + t.val, by have := s.isLt; have := t.isLt; omega⟩)
      = ((dat1 (V3 m) c).arrAt 15 cfg1.N : S16x256x256.Idx → EReal) (ix3 b s t) := by
  have e : (W7 m c (Proc.devRef .tc main_v26) : S16x65536.Idx → EReal)
      = shapeCast S16x65536 (W6 m c (Proc.devRef .tc main_v18_0) : S16x256x256.Idx → EReal) shapeCasts_S16x256x256_S16x65536 := by
    show StableHlo.after hostOps3 (W6 m c) (Proc.devRef .tc main_v26) = _; after_results <;> rfl
  rw [e, W6_of_ne m c main_v18_0 (by decide), W5_of m c main_v18_0 (by decide), W4_v18_0]
  refine shapeCast_apply _ _ _ (ix3 b s t) ?_
  rw [Shape.rowMajor_val_three, Shape.rowMajor_val_two]
  show (b.val * 256 + s.val) * 256 + t.val = b.val * 65536 + (256 * s.val + t.val)
  omega

theorem W7_v25 : W7 m c (Proc.devRef .tc main_v25) = (dat2 (V5 m) c).arrAt 7 cfg2.N :=
  (W7_of m c main_v25 (by decide)).trans (W6_v25 m c)

end Cert.KernelIdeal.Hand

end
-- ==== Proof.KI.Pay1.lean ====
import proofs.«145300_j21964462751805_1_alg».proof.Proof.Gen.KernelIdeal.Skeleton
import proofs.«145300_j21964462751805_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

-- an m × k by k × n product accumulated into zero is, at (a, b), the sum over the contracted coordinate
theorem matmul_plain_zero_apply' {m k n : ℕ} {φ₁ φ₂ : FTy}
    (D : DotDims ⟨2, ![m, k]⟩ ⟨2, ![k, n]⟩ ⟨2, ![m, n]⟩) (hD : ∃ w, D = ⟨[1], [0], [0], [1], [], [], w⟩)
    (prec : Option ContractPrecision) (A : FVec Ideal ⟨2, ![m, k]⟩ φ₁) (B : FVec Ideal ⟨2, ![k, n]⟩ φ₂)
    (a : Fin m) (b : Fin n) :
    matmul D prec A B (constant (F := Ideal) ⟨2, ![m, n]⟩ .f32 0x00000000#32) (ix2 a b)
      = ∑ c : Fin k, A (ix2 a c) * B (ix2 c b) := by
  obtain ⟨w, rfl⟩ := hD
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  refine congrArg₂ (· * ·) (congrArg A (Shape.idx_ext₂ ?_ ?_)) (congrArg B (Shape.idx_ext₂ ?_ ?_))
  · simp [DotDims.lhsIdx]; rfl
  · simp [DotDims.lhsIdx]; exact c2
  · simp [DotDims.rhsIdx]; exact c2
  · simp [DotDims.rhsIdx]; rfl

theorem leaky_select (x : Ideal .f32) :
    Scalar.select (FloatOps.cmpf .oge x (Scalar.ofBits (F := Ideal) .f32 0x00000000#32)) x
        ((Scalar.ofBits (F := Ideal) .f32 0x3C23D70A#32 : Ideal .f32) * x) = Cert.Spec.leaky x := by
  have hs : ∀ b : BitVec (FTy.bits .f32), Scalar.ofBits (F := Ideal) .f32 b = Ideal.ofBits .f32 b := fun _ => rfl
  rw [hs, hs, Ideal.cmpf_def, Ideal.ofBits_zero_f32]
  unfold Cert.Spec.leaky Scalar.select Ideal.cmp
  by_cases h : (0 : EReal) ≤ x <;> simp [h]

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

section Layout
variable {α : Type}

theorem broadcastTo_a1c_abc_apply (v : S64x1x32.Idx → α) (h : S64x1x32.Broadcasts S64x256x32) (p : Fin 64) (q : Fin 256) (s : Fin 32) :
    broadcastTo S64x256x32 v h (ix3 p q s) = v (ix3 p (0 : Fin 1) s) :=
  broadcastTo_apply v h _ _ fun ax => match ax with | ⟨0, _⟩ => rfl | ⟨1, _⟩ => rfl | ⟨2, _⟩ => rfl

theorem broadcastTo_1bc_abc_apply (v : S1x256x32.Idx → α) (h : S1x256x32.Broadcasts S64x256x32) (p : Fin 64) (q : Fin 256) (s : Fin 32) :
    broadcastTo S64x256x32 v h (ix3 p q s) = v (ix3 (0 : Fin 1) q s) :=
  broadcastTo_apply v h _ _ fun ax => match ax with | ⟨0, _⟩ => rfl | ⟨1, _⟩ => rfl | ⟨2, _⟩ => rfl

theorem broadcastTo_11c_abc_apply (v : S1x1x32.Idx → α) (h : S1x1x32.Broadcasts S64x256x32) (p : Fin 64) (q : Fin 256) (s : Fin 32) :
    broadcastTo S64x256x32 v h (ix3 p q s) = v (ix3 (0 : Fin 1) (0 : Fin 1) s) :=
  broadcastTo_apply v h _ _ fun ax => match ax with | ⟨0, _⟩ => rfl | ⟨1, _⟩ => rfl | ⟨2, _⟩ => rfl

theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (s : Fin c) :
    shapeCast ⟨3, ![a, 1, c]⟩ x h (ix3 p u s) = x (ix2 p s) :=
  shapeCast_apply x h _ _ (by
    have hu : u.val = 0 := by omega
    rw [Shape.rowMajor_val_three, Shape.rowMajor_val_two]
    show p.val * c + s.val = (p.val * 1 + u.val) * c + s.val
    rw [hu, Nat.mul_one, Nat.add_zero])

theorem shapeCast_c_11c_apply {c : ℕ} (x : (⟨1, ![c]⟩ : Shape).Idx → α)
    (h : (⟨1, ![c]⟩ : Shape).ShapeCasts ⟨3, ![1, 1, c]⟩) (u u' : Fin 1) (s : Fin c) :
    shapeCast ⟨3, ![1, 1, c]⟩ x h (ix3 u u' s) = x (ix1 s) :=
  shapeCast_apply x h _ _ (by
    have hu : u.val = 0 := by omega
    have hu' : u'.val = 0 := by omega
    rw [Shape.rowMajor_val_three, Shape.rowMajor_val_one]
    show s.val = (u.val * 1 + u'.val) * c + s.val
    simp [hu, hu'])

theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

end Layout

theorem pay5_apply (xs : Vec Ideal S1x64x64 .f32) (xt : Vec Ideal S1x256x64 .f32) (wa wb : Vec Ideal S32x64 .f32)
    (vb1 : Vec Ideal S1x32 .f32)
    (Xs : Fin 64 → Fin 64 → EReal) (Xt : Fin 256 → Fin 64 → EReal) (Wa Wb : Fin 32 → Fin 64 → EReal) (B1 : Fin 32 → EReal)
    (hxs : ∀ r k, xs (ix3 (0 : Fin 1) r k) = Xs r k) (hxt : ∀ t k, xt (ix3 (0 : Fin 1) t k) = Xt t k)
    (hwa : ∀ j k, wa (ix2 j k) = Wa j k) (hwb : ∀ j k, wb (ix2 j k) = Wb j k)
    (hb1 : ∀ j, vb1 (ix2 (0 : Fin 1) j) = B1 j) (r : Fin 64) (t : Fin 256) (j : Fin 32) :
    k1_pay5 xs xt wa wb vb1 (ix3 r t j)
      = (∑ k : Fin 64, Xs r k * Wa j k) + (∑ k : Fin 64, Xt t k * Wb j k) + B1 j := by
  unfold k1_pay5 k1_pay4
  rw [addf_apply, addf_apply, broadcastTo_a1c_abc_apply, broadcastTo_1bc_abc_apply, broadcastTo_11c_abc_apply,
    shapeCast_ac_a1c_apply, shapeCast_ab_1ab_apply, shapeCast_c_11c_apply, shapeCast_1a_a_apply, hb1,
    matmul_plain_zero_apply' dot_S64x64_S64x32_S64x32_1_0_0_1_n_n ⟨_, rfl⟩,
    matmul_plain_zero_apply' dot_S256x64_S64x32_S256x32_1_0_0_1_n_n ⟨_, rfl⟩]
  refine congrArg₂ (· + ·) (congrArg₂ (· + ·) (Finset.sum_congr rfl fun k _ => ?_) (Finset.sum_congr rfl fun k _ => ?_)) rfl
  · rw [truncf_apply, shapeCast_1ab_ab_apply, hxs, transpose_ix2_apply, truncf_apply, shapeCast_self, hwa]
  · rw [truncf_apply, shapeCast_1ab_ab_apply, hxt, transpose_ix2_apply, truncf_apply, shapeCast_self, hwb]

def flat (r : Fin 64) (t : Fin 256) : Fin 16384 := ⟨r.val * 256 + t.val, by omega⟩

theorem shapeCast_edges_flat_apply {α : Type} (x : S64x256x32.Idx → α) (h : S64x256x32.ShapeCasts S16384x32)
    (r : Fin 64) (t : Fin 256) (j : Fin 32) : shapeCast S16384x32 x h (ix2 (flat r t) j) = x (ix3 r t j) :=
  shapeCast_apply x h _ _ (by
    rw [Shape.rowMajor_val_three, Shape.rowMajor_val_two]
    rfl)

theorem pay8_apply (v30 : FVec Ideal S64x256x32 .f32) (v32 v34 : FVec Ideal S32 .f32)
    (vg1 vbe1 : Vec Ideal S1x32 .f32) (w2 : Vec Ideal S32x32 .f32) (vb2 : Vec Ideal S1x32 .f32)
    (H : Fin 64 → Fin 256 → Fin 32 → EReal) (mu sg G1 Be1 : Fin 32 → EReal) (W2 : Fin 32 → Fin 32 → EReal)
    (B2 : Fin 32 → EReal)
    (hv30 : ∀ r t j, v30 (ix3 r t j) = H r t j) (hmu : ∀ j, v32 (ix1 j) = mu j) (hsg : ∀ j, v34 (ix1 j) = sg j)
    (hg1 : ∀ j, vg1 (ix2 (0 : Fin 1) j) = G1 j) (hbe1 : ∀ j, vbe1 (ix2 (0 : Fin 1) j) = Be1 j)
    (hw2 : ∀ j k, w2 (ix2 j k) = W2 j k) (hb2 : ∀ j, vb2 (ix2 (0 : Fin 1) j) = B2 j)
    (r : Fin 64) (t : Fin 256) (j : Fin 32) :
    k1_pay8 v30 v32 v34 (Scalar.ofBits .f32 0x3727C5AC#32) vg1 vbe1 w2 vb2 (ix2 (flat r t) j)
      = Cert.Spec.leaky ((∑ k : Fin 32, Cert.Spec.act (H r t k) (mu k) (sg k) (G1 k) (Be1 k) * W2 j k) + B2 j) := by
  unfold k1_pay8
  simp only [truncf_apply, select_apply, cmpf_apply, broadcast_apply, mulf_apply, addf_apply, leaky_select]
  rw [broadcastTo_1b_ab_apply, shapeCast_a_1a_apply, shapeCast_1a_a_apply, hb2,
    matmul_plain_zero_apply' dot_S16384x32_S32x32_S16384x32_1_0_0_1_n_n ⟨_, rfl⟩]
  refine congrArg Cert.Spec.leaky (congrArg (· + B2 j) (Finset.sum_congr rfl fun k _ => ?_))
  rw [truncf_apply, shapeCast_edges_flat_apply, transpose_ix2_apply, truncf_apply, hw2]
  refine congrArg (· * W2 j k) ?_
  simp only [select_apply, cmpf_apply, broadcast_apply, mulf_apply, addf_apply, subf_apply, leaky_select]
  unfold Cert.Spec.act
  rw [broadcastTo_11c_abc_apply, broadcastTo_11c_abc_apply, broadcastTo_11c_abc_apply, broadcastTo_11c_abc_apply]
  simp only [shapeCast_c_11c_apply, shapeCast_1a_a_apply, rsqrt_apply, addf_apply, broadcast_apply, hv30, hmu, hsg, hg1, hbe1]
  rfl

theorem pay9_apply (w3 : Vec Ideal S2x32 .f32) (k : Fin 32) (u : Fin 2) : k1_pay9 w3 (ix2 k u) = w3 (ix2 u k) := by
  unfold k1_pay9
  rw [transpose_ix2_apply, truncf_apply]

theorem pay10_apply (v75 : FVec Ideal S16384x32 .bf16) (v78 : FVec Ideal S32x2 .bf16) (vb3 : Vec Ideal S1x2 .f32)
    (p : Fin 16384) (u : Fin 2) :
    k1_pay10 v75 v78 (constant S16384x2 .f32 0x00000000#32) vb3 (ix2 p u)
      = (∑ k : Fin 32, v75 (ix2 p k) * v78 (ix2 k u)) + vb3 (ix2 (0 : Fin 1) u) := by
  unfold k1_pay10
  rw [addf_apply, matmul_plain_zero_apply' dot_S16384x32_S32x2_S16384x2_1_0_0_1_n_n ⟨_, rfl⟩, broadcastTo_1b_ab_apply,
    shapeCast_a_1a_apply, shapeCast_1a_a_apply]

section Readout

variable (v6 : FVec Ideal S64x64 .f32) (v75 : FVec Ideal S16384x32 .bf16) (v78 : FVec Ideal S32x2 .bf16)
  (cst : FVec Ideal S16384x2 .f32) (vb3 : Vec Ideal S1x2 .f32) (f1 : Vec Ideal S16x128 .f32) (vfb1 : Vec Ideal S1x16 .f32)

theorem pay11_apply (p : Fin 16384) :
    k1_pay11 v75 v78 cst vb3 (ix1 p) = Ideal.logistic (k1_pay10 v75 v78 cst vb3 (ix2 p (0 : Fin 2))) := by
  unfold k1_pay11
  rw [logistic_apply, shapeCast_a1_a_apply, slice2_axis1_apply 0 _ _ p (0 : Fin 1) (0 : Fin 2) rfl]

theorem regroup_sum_apply (W : FVec Ideal S16384 .f32) (r : Fin 64) (d : Fin 64) :
    multiReduction (F := Ideal) .add [1] S64x64 (shapeCast S64x4x64 W shapeCasts_S16384_S64x4x64) 0x00000000#32
        reduces_S64x4x64_S64x64 (.inl rfl) rfl (ix2 r d)
      = ∑ g : Fin 4, W (ix1 (flat r ⟨64 * g.val + d.val, by omega⟩)) := by
  refine (Ideal.multiReduction_add_single _ 0x00000000#32 reduces_S64x4x64_S64x64 (.inl rfl) rfl (ix2 r d)).trans ?_
  show ∑ g : Fin 4, _ = _
  refine Finset.sum_congr rfl fun g _ => ?_
  exact shapeCast_apply W _ _ _ (by
    rw [Shape.rowMajor_val_one, Shape.rowMajor_val_three]
    show r.val * 256 + (64 * g.val + d.val) = (r.val * 4 + g.val) * 64 + d.val
    omega)

theorem pay13_apply (r : Fin 64) (j : Fin 16) :
    k1_pay13 v6 v75 v78 cst vb3 f1 vfb1 (ix2 r j)
      = (∑ k : Fin 128,
          (if h : k.val < 64 then v6 (ix2 r ⟨k.val, h⟩)
           else ∑ g : Fin 4,
             k1_pay11 v75 v78 cst vb3 (ix1 (flat r ⟨64 * g.val + (k.val - 64), by omega⟩))
               * k1_pay10 v75 v78 cst vb3 (ix2 (flat r ⟨64 * g.val + (k.val - 64), by omega⟩) (1 : Fin 2)))
            * f1 (ix2 j k))
        + vfb1 (ix2 (0 : Fin 1) j) := by
  unfold k1_pay13
  rw [addf_apply, broadcastTo_1b_ab_apply, shapeCast_a_1a_apply, shapeCast_1a_a_apply,
    matmul_plain_zero_apply' dot_S64x128_S128x16_S64x16_1_0_0_1_n_n ⟨_, rfl⟩]
  refine congrArg (· + vfb1 (ix2 (0 : Fin 1) j)) (Finset.sum_congr rfl fun k _ => ?_)
  rw [truncf_apply, transpose_ix2_apply, truncf_apply]
  refine congrArg (· * f1 (ix2 j k)) ?_
  by_cases h : k.val < 64
  · rw [dif_pos h]
    exact concatenate_pair_apply_left (t := S64x128) (s₁ := S64x64) (s₂ := S64x64) (1 : Fin 2) v6 _ concatenates_S64x64_S64x64_S64x128_d1 (ix2 r k) rfl (ix2 r ⟨k.val, h⟩)
      (fun b => match b with | ⟨0, _⟩ => rfl | ⟨1, _⟩ => rfl)
  · rw [dif_neg h]
    have hk := k.isLt
    refine (concatenate_pair_apply_right (t := S64x128) (s₁ := S64x64) (s₂ := S64x64) (1 : Fin 2) v6 _ concatenates_S64x64_S64x64_S64x128_d1 (ix2 r k) rfl rfl
      (ix2 r ⟨k.val - 64, by omega⟩)
      (fun b hb => match b, hb with | ⟨0, _⟩, _ => rfl | ⟨1, _⟩, hb => absurd rfl hb)
      (by show k.val - 64 + 64 = k.val; omega)).trans ?_
    rw [regroup_sum_apply]
    refine Finset.sum_congr rfl fun g _ => ?_
    rw [mulf_apply, shapeCast_a1_a_apply, slice2_axis1_apply 1 _ _ _ (0 : Fin 1) (1 : Fin 2) rfl]

theorem rows_sum_apply (W : FVec Ideal S64x16 .f32) (j : Fin 16) :
    multiReduction (F := Ideal) .add [0] S16 W 0x00000000#32 reduces_S64x16_S16 (.inl rfl) rfl (ix1 j)
      = ∑ r : Fin 64, W (ix2 r j) := by
  refine (Ideal.multiReduction_add_single W 0x00000000#32 reduces_S64x16_S16 (.inl rfl) rfl (ix1 j)).trans ?_
  show ∑ r : Fin 64, _ = _
  refine Finset.sum_congr rfl fun r _ => congrArg W ?_
  funext a
  match a with
  | ⟨0, _⟩ => rfl
  | ⟨1, _⟩ => rfl

end Readout

theorem pay2_apply (i : S1x16.Idx) : k1_pay2 (F := Ideal) i = 0 := Ideal.ofBits_zero_f32
theorem pay3_apply (i : S1x16.Idx) : k1_pay3 (F := Ideal) i = 0 := Ideal.ofBits_zero_f32

def src (si : Fin 4) (r : Fin 64) : Fin 256 := ⟨64 * si.val + r.val, by have := si.isLt; have := r.isLt; omega⟩

structure Loads (P : Cert.Spec.Params) (mu sg : Fin 32 → EReal) (b : Fin 16) (si : Fin 4)
    (x0 : Vec Ideal S1x64x64 .f32) (x1 : Vec Ideal S1x256x64 .f32) (x2 x3 : Vec Ideal S32x64 .f32)
    (x4 x5 x6 x7 x8 : Vec Ideal S1x32 .f32) (x9 : Vec Ideal S32x32 .f32) (x10 : Vec Ideal S1x32 .f32)
    (x11 : Vec Ideal S2x32 .f32) (x12 : Vec Ideal S1x2 .f32) (x13 : Vec Ideal S16x128 .f32)
    (x14 : Vec Ideal S1x16 .f32) : Prop where
  h0 : ∀ r k, x0 (ix3 (0 : Fin 1) r k) = P.X b (src si r) k
  h1 : ∀ t k, x1 (ix3 (0 : Fin 1) t k) = P.X b t k
  h2 : ∀ j k, x2 (ix2 j k) = P.Wa j k
  h3 : ∀ j k, x3 (ix2 j k) = P.Wb j k
  h4 : ∀ j, x4 (ix2 (0 : Fin 1) j) = P.b1 j
  h5 : ∀ j, x5 (ix2 (0 : Fin 1) j) = mu j
  h6 : ∀ j, x6 (ix2 (0 : Fin 1) j) = sg j
  h7 : ∀ j, x7 (ix2 (0 : Fin 1) j) = P.g1 j
  h8 : ∀ j, x8 (ix2 (0 : Fin 1) j) = P.be1 j
  h9 : ∀ j k, x9 (ix2 j k) = P.W2 j k
  h10 : ∀ j, x10 (ix2 (0 : Fin 1) j) = P.b2 j
  h11 : ∀ u k, x11 (ix2 u k) = P.W3 u k
  h12 : ∀ u, x12 (ix2 (0 : Fin 1) u) = P.b3 u
  h13 : ∀ j k, x13 (ix2 j k) = P.F1 j k
  h14 : ∀ j, x14 (ix2 (0 : Fin 1) j) = P.fb1 j

section Tile
variable {P : Cert.Spec.Params} {mu sg : Fin 32 → EReal} {b : Fin 16} {si : Fin 4}
  {x0 : Vec Ideal S1x64x64 .f32} {x1 : Vec Ideal S1x256x64 .f32} {x2 x3 : Vec Ideal S32x64 .f32}
  {x4 x5 x6 x7 x8 : Vec Ideal S1x32 .f32} {x9 : Vec Ideal S32x32 .f32} {x10 : Vec Ideal S1x32 .f32}
  {x11 : Vec Ideal S2x32 .f32} {x12 : Vec Ideal S1x2 .f32} {x13 : Vec Ideal S16x128 .f32} {x14 : Vec Ideal S1x16 .f32}

abbrev hidT (x0 : Vec Ideal S1x64x64 .f32) (x1 : Vec Ideal S1x256x64 .f32) (x2 x3 : Vec Ideal S32x64 .f32)
    (x4 x5 x6 x7 x8 : Vec Ideal S1x32 .f32) (x9 : Vec Ideal S32x32 .f32) (x10 : Vec Ideal S1x32 .f32) :
    FVec Ideal S16384x32 .bf16 :=
  k1_pay8 (k1_pay5 x0 x1 x2 x3 x4) (k1_pay6 x5) (k1_pay7 x6) (Scalar.ofBits .f32 0x3727C5AC#32) x7 x8 x9 x10

abbrev zero34 : FVec Ideal S16384x2 .f32 := constant (F := Ideal) S16384x2 .f32 0x00000000#32

variable (L : Loads P mu sg b si x0 x1 x2 x3 x4 x5 x6 x7 x8 x9 x10 x11 x12 x13 x14)
include L

theorem hid_tile (r : Fin 64) (t : Fin 256) (j : Fin 32) :
    hidT x0 x1 x2 x3 x4 x5 x6 x7 x8 x9 x10 (ix2 (flat r t) j) = P.hid mu sg b (src si r) t j := by
  refine (pay8_apply _ _ _ x7 x8 x9 x10 _ mu sg _ _ _ _ (pay5_apply x0 x1 x2 x3 x4 _ _ _ _ _ L.h0 L.h1 L.h2 L.h3 L.h4)
    (fun j => by unfold k1_pay6; exact (shapeCast_1a_a_apply _ _ _).trans (L.h5 j))
    (fun j => by unfold k1_pay7; exact (shapeCast_1a_a_apply _ _ _).trans (L.h6 j))
    L.h7 L.h8 L.h9 L.h10 r t j).trans ?_
  rfl

theorem out_tile (r : Fin 64) (t : Fin 256) (u : Fin 2) :
    k1_pay10 (hidT x0 x1 x2 x3 x4 x5 x6 x7 x8 x9 x10) (k1_pay9 x11) zero34 x12 (ix2 (flat r t) u)
      = P.out mu sg b (src si r) t u := by
  rw [pay10_apply, L.h12]
  unfold Cert.Spec.Params.out
  refine congrArg (· + P.b3 u) (Finset.sum_congr rfl fun k _ => ?_)
  rw [hid_tile L, pay9_apply, L.h11]

theorem edge_flat (r : Fin 64) (t : Fin 256) :
    k1_pay11 (hidT x0 x1 x2 x3 x4 x5 x6 x7 x8 x9 x10) (k1_pay9 x11) zero34 x12 (ix1 (flat r t))
      = P.edge mu sg b (src si r) t := by
  rw [pay11_apply, out_tile L]
  rfl

theorem edge_tile (u : Fin 1) (r : Fin 64) (t : Fin 256) :
    k1_pay12 (hidT x0 x1 x2 x3 x4 x5 x6 x7 x8 x9 x10) (k1_pay9 x11) zero34 x12 (ix3 u r t)
      = P.edge mu sg b (src si r) t := by
  unfold k1_pay12
  rw [shapeCast_ab_1ab_apply]
  exact (shapeCast_apply _ _ _ _ (by rw [Shape.rowMajor_val_one, Shape.rowMajor_val_two]; rfl)).trans (edge_flat L r t)

theorem pre_tile0 (r : Fin 64) (j : Fin 16) :
    k1_pay13 (k1_pay4 x0) (hidT x0 x1 x2 x3 x4 x5 x6 x7 x8 x9 x10) (k1_pay9 x11) zero34 x12 x13 x14 (ix2 r j)
      = P.pre mu sg b (src si r) j := by
  rw [pay13_apply, L.h14]
  unfold Cert.Spec.Params.pre
  refine congrArg (· + P.fb1 j) (Finset.sum_congr rfl fun k _ => ?_)
  rw [L.h13]
  refine congrArg (· * P.F1 j k) ?_
  unfold Cert.Spec.Params.cat
  by_cases h : k.val < 64
  · rw [dif_pos h, dif_pos h]
    unfold k1_pay4
    exact (shapeCast_1ab_ab_apply _ _ _ _).trans (L.h0 r _)
  · rw [dif_neg h, dif_neg h]
    unfold Cert.Spec.Params.agg Cert.Spec.Params.wgt
    refine Finset.sum_congr rfl fun g _ => ?_
    rw [edge_flat L, out_tile L]

theorem pre_tile (u : Fin 1) (r : Fin 64) (j : Fin 16) :
    k1_pay14 (k1_pay4 x0) (hidT x0 x1 x2 x3 x4 x5 x6 x7 x8 x9 x10) (k1_pay9 x11) zero34 x12 x13 x14 (ix3 u r j)
      = P.pre mu sg b (src si r) j := by
  unfold k1_pay14
  rw [shapeCast_ab_1ab_apply, pre_tile0 L]

theorem sum_tile (acc : Vec Ideal S1x16 .f32) (u : Fin 1) (j : Fin 16) :
    k1_pay16 (k1_pay4 x0) (hidT x0 x1 x2 x3 x4 x5 x6 x7 x8 x9 x10) (k1_pay9 x11) zero34 x12 x13 x14 acc (ix2 u j)
      = acc (ix2 u j) + ∑ r : Fin 64, P.pre mu sg b (src si r) j := by
  unfold k1_pay16
  rw [addf_apply, shapeCast_self, shapeCast_a_1a_apply, rows_sum_apply]
  exact congrArg (acc (ix2 u j) + ·) (Finset.sum_congr rfl fun r _ => pre_tile0 L r j)

theorem sumsq_tile (acc : Vec Ideal S1x16 .f32) (u : Fin 1) (j : Fin 16) :
    k1_pay1 (k1_pay15 (k1_pay4 x0) (hidT x0 x1 x2 x3 x4 x5 x6 x7 x8 x9 x10) (k1_pay9 x11) zero34 x12 x13 x14) acc (ix2 u j)
      = acc (ix2 u j) + ∑ r : Fin 64, P.pre mu sg b (src si r) j * P.pre mu sg b (src si r) j := by
  unfold k1_pay1 k1_pay15
  rw [addf_apply, shapeCast_self, shapeCast_a_1a_apply, rows_sum_apply]
  exact congrArg (acc (ix2 u j) + ·) (Finset.sum_congr rfl fun r _ => congrArg₂ (· * ·) (pre_tile0 L r j) (pre_tile0 L r j))

end Tile

end Cert.KernelIdeal.Hand

end
-- ==== Proof.KI.Val0.lean ====
import proofs.«145300_j21964462751805_1_alg».proof.Proof.KI.Reg0
import proofs.«145300_j21964462751805_1_alg».proof.Proof.KI.Pay1

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.Pipeline (Dat)

theorem hz2_r0 : (![0, 0] : Fin 2 → Nat) = fun _ => 0 := funext fun a => by fin_cases a <;> rfl
theorem hz3_r0 : (![0, 0, 0] : Fin 3 → Nat) = fun _ => 0 := funext fun a => by fin_cases a <;> rfl

-- summed over the 64 source rows, then over the 256 target rows
theorem sum2_apply (W : FVec Ideal S64x256x32 .f32) (j : Fin 32) :
    multiReduction (F := Ideal) .add [0] S32 (multiReduction .add [0] S256x32 W 0x00000000#32 reduces_S64x256x32_S256x32 (.inl rfl) rfl)
        0x00000000#32 reduces_S256x32_S32 (.inl rfl) rfl (ix1 j)
      = ∑ t : Fin 256, ∑ r : Fin 64, W (ix3 r t j) := by
  refine (Ideal.multiReduction_add_single _ _ _ _ _ (ix1 j)).trans (Finset.sum_congr rfl fun t _ => ?_)
  refine (Ideal.multiReduction_add_single _ _ _ _ _ _).trans (Finset.sum_congr rfl fun r _ => congrArg W ?_)
  funext a; apply Fin.ext
  match a with
  | ⟨0, _⟩ => rfl
  | ⟨1, _⟩ => rfl
  | ⟨2, _⟩ => rfl

theorem pay1_r0_apply (v32 : FVec Ideal S32 .f32) (v36 : Vec Ideal S1x32 .f32) (j : Fin 32) :
    k0_pay1 v32 v36 (ix2 (0 : Fin 1) j) = v36 (ix2 (0 : Fin 1) j) + v32 (ix1 j) := by
  unfold k0_pay1
  rw [addf_apply, shapeCast_self, shapeCast_a_1a_apply]

theorem pay3_r0_apply (i : S1x32.Idx) : (k0_pay3 (F := Ideal)) i = 0 := Ideal.ofBits_zero_f32
theorem pay4_apply (i : S1x32.Idx) : (k0_pay4 (F := Ideal)) i = 0 := Ideal.ofBits_zero_f32

section Value

variable (V : (c : Dev nD) → (b : Ref sig .tc) → Buf (Elt Ideal) ((c : Thread nD τ).loc b))

theorem t_lt (t : Fin cfg0.N) : t.val < 64 := lt_of_lt_of_eq t.isLt N_0

-- the first point adds its two sums to the zeros it has just stored
theorem outs_A (c : Dev nD) (t : Fin cfg0.N) (h0 : t.val = 0) :
    outsAt0 V c t.val t.isLt
      = (k0_pay1 (k0_pay6 (iblk0 V c 0 t) (iblk0 V c 1 t) (iblk0 V c 2 t) (iblk0 V c 3 t) (iblk0 V c 4 t)) (k0_pay3 (F := Ideal)),
         k0_pay2 (k0_pay7 (iblk0 V c 0 t) (iblk0 V c 1 t) (iblk0 V c 2 t) (iblk0 V c 3 t) (iblk0 V c 4 t)) (k0_pay4 (F := Ideal))) := by
  rw [outsAt0_A V c t h0]
  unfold out0_A_5 out0_A_6
  rw [View.read_writes_eq_canon _ _ _ (cover0_A_5 _ _ _ _ _ _ _ _ _ _ _ _ _ _ _ _ _ _ _ _ _ _), View.read_writes_eq_canon _ _ _ (cover0_A_6 _ _ _ _ _ _ _ _ _ _ _ _ _ _ _ _ _ _ _ _ _ _)]
  unfold kernelRun0_A
  dsimp only
  sl_unfold_words
  simp only [View.canon_cons_unit_zero (S := S1x32) hz2_r0, View.readCov_unit_zero (S := S1x32) _ hz2_r0, View.readAt_eq_ld,
    (hs0_0 t).read_unread, (hs0_1 t).read_unread, (hs0_2 t).read_unread, (hs0_3 t).read_unread, (hs0_4 t).read_unread, (hs0_5 t).read_unread, (hs0_6 t).read_unread,
    View.ld_unit_zero (S := S1x32) hz2_r0, View.ld_unit_zero (S := S32x64) hz2_r0, View.ld_unit_zero (S := S1x64x64) hz3_r0, View.ld_unit_zero (S := S1x256x64) hz3_r0]

-- a later point adds them to what the point before left
theorem outs_B (c : Dev nD) (t : Fin cfg0.N) (h0 : ¬t.val = 0) :
    outsAt0 V c t.val t.isLt
      = (k0_pay1 (k0_pay6 (iblk0 V c 0 t) (iblk0 V c 1 t) (iblk0 V c 2 t) (iblk0 V c 3 t) (iblk0 V c 4 t)) (outsAt0 V c (t.val - 1) (Nat.lt_of_le_of_lt (Nat.sub_le _ _) t.isLt)).1,
         k0_pay2 (k0_pay7 (iblk0 V c 0 t) (iblk0 V c 1 t) (iblk0 V c 2 t) (iblk0 V c 3 t) (iblk0 V c 4 t)) (outsAt0 V c (t.val - 1) (Nat.lt_of_le_of_lt (Nat.sub_le _ _) t.isLt)).2) := by
  rw [outsAt0_B V c t h0]
  unfold out0_B_5 out0_B_6
  rw [View.read_writes_eq_canon _ _ _ (cover0_B_5 _ _ _ _ _ _ _ _ _ _ _ _ _ _ _ _ _ _ _ _ _ _ _ _), View.read_writes_eq_canon _ _ _ (cover0_B_6 _ _ _ _ _ _ _ _ _ _ _ _ _ _ _ _ _ _ _ _ _ _ _ _)]
  unfold kernelRun0_B
  dsimp only
  sl_unfold_words
  simp only [View.canon_unit_zero (S := S1x32) hz2_r0, View.readAt_eq_ld,
    (hs0_0 t).read_unread, (hs0_1 t).read_unread, (hs0_2 t).read_unread, (hs0_3 t).read_unread, (hs0_4 t).read_unread, (hs0_5 t).read_unread, (hs0_6 t).read_unread,
    View.ld_unit_zero (S := S1x32) hz2_r0, View.ld_unit_zero (S := S32x64) hz2_r0, View.ld_unit_zero (S := S1x64x64) hz3_r0, View.ld_unit_zero (S := S1x256x64) hz3_r0]

-- decided over the grid
theorem idx0 : ∀ t : Fin cfg0.N,
    win0_0.index t 0 = t.val / 4 ∧ win0_0.index t 1 = t.val % 4 ∧ win0_0.index t 2 = 0
    ∧ win0_1.index t 0 = t.val / 4 ∧ win0_1.index t 1 = 0 ∧ win0_1.index t 2 = 0
    ∧ win0_2.index t 0 = 0 ∧ win0_2.index t 1 = 0 ∧ win0_3.index t 0 = 0 ∧ win0_3.index t 1 = 0
    ∧ win0_4.index t 0 = 0 ∧ win0_4.index t 1 = 0 :=
  (by decide +kernel : ∀ t : Fin grid0.N, _)

def addg (g : EReal → EReal) (P : Cert.Spec.Params) (n : ℕ) (j : Fin 32) : EReal :=
  if h : n < 64 then ∑ t : Fin 256, ∑ r : Fin 64, g (P.h1 ⟨n / 4, by omega⟩ ⟨64 * (n % 4) + r.val, by omega⟩ t j) else 0

section Blocks

variable (c : Dev nD) (P : Cert.Spec.Params) (hx : ∀ b n k, (V c main_arg0 : Vec Ideal S16x256x64 .f32) (ix3 b n k) = P.X b n k)
  (hwa : ∀ j k, (V c main_v0 : Vec Ideal S32x64 .f32) (ix2 j k) = P.Wa j k) (hwb : ∀ j k, (V c main_v1 : Vec Ideal S32x64 .f32) (ix2 j k) = P.Wb j k)
  (hb : ∀ j, (V c main_v2 : Vec Ideal S1x32 .f32) (ix2 (0 : Fin 1) j) = P.b1 j)

include hx in
theorem xb0_apply (t : Fin cfg0.N) (r k : Fin 64) :
    (iblk0 V c 0 t : Vec Ideal S1x64x64 .f32) (ix3 (0 : Fin 1) r k)
      = P.X ⟨t.val / 4, by have := t_lt t; omega⟩ ⟨64 * (t.val % 4) + r.val, by omega⟩ k := by
  have e := idx0 t
  show (V c main_arg0 : Vec Ideal S16x256x64 .f32) (((cfg0.win 0).blk t).view.emb (ix3 (0 : Fin 1) r k)) = _
  refine (congrArg (V c main_arg0) (funext fun a => Fin.ext ?_)).trans (hx _ _ k)
  match a with
  | ⟨0, _⟩ => show win0_0.index t 0 * 1 + 1 * 0 = t.val / 4; omega
  | ⟨1, _⟩ => show win0_0.index t 1 * 64 + 1 * r.val = 64 * (t.val % 4) + r.val; omega
  | ⟨2, _⟩ => show win0_0.index t 2 * 64 + 1 * k.val = k.val; omega

include hx in
theorem xb1_apply (t : Fin cfg0.N) (s : Fin 256) (k : Fin 64) :
    (iblk0 V c 1 t : Vec Ideal S1x256x64 .f32) (ix3 (0 : Fin 1) s k) = P.X ⟨t.val / 4, by have := t_lt t; omega⟩ s k := by
  have e := idx0 t
  show (V c main_arg0 : Vec Ideal S16x256x64 .f32) (((cfg0.win 1).blk t).view.emb (ix3 (0 : Fin 1) s k)) = _
  refine (congrArg (V c main_arg0) (funext fun a => Fin.ext ?_)).trans (hx _ s k)
  match a with
  | ⟨0, _⟩ => show win0_1.index t 0 * 1 + 1 * 0 = t.val / 4; omega
  | ⟨1, _⟩ => show win0_1.index t 1 * 256 + 1 * s.val = s.val; omega
  | ⟨2, _⟩ => show win0_1.index t 2 * 64 + 1 * k.val = k.val; omega

include hwa in
theorem xb2_apply (t : Fin cfg0.N) (j : Fin 32) (k : Fin 64) : (iblk0 V c 2 t : Vec Ideal S32x64 .f32) (ix2 j k) = P.Wa j k := by
  have e := idx0 t
  show (V c main_v0 : Vec Ideal S32x64 .f32) (((cfg0.win 2).blk t).view.emb (ix2 j k)) = _
  refine (congrArg (V c main_v0) (funext fun a => Fin.ext ?_)).trans (hwa j k)
  match a with
  | ⟨0, _⟩ => show win0_2.index t 0 * 32 + 1 * j.val = j.val; omega
  | ⟨1, _⟩ => show win0_2.index t 1 * 64 + 1 * k.val = k.val; omega

include hwb in
theorem xb3_apply (t : Fin cfg0.N) (j : Fin 32) (k : Fin 64) : (iblk0 V c 3 t : Vec Ideal S32x64 .f32) (ix2 j k) = P.Wb j k := by
  have e := idx0 t
  show (V c main_v1 : Vec Ideal S32x64 .f32) (((cfg0.win 3).blk t).view.emb (ix2 j k)) = _
  refine (congrArg (V c main_v1) (funext fun a => Fin.ext ?_)).trans (hwb j k)
  match a with
  | ⟨0, _⟩ => show win0_3.index t 0 * 32 + 1 * j.val = j.val; omega
  | ⟨1, _⟩ => show win0_3.index t 1 * 64 + 1 * k.val = k.val; omega

include hb in
theorem xb4_apply (t : Fin cfg0.N) (j : Fin 32) : (iblk0 V c 4 t : Vec Ideal S1x32 .f32) (ix2 (0 : Fin 1) j) = P.b1 j := by
  have e := idx0 t
  show (V c main_v2 : Vec Ideal S1x32 .f32) (((cfg0.win 4).blk t).view.emb (ix2 (0 : Fin 1) j)) = _
  refine (congrArg (V c main_v2) (funext fun a => Fin.ext ?_)).trans (hb j)
  match a with
  | ⟨0, _⟩ => show win0_4.index t 0 * 1 + 1 * 0 = 0; omega
  | ⟨1, _⟩ => show win0_4.index t 1 * 32 + 1 * j.val = j.val; omega

include hx hwa hwb hb in
-- on the blocks of point t the pair (r, t') is the edge (64 (t % 4) + r, t') of graph t / 4
theorem h1_pt (t : Fin cfg0.N) (r : Fin 64) (t' : Fin 256) (j : Fin 32) :
    k0_pay5 (iblk0 V c 0 t) (iblk0 V c 1 t) (iblk0 V c 2 t) (iblk0 V c 3 t) (iblk0 V c 4 t) (ix3 r t' j)
      = P.h1 ⟨t.val / 4, by have := t_lt t; omega⟩ ⟨64 * (t.val % 4) + r.val, by omega⟩ t' j :=
  pay5_apply _ _ _ _ _ _ _ _ _ _ (xb0_apply V c P hx t) (xb1_apply V c P hx t) (xb2_apply V c P hwa t) (xb3_apply V c P hwb t)
    (xb4_apply V c P hb t) r t' j

include hx hwa hwb hb in
theorem pt5 (t : Fin cfg0.N) (j : Fin 32) :
    k0_pay6 (iblk0 V c 0 t) (iblk0 V c 1 t) (iblk0 V c 2 t) (iblk0 V c 3 t) (iblk0 V c 4 t) (ix1 j) = addg (fun x => x) P t.val j := by
  unfold addg
  rw [dif_pos (t_lt t)]
  exact (sum2_apply _ j).trans (Finset.sum_congr rfl fun t' _ => Finset.sum_congr rfl fun r _ => h1_pt V c P hx hwa hwb hb t r t' j)

include hx hwa hwb hb in
theorem pt6 (t : Fin cfg0.N) (j : Fin 32) :
    k0_pay7 (iblk0 V c 0 t) (iblk0 V c 1 t) (iblk0 V c 2 t) (iblk0 V c 3 t) (iblk0 V c 4 t) (ix1 j) = addg (fun x => x * x) P t.val j := by
  unfold addg
  rw [dif_pos (t_lt t)]
  exact (sum2_apply _ j).trans (Finset.sum_congr rfl fun t' _ => Finset.sum_congr rfl fun r _ =>
    congrArg₂ (· * ·) (h1_pt V c P hx hwa hwb hb t r t' j) (h1_pt V c P hx hwa hwb hb t r t' j))

include hx hwa hwb hb in
-- after point n the two accumulators hold the sums of the addends of the points 0 … n
theorem outs_inv : ∀ (n : ℕ) (hn : n < cfg0.N) (j : Fin 32),
      (outsAt0 V c n hn).1 (ix2 (0 : Fin 1) j) = ∑ s ∈ Finset.range (n + 1), addg (fun x => x) P s j
      ∧ (outsAt0 V c n hn).2 (ix2 (0 : Fin 1) j) = ∑ s ∈ Finset.range (n + 1), addg (fun x => x * x) P s j := by
  intro n
  induction n with
  | zero =>
    intro hn j
    rw [outs_A V c ⟨0, hn⟩ rfl, Finset.sum_range_one, Finset.sum_range_one]
    exact ⟨(pay1_r0_apply _ _ j).trans (by rw [pay3_r0_apply, zero_add]; exact pt5 V c P hx hwa hwb hb ⟨0, hn⟩ j),
      (pay1_r0_apply _ _ j).trans (by rw [pay4_apply, zero_add]; exact pt6 V c P hx hwa hwb hb ⟨0, hn⟩ j)⟩
  | succ n ih =>
    intro hn j
    obtain ⟨ih1, ih2⟩ := ih (Nat.lt_of_succ_lt hn) j
    rw [outs_B V c ⟨n + 1, hn⟩ (Nat.succ_ne_zero n), Finset.sum_range_succ _ (n + 1), Finset.sum_range_succ _ (n + 1)]
    exact ⟨(pay1_r0_apply _ _ j).trans (congrArg₂ (· + ·) ih1 (pt5 V c P hx hwa hwb hb ⟨n + 1, hn⟩ j)),
      (pay1_r0_apply _ _ j).trans (congrArg₂ (· + ·) ih2 (pt6 V c P hx hwa hwb hb ⟨n + 1, hn⟩ j))⟩

end Blocks

theorem sum_split {M : Type*} [AddCommMonoid M] (m n : ℕ) (f : Fin (m * n) → M) :
    ∑ i : Fin (m * n), f i = ∑ a : Fin m, ∑ b : Fin n, f (finProdFinEquiv (a, b)) := by
  rw [← Fintype.sum_prod_type (f := fun p : Fin m × Fin n => f (finProdFinEquiv p))]
  exact (Equiv.sum_comp finProdFinEquiv f).symm

theorem h1_congr (P : Cert.Spec.Params) {b b' : Fin 16} {s s' : Fin 256} (hb : b.val = b'.val) (hs : s.val = s'.val) (t : Fin 256) (j : Fin 32) :
    P.h1 b s t j = P.h1 b' s' t j := by
  obtain rfl := Fin.ext hb; obtain rfl := Fin.ext hs; rfl

-- point 4 b + si covers the source rows 64 si … 64 si + 63 of graph b
theorem sum_adds (P : Cert.Spec.Params) (j : Fin 32) (g : EReal → EReal) :
    ∑ s ∈ Finset.range (63 + 1), addg g P s j = ∑ b : Fin 16, ∑ s : Fin 256, ∑ t : Fin 256, g (P.h1 b s t j) := by
  rw [Finset.sum_range]
  refine (sum_split 16 4 (fun i : Fin (16 * 4) => addg g P i.val j)).trans (Finset.sum_congr rfl fun b _ => ?_)
  refine Eq.trans (Finset.sum_congr rfl fun si _ => ?_) (sum_split 4 64 (fun s : Fin (4 * 64) => ∑ t : Fin 256, g (P.h1 b s t j))).symm
  have hlt : (finProdFinEquiv (b, si) : Fin (16 * 4)).val < 64 := (finProdFinEquiv (b, si)).isLt
  unfold addg
  rw [dif_pos hlt, Finset.sum_comm]
  refine Finset.sum_congr rfl fun r _ => Finset.sum_congr rfl fun t _ => congrArg g (h1_congr P ?_ ?_ t j)
  · show (si.val + 4 * b.val) / 4 = b.val
    omega
  · show 64 * ((si.val + 4 * b.val) % 4) + r.val = r.val + 64 * si.val
    omega

def t63 : Fin cfg0.N := ⟨63, by rw [show cfg0.N = 64 from N_0]; decide⟩

theorem flush_t63 (t : Fin cfg0.N) (h : t.val % 64 = 63) : t = t63 := Fin.ext (by have := t_lt t; show t.val = 63; omega)

theorem hz5 : (fun a => win0_5.index t63 a * main_v11_0.ty.shape.size a) = fun _ => 0 := funext fun a => by fin_cases a <;> decide +kernel
theorem hz6 : (fun a => win0_6.index t63 a * main_v11_1.ty.shape.size a) = fun _ => 0 := funext fun a => by fin_cases a <;> decide +kernel

-- the last point's block is the whole array
theorem final5 (c : Dev nD) : (dat0 V c).arrAt 5 cfg0.N = (outsAt0 V c 63 t63.isLt).1 :=
  (dat0 V c).arrAt_eq_of_cover 5 _ (fun t hf => by
    obtain rfl := flush_t63 t ((flush0_5 t).mp hf)
    show (cfg0.win 5).cut (grid0.coords t63) ((dat0 V c).after 5 t63) = _
    rw [after0_5]
    exact (Memref.read_access_unit_zero (Elt Ideal) main_v11_0 hz5 (fun a => by rw [congrFun hz5 a]; simp) _).symm)
    fun i => ⟨t63, (flush0_5 t63).mpr rfl, by
      show i ∈ ((View.whole main_v11_0).slice (win0_5.rect t63)).set
      rw [View.set_slice_whole]
      exact View.mem_set_unit_zero hz5 _ i⟩

theorem final6 (c : Dev nD) : (dat0 V c).arrAt 6 cfg0.N = (outsAt0 V c 63 t63.isLt).2 :=
  (dat0 V c).arrAt_eq_of_cover 6 _ (fun t hf => by
    obtain rfl := flush_t63 t ((flush0_6 t).mp hf)
    show (cfg0.win 6).cut (grid0.coords t63) ((dat0 V c).after 6 t63) = _
    rw [after0_6]
    exact (Memref.read_access_unit_zero (Elt Ideal) main_v11_1 hz6 (fun a => by rw [congrFun hz6 a]; simp) _).symm)
    fun i => ⟨t63, (flush0_6 t63).mpr rfl, by
      show i ∈ ((View.whole main_v11_1).slice (win0_6.rect t63)).set
      rw [View.set_slice_whole]
      exact View.mem_set_unit_zero hz6 _ i⟩

theorem val0 (c : Dev nD) (P : Cert.Spec.Params) (hx : ∀ b n k, (V c main_arg0 : Vec Ideal S16x256x64 .f32) (ix3 b n k) = P.X b n k)
    (hwa : ∀ j k, (V c main_v0 : Vec Ideal S32x64 .f32) (ix2 j k) = P.Wa j k) (hwb : ∀ j k, (V c main_v1 : Vec Ideal S32x64 .f32) (ix2 j k) = P.Wb j k)
    (hb : ∀ j, (V c main_v2 : Vec Ideal S1x32 .f32) (ix2 (0 : Fin 1) j) = P.b1 j) (j : Fin 32) :
    (dat0 V c).arrAt 5 cfg0.N (ix2 (0 : Fin 1) j) = P.sum1 j ∧ (dat0 V c).arrAt 6 cfg0.N (ix2 (0 : Fin 1) j) = P.sumsq1 j := by
  have h := outs_inv V c P hx hwa hwb hb 63 t63.isLt j
  exact ⟨(congrFun (final5 V c) _).trans (h.1.trans (sum_adds P j _)), (congrFun (final6 V c) _).trans (h.2.trans (sum_adds P j _))⟩

end Value

end Cert.KernelIdeal.Hand

end
-- ==== Proof.KI.Val1Loads.lean ====
import proofs.«145300_j21964462751805_1_alg».proof.Proof.KI.Reg1
import proofs.«145300_j21964462751805_1_alg».proof.Proof.KI.Pay1
import proofs.«145300_j21964462751805_1_alg».proof.Proof.Arrays

noncomputable section

namespace Cert.KernelIdeal.Hand

open Cert.KernelIdeal Cert.KernelIdeal.Gen Idealize.ShloMosaic Idealize.ShloMosaic.TcCoe Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section Outs
variable {P : Cert.Spec.Params} {mu sg : Fin 32 → EReal} {b : Fin 16} {si : Fin 4}
  {x0 : Vec Ideal S1x64x64 .f32} {x1 : Vec Ideal S1x256x64 .f32} {x2 x3 : Vec Ideal S32x64 .f32}
  {x4 x5 x6 x7 x8 : Vec Ideal S1x32 .f32} {x9 : Vec Ideal S32x32 .f32} {x10 : Vec Ideal S1x32 .f32}
  {x11 : Vec Ideal S2x32 .f32} {x12 : Vec Ideal S1x2 .f32} {x13 : Vec Ideal S16x128 .f32} {x14 : Vec Ideal S1x16 .f32}

variable (L : Loads P mu sg b si x0 x1 x2 x3 x4 x5 x6 x7 x8 x9 x10 x11 x12 x13 x14)
include L

theorem out1_15_apply (u : Fin 1) (r : Fin 64) (t : Fin 256) :
    out1_15 x0 x1 x2 x3 x4 x5 x6 x7 x8 x9 x10 x11 x12 x13 x14 (ix3 u r t) = P.edge mu sg b (src si r) t := by
  unfold out1_15
  rw [View.canon_unit_zero hz3]
  unfold pay1_15 v1_75 v1_30 v1_32 v1_34 v1_78 c1_18 c1_34
  simp only [View.ld_unit_zero (S := S1x64x64) hz3, View.ld_unit_zero (S := S1x256x64) hz3, View.ld_unit_zero (S := S32x64) hz2,
    View.ld_unit_zero (S := S1x32) hz2, View.ld_unit_zero (S := S32x32) hz2, View.ld_unit_zero (S := S2x32) hz2,
    View.ld_unit_zero (S := S1x2) hz2, View.ld_unit_zero (S := S16x128) hz2, View.ld_unit_zero (S := S1x16) hz2]
  exact edge_tile L u r t

theorem out1_16_apply (u : Fin 1) (r : Fin 64) (j : Fin 16) :
    out1_16 x0 x1 x2 x3 x4 x5 x6 x7 x8 x9 x10 x11 x12 x13 x14 (ix3 u r j) = P.pre mu sg b (src si r) j := by
  unfold out1_16
  rw [View.canon_unit_zero hz3]
  unfold pay1_16 v1_6 v1_75 v1_30 v1_32 v1_34 v1_78 c1_18 c1_34
  simp only [View.ld_unit_zero (S := S1x64x64) hz3, View.ld_unit_zero (S := S1x256x64) hz3, View.ld_unit_zero (S := S32x64) hz2,
    View.ld_unit_zero (S := S1x32) hz2, View.ld_unit_zero (S := S32x32) hz2, View.ld_unit_zero (S := S2x32) hz2,
    View.ld_unit_zero (S := S1x2) hz2, View.ld_unit_zero (S := S16x128) hz2, View.ld_unit_zero (S := S1x16) hz2]
  exact pre_tile L u r j

theorem out1_B_17_apply (xo : Vec Ideal S1x16 .f32) (u : Fin 1) (j : Fin 16) :
    out1_B_17 x0 x1 x2 x3 x4 x5 x6 x7 x8 x9 x10 x11 x12 x13 x14 xo (ix2 u j)
      = xo (ix2 u j) + ∑ r : Fin 64, P.pre mu sg b (src si r) j := by
  unfold out1_B_17
  rw [View.canon_unit_zero hz2]
  unfold pay1_17 v1_6 v1_75 v1_30 v1_32 v1_34 v1_78 c1_18 c1_34
  simp only [View.ld_unit_zero (S := S1x64x64) hz3, View.ld_unit_zero (S := S1x256x64) hz3, View.ld_unit_zero (S := S32x64) hz2,
    View.ld_unit_zero (S := S1x32) hz2, View.ld_unit_zero (S := S32x32) hz2, View.ld_unit_zero (S := S2x32) hz2,
    View.ld_unit_zero (S := S1x2) hz2, View.ld_unit_zero (S := S16x128) hz2, View.ld_unit_zero (S := S1x16) hz2]
  exact sum_tile L xo u j

theorem out1_B_18_apply (xo : Vec Ideal S1x16 .f32) (u : Fin 1) (j : Fin 16) :
    out1_B_18 x0 x1 x2 x3 x4 x5 x6 x7 x8 x9 x10 x11 x12 x13 x14 xo (ix2 u j)
      = xo (ix2 u j) + ∑ r : Fin 64, P.pre mu sg b (src si r) j * P.pre mu sg b (src si r) j := by
  unfold out1_B_18
  rw [View.canon_unit_zero hz2]
  unfold pay1_18 v1_113 v1_6 v1_75 v1_30 v1_32 v1_34 v1_78 c1_18 c1_34
  simp only [View.ld_unit_zero (S := S1x64x64) hz3, View.ld_unit_zero (S := S1x256x64) hz3, View.ld_unit_zero (S := S32x64) hz2,
    View.ld_unit_zero (S := S1x32) hz2, View.ld_unit_zero (S := S32x32) hz2, View.ld_unit_zero (S := S2x32) hz2,
    View.ld_unit_zero (S := S1x2) hz2, View.ld_unit_zero (S := S16x128) hz2, View.ld_unit_zero (S := S1x16) hz2]
  exact sumsq_tile L xo u j

theorem out1_A_17_apply (u : Fin 1) (j : Fin 16) :
    out1_A_17 x0 x1 x2 x3 x4 x5 x6 x7 x8 x9 x10 x11 x12 x13 x14 (ix2 u j)
      = 0 + ∑ r : Fin 64, P.pre mu sg b (src si r) j := by
  unfold out1_A_17
  rw [out1_B_17_apply L, View.canon_unit_zero hz2, pay2_apply]

theorem out1_A_18_apply (u : Fin 1) (j : Fin 16) :
    out1_A_18 x0 x1 x2 x3 x4 x5 x6 x7 x8 x9 x10 x11 x12 x13 x14 (ix2 u j)
      = 0 + ∑ r : Fin 64, P.pre mu sg b (src si r) j * P.pre mu sg b (src si r) j := by
  unfold out1_A_18
  rw [out1_B_18_apply L, View.canon_unit_zero hz2, pay3_apply]

end Outs

theorem idx_facts1 : ∀ t : Fin cfg1.N,
    (win1_0.index t (0 : Fin 3) = t.val / 4 ∧ win1_0.index t (1 : Fin 3) = t.val % 4 ∧ win1_0.index t (2 : Fin 3) = 0)
    ∧ (win1_1.index t (0 : Fin 3) = t.val / 4 ∧ win1_1.index t (1 : Fin 3) = 0 ∧ win1_1.index t (2 : Fin 3) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0)
    ∧ (win1_14.index t (0 : Fin 2) = 0 ∧ win1_14.index t (1 : Fin 2) = 0)
    ∧ (win1_15.index t (0 : Fin 3) = t.val / 4 ∧ win1_15.index t (1 : Fin 3) = t.val % 4 ∧ win1_15.index t (2 : Fin 3) = 0)
    ∧ (win1_16.index t (0 : Fin 3) = t.val / 4 ∧ win1_16.index t (1 : Fin 3) = t.val % 4 ∧ win1_16.index t (2 : Fin 3) = 0)
    ∧ (win1_17.index t (0 : Fin 2) = 0 ∧ win1_17.index t (1 : Fin 2) = 0)
    ∧ (win1_18.index t (0 : Fin 2) = 0 ∧ win1_18.index t (1 : Fin 2) = 0) :=
  (by decide +kernel : ∀ t : Fin grid1.N, _)

def gOf (t : Fin cfg1.N) : Fin 16 := ⟨t.val / 4, by have := t.isLt; have h : cfg1.N = 64 := N_1; omega⟩
def sOf (t : Fin cfg1.N) : Fin 4 := ⟨t.val % 4, by omega⟩

section Blocks
variable (V : (c : Dev nD) → (b : Ref sig .tc) → Buf (Elt Ideal) ((c : Thread nD τ).loc b))

theorem loads1 (c : Dev nD) (P : Cert.Spec.Params) (mu sg : Fin 32 → EReal)
    (hx : ∀ b n k, V c main_arg0 (ix3 b n k) = P.X b n k) (hwa : ∀ j k, V c main_v0 (ix2 j k) = P.Wa j k)
    (hwb : ∀ j k, V c main_v1 (ix2 j k) = P.Wb j k) (hb1 : ∀ j, V c main_v2 (ix2 0 j) = P.b1 j)
    (hmu : ∀ j, V c main_v13 (ix2 0 j) = mu j) (hsg : ∀ j, V c main_v17 (ix2 0 j) = sg j)
    (hg1 : ∀ j, V c main_v3 (ix2 0 j) = P.g1 j) (hbe1 : ∀ j, V c main_v4 (ix2 0 j) = P.be1 j)
    (hW2 : ∀ j k, V c main_arg5 (ix2 j k) = P.W2 j k) (hb2 : ∀ j, V c main_v5 (ix2 0 j) = P.b2 j)
    (hW3 : ∀ u k, V c main_arg7 (ix2 u k) = P.W3 u k) (hb3 : ∀ u, V c main_v6 (ix2 0 u) = P.b3 u)
    (hF1 : ∀ j k, V c main_arg9 (ix2 j k) = P.F1 j k) (hfb1 : ∀ j, V c main_v7 (ix2 0 j) = P.fb1 j)
    (t : Fin cfg1.N) :
    Loads P mu sg (gOf t) (sOf t) (iblk1 V c 0 t) (iblk1 V c 1 t) (iblk1 V c 2 t) (iblk1 V c 3 t) (iblk1 V c 4 t)
      (iblk1 V c 5 t) (iblk1 V c 6 t) (iblk1 V c 7 t) (iblk1 V c 8 t) (iblk1 V c 9 t) (iblk1 V c 10 t) (iblk1 V c 11 t)
      (iblk1 V c 12 t) (iblk1 V c 13 t) (iblk1 V c 14 t) := by
  obtain ⟨e0, e1, e2, e3, e4, e5, e6, e7, e8, e9, e10, e11, e12, e13, e14, -⟩ := idx_facts1 t
  refine ⟨fun r k => ?_, fun n k => ?_, fun p q => ?_, fun p q => ?_, fun q => ?_, fun q => ?_, fun q => ?_, fun q => ?_, fun q => ?_, fun p q => ?_, fun q => ?_, fun p q => ?_, fun q => ?_, fun p q => ?_, fun q => ?_⟩
  · show V c main_arg0 (((cfg1.win 0).blk t).view.emb (ix3 0 r k)) = _
    refine (congrArg (V c main_arg0) (funext fun a => Fin.ext ?_)).trans (hx (gOf t) (src (sOf t) r) k)
    match a with
    | ⟨0, _⟩ => show win1_0.index t (0 : Fin 3) * 1 + 1 * 0 = t.val / 4; omega
    | ⟨1, _⟩ => show win1_0.index t (1 : Fin 3) * 64 + 1 * r.val = 64 * (t.val % 4) + r.val; omega
    | ⟨2, _⟩ => show win1_0.index t (2 : Fin 3) * 64 + 1 * k.val = k.val; omega
  · show V c main_arg0 (((cfg1.win 1).blk t).view.emb (ix3 0 n k)) = _
    refine (congrArg (V c main_arg0) (funext fun a => Fin.ext ?_)).trans (hx (gOf t) n k)
    match a with
    | ⟨0, _⟩ => show win1_1.index t (0 : Fin 3) * 1 + 1 * 0 = t.val / 4; omega
    | ⟨1, _⟩ => show win1_1.index t (1 : Fin 3) * 256 + 1 * n.val = n.val; omega
    | ⟨2, _⟩ => show win1_1.index t (2 : Fin 3) * 64 + 1 * k.val = k.val; omega
  · exact (congrArg (V c main_v0) (funext fun a => Fin.ext (Pipeline.Window.rect_emb_val_of_index_zero win1_2 t a ((Fin.forall_fin_two (p := fun a => win1_2.index t a = 0)).2 e2 a) _))).trans (hwa p q)
  · exact (congrArg (V c main_v1) (funext fun a => Fin.ext (Pipeline.Window.rect_emb_val_of_index_zero win1_3 t a ((Fin.forall_fin_two (p := fun a => win1_3.index t a = 0)).2 e3 a) _))).trans (hwb p q)
  · exact (congrArg (V c main_v2) (funext fun a => Fin.ext (Pipeline.Window.rect_emb_val_of_index_zero win1_4 t a ((Fin.forall_fin_two (p := fun a => win1_4.index t a = 0)).2 e4 a) _))).trans (hb1 q)
  · exact (congrArg (V c main_v13) (funext fun a => Fin.ext (Pipeline.Window.rect_emb_val_of_index_zero win1_5 t a ((Fin.forall_fin_two (p := fun a => win1_5.index t a = 0)).2 e5 a) _))).trans (hmu q)
  · exact (congrArg (V c main_v17) (funext fun a => Fin.ext (Pipeline.Window.rect_emb_val_of_index_zero win1_6 t a ((Fin.forall_fin_two (p := fun a => win1_6.index t a = 0)).2 e6 a) _))).trans (hsg q)
  · exact (congrArg (V c main_v3) (funext fun a => Fin.ext (Pipeline.Window.rect_emb_val_of_index_zero win1_7 t a ((Fin.forall_fin_two (p := fun a => win1_7.index t a = 0)).2 e7 a) _))).trans (hg1 q)
  · exact (congrArg (V c main_v4) (funext fun a => Fin.ext (Pipeline.Window.rect_emb_val_of_index_zero win1_8 t a ((Fin.forall_fin_two (p := fun a => win1_8.index t a = 0)).2 e8 a) _))).trans (hbe1 q)
  · exact (congrArg (V c main_arg5) (funext fun a => Fin.ext (Pipeline.Window.rect_emb_val_of_index_zero win1_9 t a ((Fin.forall_fin_two (p := fun a => win1_9.index t a = 0)).2 e9 a) _))).trans (hW2 p q)
  · exact (congrArg (V c main_v5) (funext fun a => Fin.ext (Pipeline.Window.rect_emb_val_of_index_zero win1_10 t a ((Fin.forall_fin_two (p := fun a => win1_10.index t a = 0)).2 e10 a) _))).trans (hb2 q)
  · exact (congrArg (V c main_arg7) (funext fun a => Fin.ext (Pipeline.Window.rect_emb_val_of_index_zero win1_11 t a ((Fin.forall_fin_two (p := fun a => win1_11.index t a = 0)).2 e11 a) _))).trans (hW3 p q)
  · exact (congrArg (V c main_v6) (funext fun a => Fin.ext (Pipeline.Window.rect_emb_val_of_index_zero win1_12 t a ((Fin.forall_fin_two (p := fun a => win1_12.index t a = 0)).2 e12 a) _))).trans (hb3 q)
  · exact (congrArg (V c main_arg9) (funext fun a => Fin.ext (Pipeline.Window.rect_emb_val_of_index_zero win1_13 t a ((Fin.forall_fin_two (p := fun a => win1_13.index t a = 0)).2 e13 a) _))).trans (hF1 p q)
  · exact (congrArg (V c main_v7) (funext fun a => Fin.ext (Pipeline.Window.rect_emb_val_of_index_zero win1_14 t a ((Fin.forall_fin_two (p := fun a => win1_14.index t a = 0)).2 e14 a) _))).trans (hfb1 q)

end Blocks

end Cert.KernelIdeal.Hand

end
-- ==== Proof.KI.Val1Blocks.lean ====
import proofs.«145300_j21964462751805_1_alg».proof.Proof.KI.Val1Loads
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

section TileOutputs

variable (V : (c : Dev nD) → (b : Ref sig .tc) → Buf (Elt Ideal) ((c : Thread nD τ).loc b))

def GE1 (P : Cert.Spec.Params) (mu sg : Fin 32 → EReal) : S16x256x256.Idx → EReal :=
  fun i => P.edge mu sg (i 0) (i 1) (i 2)

def GP1 (P : Cert.Spec.Params) (mu sg : Fin 32 → EReal) : S16x256x16.Idx → EReal :=
  fun i => P.pre mu sg (i 0) (i 1) (i 2)

theorem emb1_15 (t : Fin cfg1.N) (u : Fin 1) (r : Fin 64) (n : Fin 256) :
    ((cfg1.win 15).blk t).view.emb (ix3 u r n) = (ix3 (gOf t) (src (sOf t) r) n : S16x256x256.Idx) := by
  obtain ⟨-, -, -, -, -, -, -, -, -, -, -, -, -, -, -, ⟨e0, e1, e2⟩, -⟩ := idx_facts1 t
  have hu := u.isLt
  funext a; apply Fin.ext
  match a with
  | ⟨0, _⟩ => show win1_15.index t (0 : Fin 3) * 1 + 1 * u.val = t.val / 4; omega
  | ⟨1, _⟩ => show win1_15.index t (1 : Fin 3) * 64 + 1 * r.val = 64 * (t.val % 4) + r.val; omega
  | ⟨2, _⟩ => show win1_15.index t (2 : Fin 3) * 256 + 1 * n.val = n.val; omega

theorem emb1_16 (t : Fin cfg1.N) (u : Fin 1) (r : Fin 64) (j : Fin 16) :
    ((cfg1.win 16).blk t).view.emb (ix3 u r j) = (ix3 (gOf t) (src (sOf t) r) j : S16x256x16.Idx) := by
  obtain ⟨-, -, -, -, -, -, -, -, -, -, -, -, -, -, -, -, ⟨e0, e1, e2⟩, -⟩ := idx_facts1 t
  have hu := u.isLt
  funext a; apply Fin.ext
  match a with
  | ⟨0, _⟩ => show win1_16.index t (0 : Fin 3) * 1 + 1 * u.val = t.val / 4; omega
  | ⟨1, _⟩ => show win1_16.index t (1 : Fin 3) * 64 + 1 * r.val = 64 * (t.val % 4) + r.val; omega
  | ⟨2, _⟩ => show win1_16.index t (2 : Fin 3) * 16 + 1 * j.val = j.val; omega

section Flushed

variable (c : Dev nD) (P : Cert.Spec.Params) (mu sg : Fin 32 → EReal)
    (hL : ∀ t : Fin cfg1.N, Loads P mu sg (gOf t) (sOf t) (iblk1 V c 0 t) (iblk1 V c 1 t) (iblk1 V c 2 t)
      (iblk1 V c 3 t) (iblk1 V c 4 t) (iblk1 V c 5 t) (iblk1 V c 6 t) (iblk1 V c 7 t) (iblk1 V c 8 t) (iblk1 V c 9 t)
      (iblk1 V c 10 t) (iblk1 V c 11 t) (iblk1 V c 12 t) (iblk1 V c 13 t) (iblk1 V c 14 t))

include hL in

theorem flushed1_15_eq (t : Fin cfg1.N) :
    (dat1 V c).flushed 15 t = ((cfg1.win 15).blk t).view.read (Elt Ideal) (GE1 P mu sg) := by
  show (cfg1.win 15).cut (grid1.coords t) ((dat1 V c).after 15 t) = _
  rw [after1_15]
  funext y
  obtain ⟨u, r, n, rfl⟩ : ∃ (u : Fin 1) (r : Fin 64) (n : Fin 256), y = ix3 u r n := ⟨y 0, y 1, y 2, eq_ix3 y⟩
  show out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (ix3 u r n)
    = GE1 P mu sg (((cfg1.win 15).blk t).view.emb (ix3 u r n))
  rw [out1_15_apply (hL t), emb1_15]
  rfl

include hL in

theorem flushed1_16_eq (t : Fin cfg1.N) :
    (dat1 V c).flushed 16 t = ((cfg1.win 16).blk t).view.read (Elt Ideal) (GP1 P mu sg) := by
  show (cfg1.win 16).cut (grid1.coords t) ((dat1 V c).after 16 t) = _
  rw [after1_16]
  funext y
  obtain ⟨u, r, j, rfl⟩ : ∃ (u : Fin 1) (r : Fin 64) (j : Fin 16), y = ix3 u r j := ⟨y 0, y 1, y 2, eq_ix3 y⟩
  show out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (ix3 u r j)
    = GP1 P mu sg (((cfg1.win 16).blk t).view.emb (ix3 u r j))
  rw [out1_16_apply (hL t), emb1_16]
  rfl

end Flushed

theorem mem_blk1_15 (t : Fin cfg1.N) (i : S16x256x256.Idx) :
    i ∈ ((cfg1.win 15).blk t).view.set ↔ ∀ a : Fin 3, win1_15.index t a * S1x64x256.size a ≤ (i a).val ∧ (i a).val < win1_15.index t a * S1x64x256.size a + S1x64x256.size a := by
  show i ∈ ((View.whole main_v18_0).slice (win1_15.rect t)).set ↔ _
  rw [View.set_slice_whole, Rect.mem_set_unit]
  exact Iff.rfl

theorem mem_blk1_16 (t : Fin cfg1.N) (i : S16x256x16.Idx) :
    i ∈ ((cfg1.win 16).blk t).view.set ↔ ∀ a : Fin 3, win1_16.index t a * S1x64x16.size a ≤ (i a).val ∧ (i a).val < win1_16.index t a * S1x64x16.size a + S1x64x16.size a := by
  show i ∈ ((View.whole main_v18_1).slice (win1_16.rect t)).set ↔ _
  rw [View.set_slice_whole, Rect.mem_set_unit]
  exact Iff.rfl

theorem cover1_15 (i : S16x256x256.Idx) : ∃ t : Fin cfg1.N, (cfg1.win 15).flush t = true ∧ i ∈ ((cfg1.win 15).blk t).view.set := by
  have hi0 : (i 0).val < 16 := (i 0).isLt
  have hi1 : (i 1).val < 256 := (i 1).isLt
  have hi2 : (i 2).val < 256 := (i 2).isLt
  have hN : 4 * (i 0).val + (i 1).val / 64 < cfg1.N := by rw [show cfg1.N = 64 from N_1]; omega
  refine ⟨⟨4 * (i 0).val + (i 1).val / 64, hN⟩, flush1_15 _, ?_⟩
  obtain ⟨-, -, -, -, -, -, -, -, -, -, -, -, -, -, -, ⟨e0, e1, e2⟩, -⟩ := idx_facts1 ⟨4 * (i 0).val + (i 1).val / 64, hN⟩
  have e0' : win1_15.index ⟨4 * (i 0).val + (i 1).val / 64, hN⟩ (0 : Fin 3) = (4 * (i 0).val + (i 1).val / 64) / 4 := e0
  have e1' : win1_15.index ⟨4 * (i 0).val + (i 1).val / 64, hN⟩ (1 : Fin 3) = (4 * (i 0).val + (i 1).val / 64) % 4 := e1
  rw [mem_blk1_15]
  intro a
  match a with
  | ⟨0, _⟩ => show win1_15.index ⟨4 * (i 0).val + (i 1).val / 64, hN⟩ (0 : Fin 3) * 1 ≤ (i 0).val ∧ (i 0).val < win1_15.index ⟨4 * (i 0).val + (i 1).val / 64, hN⟩ (0 : Fin 3) * 1 + 1; omega
  | ⟨1, _⟩ => show win1_15.index ⟨4 * (i 0).val + (i 1).val / 64, hN⟩ (1 : Fin 3) * 64 ≤ (i 1).val ∧ (i 1).val < win1_15.index ⟨4 * (i 0).val + (i 1).val / 64, hN⟩ (1 : Fin 3) * 64 + 64; omega
  | ⟨2, _⟩ => show win1_15.index ⟨4 * (i 0).val + (i 1).val / 64, hN⟩ (2 : Fin 3) * 256 ≤ (i 2).val ∧ (i 2).val < win1_15.index ⟨4 * (i 0).val + (i 1).val / 64, hN⟩ (2 : Fin 3) * 256 + 256; omega

theorem cover1_16 (i : S16x256x16.Idx) : ∃ t : Fin cfg1.N, (cfg1.win 16).flush t = true ∧ i ∈ ((cfg1.win 16).blk t).view.set := by
  have hi0 : (i 0).val < 16 := (i 0).isLt
  have hi1 : (i 1).val < 256 := (i 1).isLt
  have hi2 : (i 2).val < 16 := (i 2).isLt
  have hN : 4 * (i 0).val + (i 1).val / 64 < cfg1.N := by rw [show cfg1.N = 64 from N_1]; omega
  refine ⟨⟨4 * (i 0).val + (i 1).val / 64, hN⟩, flush1_16 _, ?_⟩
  obtain ⟨-, -, -, -, -, -, -, -, -, -, -, -, -, -, -, -, ⟨e0, e1, e2⟩, -⟩ := idx_facts1 ⟨4 * (i 0).val + (i 1).val / 64, hN⟩
  have e0' : win1_16.index ⟨4 * (i 0).val + (i 1).val / 64, hN⟩ (0 : Fin 3) = (4 * (i 0).val + (i 1).val / 64) / 4 := e0
  have e1' : win1_16.index ⟨4 * (i 0).val + (i 1).val / 64, hN⟩ (1 : Fin 3) = (4 * (i 0).val + (i 1).val / 64) % 4 := e1
  rw [mem_blk1_16]
  intro a
  match a with
  | ⟨0, _⟩ => show win1_16.index ⟨4 * (i 0).val + (i 1).val / 64, hN⟩ (0 : Fin 3) * 1 ≤ (i 0).val ∧ (i 0).val < win1_16.index ⟨4 * (i 0).val + (i 1).val / 64, hN⟩ (0 : Fin 3) * 1 + 1; omega
  | ⟨1, _⟩ => show win1_16.index ⟨4 * (i 0).val + (i 1).val / 64, hN⟩ (1 : Fin 3) * 64 ≤ (i 1).val ∧ (i 1).val < win1_16.index ⟨4 * (i 0).val + (i 1).val / 64, hN⟩ (1 : Fin 3) * 64 + 64; omega
  | ⟨2, _⟩ => show win1_16.index ⟨4 * (i 0).val + (i 1).val / 64, hN⟩ (2 : Fin 3) * 16 ≤ (i 2).val ∧ (i 2).val < win1_16.index ⟨4 * (i 0).val + (i 1).val / 64, hN⟩ (2 : Fin 3) * 16 + 16; omega

theorem val1_edges (c : Dev nD) (P : Cert.Spec.Params) (mu sg : Fin 32 → EReal)
    (hL : ∀ t : Fin cfg1.N, Loads P mu sg (gOf t) (sOf t) (iblk1 V c 0 t) (iblk1 V c 1 t) (iblk1 V c 2 t)
      (iblk1 V c 3 t) (iblk1 V c 4 t) (iblk1 V c 5 t) (iblk1 V c 6 t) (iblk1 V c 7 t) (iblk1 V c 8 t) (iblk1 V c 9 t)
      (iblk1 V c 10 t) (iblk1 V c 11 t) (iblk1 V c 12 t) (iblk1 V c 13 t) (iblk1 V c 14 t))
    (b : Fin 16) (s t : Fin 256) :
    (dat1 V c).arrAt 15 cfg1.N (ix3 b s t) = P.edge mu sg b s t := by
  rw [(dat1 V c).arrAt_eq_of_cover 15 (GE1 P mu sg) (fun t _ => flushed1_15_eq V c P mu sg hL t) cover1_15]
  rfl

theorem val1_pre (c : Dev nD) (P : Cert.Spec.Params) (mu sg : Fin 32 → EReal)
    (hL : ∀ t : Fin cfg1.N, Loads P mu sg (gOf t) (sOf t) (iblk1 V c 0 t) (iblk1 V c 1 t) (iblk1 V c 2 t)
      (iblk1 V c 3 t) (iblk1 V c 4 t) (iblk1 V c 5 t) (iblk1 V c 6 t) (iblk1 V c 7 t) (iblk1 V c 8 t) (iblk1 V c 9 t)
      (iblk1 V c 10 t) (iblk1 V c 11 t) (iblk1 V c 12 t) (iblk1 V c 13 t) (iblk1 V c 14 t))
    (b : Fin 16) (s : Fin 256) (j : Fin 16) :
    (dat1 V c).arrAt 16 cfg1.N (ix3 b s j) = P.pre mu sg b s j := by
  rw [(dat1 V c).arrAt_eq_of_cover 16 (GP1 P mu sg) (fun t _ => flushed1_16_eq V c P mu sg hL t) cover1_16]
  rfl

end TileOutputs

end Cert.KernelIdeal.Hand

end
-- ==== Proof.KI.Val1Acc.lean ====
import proofs.«145300_j21964462751805_1_alg».proof.Proof.KI.Val1Loads
import Idealize.ShloMosaic.Lib.Pipeline.Value
import Mathlib.Algebra.BigOperators.Fin
import Mathlib.Logic.Equiv.Fin.Basic

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

def gN (n : ℕ) : Fin 16 := ⟨(n / 4) % 16, Nat.mod_lt _ (by decide)⟩
def sN (n : ℕ) : Fin 4 := ⟨n % 4, Nat.mod_lt _ (by decide)⟩

theorem gOf_eq (t : Fin cfg1.N) : gOf t = gN t.val :=
  Fin.ext (by have := t.isLt; have h : cfg1.N = 64 := N_1; show t.val / 4 = (t.val / 4) % 16; omega)
theorem sOf_eq (t : Fin cfg1.N) : sOf t = sN t.val := rfl

theorem sum_tiles (h : Fin 16 → Fin 256 → EReal) :
    ∑ m ∈ Finset.range 64, ∑ r : Fin 64, h (gN m) (src (sN m) r) = ∑ b : Fin 16, ∑ s : Fin 256, h b s := by
  rw [Finset.sum_range (fun m => ∑ r : Fin 64, h (gN m) (src (sN m) r))]
  rw [← (finProdFinEquiv (m := 16) (n := 4)).sum_comp, Fintype.sum_prod_type]
  refine Finset.sum_congr rfl fun b _ => ?_
  rw [← (finProdFinEquiv (m := 4) (n := 64)).sum_comp, Fintype.sum_prod_type]
  refine Finset.sum_congr rfl fun si _ => Finset.sum_congr rfl fun r _ => ?_
  have hb := b.isLt
  have hsi := si.isLt
  have hr := r.isLt
  have e1 : gN ((finProdFinEquiv (m := 16) (n := 4) (b, si)).val) = b :=
    Fin.ext (by rw [finProdFinEquiv_apply_val]; show ((si.val + 4 * b.val) / 4) % 16 = b.val; omega)
  have e2 : sN ((finProdFinEquiv (m := 16) (n := 4) (b, si)).val) = si :=
    Fin.ext (by rw [finProdFinEquiv_apply_val]; show (si.val + 4 * b.val) % 4 = si.val; omega)
  have e3 : src si r = finProdFinEquiv (m := 4) (n := 64) (si, r) :=
    Fin.ext (by rw [finProdFinEquiv_apply_val]; show 64 * si.val + r.val = r.val + 64 * si.val; omega)
  rw [e1, e2, e3]

section Acc
variable (V : (c : Dev nD) → (b : Ref sig .tc) → Buf (Elt Ideal) ((c : Thread nD τ).loc b))
variable (c : Dev nD) (P : Cert.Spec.Params) (mu sg : Fin 32 → EReal)
variable (hL : ∀ t : Fin cfg1.N, Loads P mu sg (gOf t) (sOf t) (iblk1 V c 0 t) (iblk1 V c 1 t) (iblk1 V c 2 t)
      (iblk1 V c 3 t) (iblk1 V c 4 t) (iblk1 V c 5 t) (iblk1 V c 6 t) (iblk1 V c 7 t) (iblk1 V c 8 t) (iblk1 V c 9 t)
      (iblk1 V c 10 t) (iblk1 V c 11 t) (iblk1 V c 12 t) (iblk1 V c 13 t) (iblk1 V c 14 t))

include hL in
theorem outsAt1_apply :
    ∀ (n : ℕ) (hn : n < cfg1.N) (u : Fin 1) (j : Fin 16),
    (outsAt1 V c n hn).1 (ix2 u j) = ∑ m ∈ Finset.range (n + 1), ∑ r : Fin 64, P.pre mu sg (gN m) (src (sN m) r) j
    ∧ (outsAt1 V c n hn).2 (ix2 u j)
        = ∑ m ∈ Finset.range (n + 1), ∑ r : Fin 64, P.pre mu sg (gN m) (src (sN m) r) j * P.pre mu sg (gN m) (src (sN m) r) j
  | 0, hn, u, j => by
    have hg := gOf_eq ⟨0, hn⟩
    have hs := sOf_eq ⟨0, hn⟩
    have L := hL ⟨0, hn⟩
    rw [hg, hs] at L
    rw [outsAt1_A V c ⟨0, hn⟩ rfl, Finset.sum_range_one, Finset.sum_range_one]
    exact ⟨(out1_A_17_apply L u j).trans (zero_add _), (out1_A_18_apply L u j).trans (zero_add _)⟩
  | n + 1, hn, u, j => by
    have hN : cfg1.N = 64 := N_1
    have hB : ¬(⟨n + 1, hn⟩ : Fin cfg1.N).val % 64 = 0 := by dsimp only; omega
    have ih := outsAt1_apply n (Nat.lt_of_succ_lt hn) u j
    have hg := gOf_eq ⟨n + 1, hn⟩
    have hs := sOf_eq ⟨n + 1, hn⟩
    have L := hL ⟨n + 1, hn⟩
    rw [hg, hs] at L
    rw [outsAt1_B V c ⟨n + 1, hn⟩ hB, Finset.sum_range_succ, Finset.sum_range_succ _ (n + 1)]
    exact ⟨(out1_B_17_apply L _ u j).trans (congrArg (· + _) ih.1), (out1_B_18_apply L _ u j).trans (congrArg (· + _) ih.2)⟩

include hL in
theorem outsAt1_last
    (h63 : 63 < cfg1.N) (u : Fin 1) (j : Fin 16) :
    (outsAt1 V c 63 h63).1 (ix2 u j) = P.sum2 mu sg j ∧ (outsAt1 V c 63 h63).2 (ix2 u j) = P.sumsq2 mu sg j := by
  obtain ⟨e1, e2⟩ := outsAt1_apply V c P mu sg hL 63 h63 u j
  exact ⟨e1.trans (sum_tiles fun b s => P.pre mu sg b s j), e2.trans (sum_tiles fun b s => P.pre mu sg b s j * P.pre mu sg b s j)⟩

end Acc

theorem lt63 : 63 < cfg1.N := Nat.lt_of_lt_of_eq (by decide : 63 < 64) (show 64 = cfg1.N from N_1.symm)

section Final
variable (V : (c : Dev nD) → (b : Ref sig .tc) → Buf (Elt Ideal) ((c : Thread nD τ).loc b))
variable (c : Dev nD) (P : Cert.Spec.Params) (mu sg : Fin 32 → EReal)
variable (hL : ∀ t : Fin cfg1.N, Loads P mu sg (gOf t) (sOf t) (iblk1 V c 0 t) (iblk1 V c 1 t) (iblk1 V c 2 t)
      (iblk1 V c 3 t) (iblk1 V c 4 t) (iblk1 V c 5 t) (iblk1 V c 6 t) (iblk1 V c 7 t) (iblk1 V c 8 t) (iblk1 V c 9 t)
      (iblk1 V c 10 t) (iblk1 V c 11 t) (iblk1 V c 12 t) (iblk1 V c 13 t) (iblk1 V c 14 t))

def G17 (P : Cert.Spec.Params) (mu sg : Fin 32 → EReal) : S1x16.Idx → Elt Ideal .f32 :=
  fun i => P.sum2 mu sg ⟨(i 1).val % 16, Nat.mod_lt _ (by decide)⟩

include hL in
theorem flushed17_eq
    (t : Fin cfg1.N) (hf : (cfg1.win 17).flush t = true) :
    (dat1 V c).flushed 17 t = ((cfg1.win 17).blk t).view.read (Elt Ideal) (G17 P mu sg) := by
  have hN : cfg1.N = 64 := N_1
  have h63 : t.val = 63 := by have := (flush1_17 t).mp hf; have := t.isLt; omega
  obtain rfl : t = ⟨63, lt63⟩ := Fin.ext h63
  obtain ⟨-, -, -, -, -, -, -, -, -, -, -, -, -, -, -, -, -, ⟨e0, e1⟩, -⟩ := idx_facts1 ⟨63, lt63⟩
  show (cfg1.win 17).cut (grid1.coords _) ((dat1 V c).after 17 _) = _
  rw [after1_17]
  funext x
  obtain ⟨u, j, rfl⟩ : ∃ (u : Fin 1) (j : Fin 16), x = ix2 u j := ⟨x 0, x 1, eq_ix2 x⟩
  rw [View.read_apply]
  refine ((outsAt1_last V c P mu sg hL _ u j).1).trans ?_
  show P.sum2 mu sg j = P.sum2 mu sg ⟨(win1_17.index _ (1 : Fin 2) * 16 + 1 * j.val) % 16, _⟩
  congr 1
  apply Fin.ext
  show j.val = (win1_17.index _ (1 : Fin 2) * 16 + 1 * j.val) % 16
  rw [e1]
  have := j.isLt
  omega

theorem mem_blk17 (t : Fin cfg1.N) (i : S1x16.Idx) :
    i ∈ ((cfg1.win 17).blk t).view.set ↔ ∀ a : Fin 2, win1_17.index t a * S1x16.size a ≤ (i a).val ∧ (i a).val < win1_17.index t a * S1x16.size a + S1x16.size a := by
  show i ∈ ((View.whole main_v18_2).slice (win1_17.rect t)).set ↔ _
  rw [View.set_slice_whole, Rect.mem_set_unit]
  exact Iff.rfl

include hL in
theorem final17 :
    (dat1 V c).arrAt 17 cfg1.N = G17 P mu sg :=
  (dat1 V c).arrAt_eq_of_cover 17 (G17 P mu sg) (flushed17_eq V c P mu sg hL) fun i => by
    have hN : cfg1.N = 64 := N_1
    refine ⟨⟨63, lt63⟩, (flush1_17 _).mpr rfl, ?_⟩
    obtain ⟨-, -, -, -, -, -, -, -, -, -, -, -, -, -, -, -, -, ⟨e0, e1⟩, -⟩ := idx_facts1 ⟨63, lt63⟩
    rw [mem_blk17]
    intro a
    have h0 : (i 0).val < 1 := (i 0).isLt
    have h1 : (i 1).val < 16 := (i 1).isLt
    match a with
    | ⟨0, _⟩ =>
      show win1_17.index _ (0 : Fin 2) * 1 ≤ (i 0).val ∧ (i 0).val < win1_17.index _ (0 : Fin 2) * 1 + 1
      rw [e0]; omega
    | ⟨1, _⟩ =>
      show win1_17.index _ (1 : Fin 2) * 16 ≤ (i 1).val ∧ (i 1).val < win1_17.index _ (1 : Fin 2) * 16 + 16
      rw [e1]; omega

include hL in
theorem val1_sum2
    (j : Fin 16) : (dat1 V c).arrAt 17 cfg1.N (ix2 (0 : Fin 1) j) = P.sum2 mu sg j := by
  rw [final17 V c P mu sg hL]
  show P.sum2 mu sg ⟨j.val % 16, _⟩ = _
  congr 1
  exact Fin.ext (Nat.mod_eq_of_lt j.isLt)

def G18 (P : Cert.Spec.Params) (mu sg : Fin 32 → EReal) : S1x16.Idx → Elt Ideal .f32 :=
  fun i => P.sumsq2 mu sg ⟨(i 1).val % 16, Nat.mod_lt _ (by decide)⟩

include hL in
theorem flushed18_eq
    (t : Fin cfg1.N) (hf : (cfg1.win 18).flush t = true) :
    (dat1 V c).flushed 18 t = ((cfg1.win 18).blk t).view.read (Elt Ideal) (G18 P mu sg) := by
  have hN : cfg1.N = 64 := N_1
  have h63 : t.val = 63 := by have := (flush1_18 t).mp hf; have := t.isLt; omega
  obtain rfl : t = ⟨63, lt63⟩ := Fin.ext h63
  obtain ⟨-, -, -, -, -, -, -, -, -, -, -, -, -, -, -, -, -, -, ⟨e0, e1⟩⟩ := idx_facts1 ⟨63, lt63⟩
  show (cfg1.win 18).cut (grid1.coords _) ((dat1 V c).after 18 _) = _
  rw [after1_18]
  funext x
  obtain ⟨u, j, rfl⟩ : ∃ (u : Fin 1) (j : Fin 16), x = ix2 u j := ⟨x 0, x 1, eq_ix2 x⟩
  rw [View.read_apply]
  refine ((outsAt1_last V c P mu sg hL _ u j).2).trans ?_
  show P.sumsq2 mu sg j = P.sumsq2 mu sg ⟨(win1_18.index _ (1 : Fin 2) * 16 + 1 * j.val) % 16, _⟩
  congr 1
  apply Fin.ext
  show j.val = (win1_18.index _ (1 : Fin 2) * 16 + 1 * j.val) % 16
  rw [e1]
  have := j.isLt
  omega

theorem mem_blk18 (t : Fin cfg1.N) (i : S1x16.Idx) :
    i ∈ ((cfg1.win 18).blk t).view.set ↔ ∀ a : Fin 2, win1_18.index t a * S1x16.size a ≤ (i a).val ∧ (i a).val < win1_18.index t a * S1x16.size a + S1x16.size a := by
  show i ∈ ((View.whole main_v18_3).slice (win1_18.rect t)).set ↔ _
  rw [View.set_slice_whole, Rect.mem_set_unit]
  exact Iff.rfl

include hL in
theorem final18 :
    (dat1 V c).arrAt 18 cfg1.N = G18 P mu sg :=
  (dat1 V c).arrAt_eq_of_cover 18 (G18 P mu sg) (flushed18_eq V c P mu sg hL) fun i => by
    have hN : cfg1.N = 64 := N_1
    refine ⟨⟨63, lt63⟩, (flush1_18 _).mpr rfl, ?_⟩
    obtain ⟨-, -, -, -, -, -, -, -, -, -, -, -, -, -, -, -, -, -, ⟨e0, e1⟩⟩ := idx_facts1 ⟨63, lt63⟩
    rw [mem_blk18]
    intro a
    have h0 : (i 0).val < 1 := (i 0).isLt
    have h1 : (i 1).val < 16 := (i 1).isLt
    match a with
    | ⟨0, _⟩ =>
      show win1_18.index _ (0 : Fin 2) * 1 ≤ (i 0).val ∧ (i 0).val < win1_18.index _ (0 : Fin 2) * 1 + 1
      rw [e0]; omega
    | ⟨1, _⟩ =>
      show win1_18.index _ (1 : Fin 2) * 16 ≤ (i 1).val ∧ (i 1).val < win1_18.index _ (1 : Fin 2) * 16 + 16
      rw [e1]; omega

include hL in
theorem val1_sumsq2
    (j : Fin 16) : (dat1 V c).arrAt 18 cfg1.N (ix2 (0 : Fin 1) j) = P.sumsq2 mu sg j := by
  rw [final18 V c P mu sg hL]
  show P.sumsq2 mu sg ⟨j.val % 16, _⟩ = _
  congr 1
  exact Fin.ext (Nat.mod_eq_of_lt j.isLt)

end Final

end Cert.KernelIdeal.Hand

end
-- ==== Proof.KI.Val1.lean ====
import proofs.«145300_j21964462751805_1_alg».proof.Proof.KI.Val1Blocks
import proofs.«145300_j21964462751805_1_alg».proof.Proof.KI.Val1Acc

noncomputable section

namespace Cert.KernelIdeal.Hand

open Cert.KernelIdeal Cert.KernelIdeal.Gen Idealize.ShloMosaic Idealize.ShloMosaic.TcCoe Idealize.ShloMosaic.ValueIdx
open Idealize.ShloMosaic.Pipeline (Dat)

section Region1
variable (V : (c : Dev nD) → (b : Ref sig .tc) → Buf (Elt Ideal) ((c : Thread nD τ).loc b))

theorem val1 (c : Dev nD) (P : Cert.Spec.Params) (mu sg : Fin 32 → EReal)
    (hx : ∀ b n k, V c main_arg0 (ix3 b n k) = P.X b n k) (hwa : ∀ j k, V c main_v0 (ix2 j k) = P.Wa j k)
    (hwb : ∀ j k, V c main_v1 (ix2 j k) = P.Wb j k) (hb1 : ∀ j, V c main_v2 (ix2 0 j) = P.b1 j)
    (hmu : ∀ j, V c main_v13 (ix2 0 j) = mu j) (hsg : ∀ j, V c main_v17 (ix2 0 j) = sg j)
    (hg1 : ∀ j, V c main_v3 (ix2 0 j) = P.g1 j) (hbe1 : ∀ j, V c main_v4 (ix2 0 j) = P.be1 j)
    (hW2 : ∀ j k, V c main_arg5 (ix2 j k) = P.W2 j k) (hb2 : ∀ j, V c main_v5 (ix2 0 j) = P.b2 j)
    (hW3 : ∀ u k, V c main_arg7 (ix2 u k) = P.W3 u k) (hb3 : ∀ u, V c main_v6 (ix2 0 u) = P.b3 u)
    (hF1 : ∀ j k, V c main_arg9 (ix2 j k) = P.F1 j k) (hfb1 : ∀ j, V c main_v7 (ix2 0 j) = P.fb1 j) :
    (∀ b s t, (dat1 V c).arrAt 15 cfg1.N (ix3 b s t) = P.edge mu sg b s t)
    ∧ (∀ b s j, (dat1 V c).arrAt 16 cfg1.N (ix3 b s j) = P.pre mu sg b s j)
    ∧ (∀ j, (dat1 V c).arrAt 17 cfg1.N (ix2 0 j) = P.sum2 mu sg j)
    ∧ (∀ j, (dat1 V c).arrAt 18 cfg1.N (ix2 0 j) = P.sumsq2 mu sg j) :=
  have hL := loads1 V c P mu sg hx hwa hwb hb1 hmu hsg hg1 hbe1 hW2 hb2 hW3 hb3 hF1 hfb1
  ⟨val1_edges V c P mu sg hL, val1_pre V c P mu sg hL, val1_sum2 V c P mu sg hL, val1_sumsq2 V c P mu sg hL⟩

end Region1

end Cert.KernelIdeal.Hand

end
-- ==== Proof.KI.Val2.lean ====
import proofs.«145300_j21964462751805_1_alg».proof.Proof.KI.Reg2
import proofs.«145300_j21964462751805_1_alg».proof.Proof.KI.Pay1

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

theorem proj_pay_apply (v0 : Vec Ideal S1x256x16 .f32) (v2 v4 v9 v11 : Vec Ideal S1x16 .f32) (v31 : Vec Ideal S64x16 .f32) (v35 : Vec Ideal S1x64 .f32) (s : Fin 256) (d : Fin 64) :
    k2_pay1 (F := Ideal) (k2_pay2 v0 v2 v4 v9 v11 v31 v35) (ix3 0 s d)
      = (∑ j : Fin 16, Cert.Spec.act (v0 (ix3 0 s j)) (v2 (ix2 0 j)) (v4 (ix2 0 j)) (v9 (ix2 0 j)) (v11 (ix2 0 j)) * v31 (ix2 d j)) + v35 (ix2 0 d) := by
  unfold k2_pay1 k2_pay2
  rw [shapeCast_ab_1ab_apply, addf_apply, matmul_plain_zero_apply' dot_S256x16_S16x64_S256x64_1_0_0_1_n_n ⟨_, rfl⟩,
    broadcastTo_1b_ab_apply]
  refine congrArg₂ (· + ·) (Finset.sum_congr rfl fun j _ => ?_) (congrFun (shapeCast_shapeCast v35 _ _) _)
  rw [truncf_apply, transpose_ix2_apply, truncf_apply]
  refine congrArg (· * v31 (ix2 d j)) ?_
  simp only [select_apply, cmpf_apply, broadcast_apply, mulf_apply, addf_apply, subf_apply, leaky_select,
    broadcastTo_1b_ab_apply, shapeCast_a_1a_apply, shapeCast_1a_a_apply, shapeCast_1ab_ab_apply, rsqrt_apply]
  rfl

section Value

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

def G2 (P : Cert.Spec.Params) (p : Fin 16 → Fin 256 → Fin 16 → EReal) (mu2 sg2 : Fin 16 → EReal) : S16x256x64.Idx → EReal :=
  fun i => P.proj p mu2 sg2 (i 0) (i 1) (i 2)

-- decided over the 16 points
theorem idx_facts2 : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 3) = t.val ∧ win2_7.index t (1 : Fin 3) = 0 ∧ win2_7.index t (2 : Fin 3) = 0 :=
  (by decide +kernel : ∀ t : Fin grid2.N, _)

theorem point_lt (t : Fin cfg2.N) : t.val < 16 := lt_of_lt_of_eq t.isLt N_2

section Blocks

variable (c : Dev nD) (P : Cert.Spec.Params) (p : Fin 16 → Fin 256 → Fin 16 → EReal) (mu2 sg2 : Fin 16 → EReal)
  (hp : ∀ b s j, V c main_v18_1 (ix3 b s j) = p b s j) (hmu : ∀ j, V c main_v20 (ix2 0 j) = mu2 j)
  (hsg : ∀ j, V c main_v24 (ix2 0 j) = sg2 j) (hg : ∀ j, V c main_v8 (ix2 0 j) = P.fg j)
  (hbb : ∀ j, V c main_v9 (ix2 0 j) = P.fbb j) (hF2 : ∀ d j, V c main_arg13 (ix2 d j) = P.F2 d j)
  (hfb2 : ∀ d, V c main_v10 (ix2 0 d) = P.fb2 d)

include hp in
theorem blk0_apply (t : Fin cfg2.N) (s : Fin 256) (j : Fin 16) : iblk2 V c 0 t (ix3 0 s j) = p ⟨t.val, point_lt t⟩ s j := by
  have e := idx_facts2 t
  show V c main_v18_1 (((cfg2.win 0).blk t).view.emb (ix3 0 s j)) = _
  refine (congrArg (V c main_v18_1) (funext fun a => Fin.ext ?_)).trans (hp _ s j)
  match a with
  | ⟨0, _⟩ => show win2_0.index t (0 : Fin 3) * 1 + 1 * 0 = t.val; omega
  | ⟨1, _⟩ => show win2_0.index t (1 : Fin 3) * 256 + 1 * s.val = s.val; omega
  | ⟨2, _⟩ => show win2_0.index t (2 : Fin 3) * 16 + 1 * j.val = j.val; omega

include hmu in
theorem blk1_apply (t : Fin cfg2.N) (j : Fin 16) : iblk2 V c 1 t (ix2 0 j) = mu2 j := by
  have e := idx_facts2 t
  show V c main_v20 (((cfg2.win 1).blk t).view.emb (ix2 0 j)) = _
  refine (congrArg (V c main_v20) (funext fun a => Fin.ext ?_)).trans (hmu j)
  match a with
  | ⟨0, _⟩ => show win2_1.index t (0 : Fin 2) * 1 + 1 * 0 = 0; omega
  | ⟨1, _⟩ => show win2_1.index t (1 : Fin 2) * 16 + 1 * j.val = j.val; omega

include hsg in
theorem blk2_apply (t : Fin cfg2.N) (j : Fin 16) : iblk2 V c 2 t (ix2 0 j) = sg2 j := by
  have e := idx_facts2 t
  show V c main_v24 (((cfg2.win 2).blk t).view.emb (ix2 0 j)) = _
  refine (congrArg (V c main_v24) (funext fun a => Fin.ext ?_)).trans (hsg j)
  match a with
  | ⟨0, _⟩ => show win2_2.index t (0 : Fin 2) * 1 + 1 * 0 = 0; omega
  | ⟨1, _⟩ => show win2_2.index t (1 : Fin 2) * 16 + 1 * j.val = j.val; omega

include hg in
theorem blk3_apply (t : Fin cfg2.N) (j : Fin 16) : iblk2 V c 3 t (ix2 0 j) = P.fg j := by
  have e := idx_facts2 t
  show V c main_v8 (((cfg2.win 3).blk t).view.emb (ix2 0 j)) = _
  refine (congrArg (V c main_v8) (funext fun a => Fin.ext ?_)).trans (hg j)
  match a with
  | ⟨0, _⟩ => show win2_3.index t (0 : Fin 2) * 1 + 1 * 0 = 0; omega
  | ⟨1, _⟩ => show win2_3.index t (1 : Fin 2) * 16 + 1 * j.val = j.val; omega

include hbb in
theorem blk4_apply (t : Fin cfg2.N) (j : Fin 16) : iblk2 V c 4 t (ix2 0 j) = P.fbb j := by
  have e := idx_facts2 t
  show V c main_v9 (((cfg2.win 4).blk t).view.emb (ix2 0 j)) = _
  refine (congrArg (V c main_v9) (funext fun a => Fin.ext ?_)).trans (hbb j)
  match a with
  | ⟨0, _⟩ => show win2_4.index t (0 : Fin 2) * 1 + 1 * 0 = 0; omega
  | ⟨1, _⟩ => show win2_4.index t (1 : Fin 2) * 16 + 1 * j.val = j.val; omega

include hF2 in
theorem blk5_apply (t : Fin cfg2.N) (d : Fin 64) (j : Fin 16) : iblk2 V c 5 t (ix2 d j) = P.F2 d j := by
  have e := idx_facts2 t
  show V c main_arg13 (((cfg2.win 5).blk t).view.emb (ix2 d j)) = _
  refine (congrArg (V c main_arg13) (funext fun a => Fin.ext ?_)).trans (hF2 d j)
  match a with
  | ⟨0, _⟩ => show win2_5.index t (0 : Fin 2) * 64 + 1 * d.val = d.val; omega
  | ⟨1, _⟩ => show win2_5.index t (1 : Fin 2) * 16 + 1 * j.val = j.val; omega

include hfb2 in
theorem blk6_apply (t : Fin cfg2.N) (d : Fin 64) : iblk2 V c 6 t (ix2 0 d) = P.fb2 d := by
  have e := idx_facts2 t
  show V c main_v10 (((cfg2.win 6).blk t).view.emb (ix2 0 d)) = _
  refine (congrArg (V c main_v10) (funext fun a => Fin.ext ?_)).trans (hfb2 d)
  match a with
  | ⟨0, _⟩ => show win2_6.index t (0 : Fin 2) * 1 + 1 * 0 = 0; omega
  | ⟨1, _⟩ => show win2_6.index t (1 : Fin 2) * 64 + 1 * d.val = d.val; omega

theorem emb7 (t : Fin cfg2.N) (s : Fin 256) (d : Fin 64) :
    ((cfg2.win 7).blk t).view.emb (ix3 0 s d) = (ix3 ⟨t.val, point_lt t⟩ s d : S16x256x64.Idx) := by
  have e := idx_facts2 t
  funext a; apply Fin.ext
  match a with
  | ⟨0, _⟩ => show win2_7.index t (0 : Fin 3) * 1 + 1 * 0 = t.val; omega
  | ⟨1, _⟩ => show win2_7.index t (1 : Fin 3) * 256 + 1 * s.val = s.val; omega
  | ⟨2, _⟩ => show win2_7.index t (2 : Fin 3) * 64 + 1 * d.val = d.val; omega

include hp hmu hsg hg hbb hF2 hfb2 in
theorem flushed2_eq (t : Fin cfg2.N) :
    (dat2 V c).flushed 7 t = ((cfg2.win 7).blk t).view.read (Elt Ideal) (G2 P p mu2 sg2) := by
  show (cfg2.win 7).cut (grid2.coords t) ((dat2 V c).after 7 t) = _
  rw [after2_7]
  unfold out2_7
  rw [View.canon_unit_zero zeros3]
  simp only [View.ld_unit_zero (S := S1x256x16) zeros3, View.ld_unit_zero (S := S1x16) zeros2,
    View.ld_unit_zero (S := S64x16) zeros2, View.ld_unit_zero (S := S1x64) zeros2]
  funext y
  obtain ⟨y0, s, d, rfl⟩ : ∃ (y0 : Fin 1) (s : Fin 256) (d : Fin 64), y = ix3 y0 s d := ⟨y 0, y 1, y 2, eq_ix3 y⟩
  obtain rfl : y0 = 0 := Subsingleton.elim _ _
  show k2_pay1 (F := Ideal) (k2_pay2 (iblk2 V c 0 t) (iblk2 V c 1 t) (iblk2 V c 2 t) (iblk2 V c 3 t) (iblk2 V c 4 t) (iblk2 V c 5 t) (iblk2 V c 6 t)) (ix3 0 s d)
    = G2 P p mu2 sg2 (((cfg2.win 7).blk t).view.emb (ix3 0 s d))
  rw [proj_pay_apply, emb7]
  simp only [blk0_apply V c p hp, blk1_apply V c mu2 hmu, blk2_apply V c sg2 hsg, blk3_apply V c P hg, blk4_apply V c P hbb,
    blk5_apply V c P hF2, blk6_apply V c P hfb2]
  rfl

end Blocks

-- every index lies in the block of its graph's point
theorem cover2 (i : S16x256x64.Idx) : ∃ t : Fin cfg2.N, (cfg2.win 7).flush t = true ∧ i ∈ ((cfg2.win 7).blk t).view.set := by
  have hi0 : (i 0).val < 16 := (i 0).isLt
  have hi1 : (i 1).val < 256 := (i 1).isLt
  have hi2 : (i 2).val < 64 := (i 2).isLt
  have hN : (i 0).val < cfg2.N := lt_of_lt_of_eq hi0 N_2.symm
  refine ⟨⟨(i 0).val, hN⟩, flush2_7 _, ?_⟩
  have e := idx_facts2 ⟨(i 0).val, hN⟩
  simp only [] at e
  show i ∈ ((View.whole main_v25).slice (win2_7.rect ⟨(i 0).val, hN⟩)).set
  rw [View.set_slice_whole, Rect.mem_set_unit]
  intro a
  match a with
  | ⟨0, _⟩ => show win2_7.index ⟨(i 0).val, hN⟩ (0 : Fin 3) * 1 ≤ (i 0).val ∧ (i 0).val < win2_7.index ⟨(i 0).val, hN⟩ (0 : Fin 3) * 1 + 1; omega
  | ⟨1, _⟩ => show win2_7.index ⟨(i 0).val, hN⟩ (1 : Fin 3) * 256 ≤ (i 1).val ∧ (i 1).val < win2_7.index ⟨(i 0).val, hN⟩ (1 : Fin 3) * 256 + 256; omega
  | ⟨2, _⟩ => show win2_7.index ⟨(i 0).val, hN⟩ (2 : Fin 3) * 64 ≤ (i 2).val ∧ (i 2).val < win2_7.index ⟨(i 0).val, hN⟩ (2 : Fin 3) * 64 + 64; omega

theorem val2 (c : Dev nD) (P : Cert.Spec.Params) (p : Fin 16 → Fin 256 → Fin 16 → EReal) (mu2 sg2 : Fin 16 → EReal)
    (hp : ∀ b s j, V c main_v18_1 (ix3 b s j) = p b s j) (hmu : ∀ j, V c main_v20 (ix2 0 j) = mu2 j)
    (hsg : ∀ j, V c main_v24 (ix2 0 j) = sg2 j) (hg : ∀ j, V c main_v8 (ix2 0 j) = P.fg j)
    (hbb : ∀ j, V c main_v9 (ix2 0 j) = P.fbb j) (hF2 : ∀ d j, V c main_arg13 (ix2 d j) = P.F2 d j)
    (hfb2 : ∀ d, V c main_v10 (ix2 0 d) = P.fb2 d) (b : Fin 16) (s : Fin 256) (d : Fin 64) :
    (dat2 V c).arrAt 7 cfg2.N (ix3 b s d) = P.proj p mu2 sg2 b s d := by
  rw [(dat2 V c).arrAt_eq_of_cover 7 (G2 P p mu2 sg2) (fun t _ => flushed2_eq V c P p mu2 sg2 hp hmu hsg hg hbb hF2 hfb2 t) cover2]
  rfl

end Value

end Cert.KernelIdeal.Hand

end
-- ==== Proof.KI.KVal.lean ====
import proofs.«145300_j21964462751805_1_alg».proof.Proof.KI.KVal1
import proofs.«145300_j21964462751805_1_alg».proof.Proof.KI.Val0
import proofs.«145300_j21964462751805_1_alg».proof.Proof.KI.Val1
import proofs.«145300_j21964462751805_1_alg».proof.Proof.KI.Val2

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

theorem kernel_sums1 (j : Fin 32) :
    (W2 m c (Proc.devRef .tc main_v11_0) : S1x32.Idx → EReal) (ix2 0 j) = (kP m c).sum1 j
      ∧ (W2 m c (Proc.devRef .tc main_v11_1) : S1x32.Idx → EReal) (ix2 0 j) = (kP m c).sumsq1 j := by
  rw [W2_v11_0, W2_v11_1]
  exact val0 (V1 m) c (kP m c) (V1_arg0 m c) (V1_v0 m c) (V1_v1 m c) (V1_v2 m c) j

theorem V3_mean1 (j : Fin 32) : (V3 m c main_v13 : S1x32.Idx → EReal) (ix2 0 j) = (kP m c).mean1 j :=
  V3_v13 m c (kP m c).sum1 (fun j => (kernel_sums1 m c j).1) j
theorem V3_var1 (j : Fin 32) : (V3 m c main_v17 : S1x32.Idx → EReal) (ix2 0 j) = (kP m c).var1 j :=
  V3_v17 m c (kP m c).sum1 (kP m c).sumsq1 (fun j => (kernel_sums1 m c j).1) (fun j => (kernel_sums1 m c j).2) j

theorem kernel_region1 :
    (∀ b s t, (dat1 (V3 m) c).arrAt 15 cfg1.N (ix3 b s t) = (kP m c).edge (kP m c).mean1 (kP m c).var1 b s t)
    ∧ (∀ b s j, (dat1 (V3 m) c).arrAt 16 cfg1.N (ix3 b s j) = (kP m c).pre (kP m c).mean1 (kP m c).var1 b s j)
    ∧ (∀ j, (dat1 (V3 m) c).arrAt 17 cfg1.N (ix2 0 j) = (kP m c).sum2 (kP m c).mean1 (kP m c).var1 j)
    ∧ (∀ j, (dat1 (V3 m) c).arrAt 18 cfg1.N (ix2 0 j) = (kP m c).sumsq2 (kP m c).mean1 (kP m c).var1 j) :=
  val1 (V3 m) c (kP m c) (kP m c).mean1 (kP m c).var1 (V3_arg0 m c) (V3_v0 m c) (V3_v1 m c) (V3_v2 m c) (V3_mean1 m c) (V3_var1 m c)
    (V3_v3 m c) (V3_v4 m c) (V3_arg5 m c) (V3_v5 m c) (V3_arg7 m c) (V3_v6 m c) (V3_arg9 m c) (V3_v7 m c)

theorem kernel_edges (b : Fin 16) (s t : Fin 256) :
    (W7 m c (Proc.devRef .tc main_v26) : S16x65536.Idx → EReal) (ix2 b ⟨256 * s.val + t.val, by have := s.isLt; have := t.isLt; omega⟩)
      = (kP m c).edges b s t := by
  rw [W7_v26]; exact (kernel_region1 m c).1 b s t

theorem V5_mean2 (j : Fin 16) : (V5 m c main_v20 : S1x16.Idx → EReal) (ix2 0 j) = (kP m c).mean2 j :=
  V5_v20 m c ((kP m c).sum2 (kP m c).mean1 (kP m c).var1) (fun j => by rw [W4_v18_2]; exact (kernel_region1 m c).2.2.1 j) j
theorem V5_var2 (j : Fin 16) : (V5 m c main_v24 : S1x16.Idx → EReal) (ix2 0 j) = (kP m c).var2 j :=
  V5_v24 m c ((kP m c).sum2 (kP m c).mean1 (kP m c).var1) ((kP m c).sumsq2 (kP m c).mean1 (kP m c).var1)
    (fun j => by rw [W4_v18_2]; exact (kernel_region1 m c).2.2.1 j) (fun j => by rw [W4_v18_3]; exact (kernel_region1 m c).2.2.2 j) j

theorem kernel_pred (b : Fin 16) (s : Fin 256) (d : Fin 64) :
    (W7 m c (Proc.devRef .tc main_v25) : S16x256x64.Idx → EReal) (ix3 b s d) = (kP m c).pred b s d := by
  rw [W7_v25]
  exact val2 (V5 m) c (kP m c) ((kP m c).pre (kP m c).mean1 (kP m c).var1) (kP m c).mean2 (kP m c).var2
    (fun b s j => by rw [V5_v18_1]; exact (kernel_region1 m c).2.1 b s j) (V5_mean2 m c) (V5_var2 m c)
    (V5_v8 m c) (V5_v9 m c) (V5_arg13 m c) (V5_v10 m c) b s d

end Cert.KernelIdeal.Hand

end
-- ==== Proof.Math.Consts.lean ====
import proofs.«145300_j21964462751805_1_alg».proof.Proof.Arrays
import Idealize.ShloMosaic.PureOps.Ideal

noncomputable section

namespace Cert.Spec

open Idealize.ShloMosaic

theorem ofBits_one : Ideal.ofBits .f32 0x3F800000#32 = (1 : EReal) := by
  simp [Ideal.ofBits, Ideal.ieee, -EReal.coe_mul]; norm_num

theorem cnt1_eq : cnt1 = ((1048576 : ℝ) : EReal) := by
  show Ideal.ofBits .f32 0x49800000#32 = _
  simp [Ideal.ofBits, Ideal.ieee, -EReal.coe_mul]; norm_num

theorem cnt2_eq : cnt2 = ((4096 : ℝ) : EReal) := by
  show Ideal.ofBits .f32 0x45800000#32 = _
  simp [Ideal.ofBits, Ideal.ieee, -EReal.coe_mul]; norm_num

theorem eps_pos : ∃ e : ℝ, 0 < e ∧ eps = (e : EReal) := by
  refine ⟨(10995116 : ℝ) * (2 : ℝ) ^ (-40 : ℤ), by positivity, ?_⟩
  show Ideal.ofBits .f32 0x3727C5AC#32 = _
  simp [Ideal.ofBits, Ideal.ieee, -EReal.coe_mul]

theorem slope_real : ∃ r : ℝ, slope = (r : EReal) := by
  refine ⟨(10737418 : ℝ) * (2 : ℝ) ^ (-30 : ℤ), ?_⟩
  show Ideal.ofBits .f32 0x3C23D70A#32 = _
  simp [Ideal.ofBits, Ideal.ieee, -EReal.coe_mul]

end Cert.Spec

end
-- ==== Proof.Math.Real.lean ====
import proofs.«145300_j21964462751805_1_alg».proof.Proof.Math.Consts
import Mathlib.Algebra.BigOperators.Fin
import Mathlib.Algebra.BigOperators.Ring.Finset
import Mathlib.Data.EReal.Operations
import Mathlib.Data.Fintype.BigOperators
import Mathlib.Tactic.Ring
import Mathlib.Tactic.FieldSimp
import Mathlib.Tactic.Positivity

noncomputable section

namespace Cert.Spec

open Idealize.ShloMosaic

theorem h1cat_eq (P : Params) (b : Fin 16) (s t : Fin 256) (j : Fin 32) :
    P.h1cat b s t j = P.h1 b s t j := by
  have hsplit : (∑ k : Fin 128, P.pair b s t k * P.W1 j k)
      = (∑ k : Fin 64, P.X b s k * P.Wa j k) + (∑ k : Fin 64, P.X b t k * P.Wb j k) := by
    refine (Fin.sum_univ_add (a := 64) (b := 64) (fun k => P.pair b s t k * P.W1 j k)).trans ?_
    refine congrArg₂ (· + ·) ?_ ?_
    · refine Finset.sum_congr rfl (fun k _ => ?_)
      have hk : (Fin.castAdd 64 k).val < 64 := k.isLt
      simp only [Params.pair, Params.Wa, dif_pos hk]
      rfl
    · refine Finset.sum_congr rfl (fun k _ => ?_)
      have hk : ¬ (Fin.natAdd 64 k).val < 64 := by
        simp only [Fin.coe_natAdd]; omega
      have hx : ∀ h : (Fin.natAdd 64 k).val - 64 < 64,
          (⟨(Fin.natAdd 64 k).val - 64, h⟩ : Fin 64) = k := by
        intro h; apply Fin.ext; simp only [Fin.coe_natAdd]; omega
      simp only [Params.pair, Params.Wb, dif_neg hk, hx]
      rfl
  unfold Params.h1cat Params.h1
  rw [hsplit]

def IsR (x : EReal) : Prop := ∃ r : ℝ, x = (r : EReal)

theorem isR_coe (r : ℝ) : IsR (r : EReal) := ⟨r, rfl⟩

theorem isR_add {x y : EReal} (hx : IsR x) (hy : IsR y) : IsR (x + y) := by
  obtain ⟨a, rfl⟩ := hx; obtain ⟨b, rfl⟩ := hy; exact ⟨a + b, (EReal.coe_add a b).symm⟩

theorem isR_mul {x y : EReal} (hx : IsR x) (hy : IsR y) : IsR (x * y) := by
  obtain ⟨a, rfl⟩ := hx; obtain ⟨b, rfl⟩ := hy; exact ⟨a * b, (EReal.coe_mul a b).symm⟩

theorem isR_sub {x y : EReal} (hx : IsR x) (hy : IsR y) : IsR (x - y) := by
  obtain ⟨a, rfl⟩ := hx; obtain ⟨b, rfl⟩ := hy; exact ⟨a - b, (EReal.coe_sub a b).symm⟩

theorem coe_sum {ι : Type} (s : Finset ι) (f : ι → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

theorem isR_sum {ι : Type} (s : Finset ι) (f : ι → EReal) (h : ∀ i, IsR (f i)) :
    IsR (∑ i ∈ s, f i) := by
  choose g hg using h
  exact ⟨∑ i ∈ s, g i, by rw [← coe_sum]; exact Finset.sum_congr rfl (fun i _ => hg i)⟩

theorem isR_slope : IsR slope := slope_real

theorem isR_leaky {x : EReal} (hx : IsR x) : IsR (leaky x) := by
  unfold leaky
  split_ifs
  · exact hx
  · exact isR_mul isR_slope hx

theorem isR_rsqrt {x : EReal} (hx : ∃ r : ℝ, 0 < r ∧ x = (r : EReal)) : IsR (Ideal.rsqrt x) := by
  obtain ⟨r, hr, rfl⟩ := hx
  refine ⟨(Real.sqrt r)⁻¹, ?_⟩
  rw [Ideal.rsqrt_coe, if_neg (not_lt.mpr hr.le), if_neg hr.ne']

theorem isR_logistic {x : EReal} (hx : IsR x) : IsR (Ideal.logistic x) := by
  obtain ⟨r, rfl⟩ := hx
  exact ⟨_, Ideal.logistic_coe r⟩

theorem isR_div {x : EReal} (hx : IsR x) {n : ℝ} (hn : n ≠ 0) : IsR (Ideal.div x (n : EReal)) := by
  rw [Ideal.div_coe hn]
  exact isR_mul hx (isR_coe _)

theorem isR_act {h mu sg g be : EReal} (hh : IsR h) (hmu : IsR mu)
    (hsg : ∃ v : ℝ, 0 ≤ v ∧ sg = (v : EReal)) (hg : IsR g) (hbe : IsR be) :
    IsR (act h mu sg g be) := by
  obtain ⟨v, hv, rfl⟩ := hsg
  obtain ⟨e, he, hee⟩ := eps_pos
  unfold act
  refine isR_leaky (isR_add (isR_mul (isR_mul (isR_sub hh hmu) (isR_rsqrt ⟨v + e, by positivity, ?_⟩)) hg) hbe)
  rw [hee, EReal.coe_add]

theorem h1_real (P : Params) (hP : P.IsReal) (b : Fin 16) (s t : Fin 256) (j : Fin 32) :
    ∃ r : ℝ, P.h1 b s t j = (r : EReal) := by
  obtain ⟨hX, hW1, hb1, -⟩ := hP
  unfold Params.h1
  exact isR_add (isR_add (isR_sum _ _ fun k => isR_mul (hX b s k) (hW1 j _))
    (isR_sum _ _ fun k => isR_mul (hX b t k) (hW1 j _))) (hb1 j)

theorem real_var {ι : Type} [Fintype ι] (f : ι → ℝ) (n : ℝ) (hn : (Fintype.card ι : ℝ) = n)
    (hn0 : n ≠ 0) :
    (∑ i, (f i - (∑ i, f i) * (1 / n)) * (f i - (∑ i, f i) * (1 / n))) * (1 / n)
      = (∑ i, f i * f i) * (1 / n) - ((∑ i, f i) * (1 / n)) * ((∑ i, f i) * (1 / n)) := by
  have hexp : ∀ m : ℝ, (∑ i, (f i - m) * (f i - m))
      = (∑ i, f i * f i) - 2 * m * (∑ i, f i) + (Fintype.card ι : ℝ) * (m * m) := by
    intro m
    have hi : ∀ i, (f i - m) * (f i - m) = f i * f i - 2 * m * f i + m * m := fun i => by ring
    simp only [hi, Finset.sum_add_distrib, Finset.sum_sub_distrib, ← Finset.mul_sum,
      Finset.sum_const, Finset.card_univ, nsmul_eq_mul]
    ring
  rw [hexp, hn]
  field_simp
  ring

end Cert.Spec

end
-- ==== Proof.Math.Var.lean ====
import proofs.«145300_j21964462751805_1_alg».proof.Proof.Math.Real
import Mathlib.Algebra.Order.BigOperators.Group.Finset
import Mathlib.Tactic.NormNum

noncomputable section

namespace Cert.Spec

open Idealize.ShloMosaic

theorem dev_eq_sq {ι : Type} [Fintype ι] (x : ι → EReal) (hx : ∀ i, IsR (x i)) (n : ℝ)
    (hn : (Fintype.card ι : ℝ) = n) (hn0 : n ≠ 0) :
    Ideal.div (∑ i, (x i - Ideal.div (∑ i, x i) (n : EReal)) * (x i - Ideal.div (∑ i, x i) (n : EReal))) (n : EReal)
      = Ideal.div (∑ i, x i * x i) (n : EReal)
        - Ideal.div (∑ i, x i) (n : EReal) * Ideal.div (∑ i, x i) (n : EReal) := by
  choose f hf using hx
  simp only [hf, coe_sum, Ideal.div_coe hn0, ← EReal.coe_mul, ← EReal.coe_sub]
  exact congrArg _ (real_var f n hn hn0)

theorem div_sq_nonneg {ι : Type} [Fintype ι] (x : ι → EReal) (hx : ∀ i, IsR (x i)) (n : ℝ)
    (hn0 : 0 < n) : ∃ v : ℝ, 0 ≤ v ∧ Ideal.div (∑ i, x i * x i) (n : EReal) = (v : EReal) := by
  choose f hf using hx
  refine ⟨(∑ i, f i * f i) * (1 / n), mul_nonneg (Finset.sum_nonneg fun i _ => mul_self_nonneg _)
    (by positivity), ?_⟩
  simp only [hf, coe_sum, Ideal.div_coe hn0.ne', ← EReal.coe_mul]

theorem card_edges : (Fintype.card (Fin 16 × Fin 256 × Fin 256) : ℝ) = 1048576 := by
  simp only [Fintype.card_prod, Fintype.card_fin]; norm_num

theorem card_nodes : (Fintype.card (Fin 16 × Fin 256) : ℝ) = 4096 := by
  simp only [Fintype.card_prod, Fintype.card_fin]; norm_num

theorem mean1_real (P : Params) (hP : P.IsReal) (j : Fin 32) : IsR (P.mean1 j) := by
  unfold Params.mean1 mean Params.sum1
  rw [cnt1_eq]
  exact isR_div (isR_sum _ _ fun b => isR_sum _ _ fun s => isR_sum _ _ fun t => h1_real P hP b s t j)
    (by norm_num)

theorem var1_dev (P : Params) (hP : P.IsReal) (j : Fin 32) :
    Ideal.div (∑ b : Fin 16, ∑ s : Fin 256, ∑ t : Fin 256,
      (P.h1 b s t j - P.mean1 j) * (P.h1 b s t j - P.mean1 j)) cnt1 = P.var1 j := by
  have h := dev_eq_sq (fun x : Fin 16 × Fin 256 × Fin 256 => P.h1 x.1 x.2.1 x.2.2 j)
    (fun x => h1_real P hP x.1 x.2.1 x.2.2 j) 1048576 card_edges (by norm_num)
  simp only [Fintype.sum_prod_type] at h
  unfold Params.var1 varSq Params.mean1 mean Params.sum1 Params.sumsq1
  rw [cnt1_eq]
  exact h

theorem var1_nonneg (P : Params) (hP : P.IsReal) (j : Fin 32) :
    ∃ v : ℝ, 0 ≤ v ∧ P.var1 j = (v : EReal) := by
  have h := div_sq_nonneg (fun x : Fin 16 × Fin 256 × Fin 256 => P.h1 x.1 x.2.1 x.2.2 j - P.mean1 j)
    (fun x => isR_sub (h1_real P hP x.1 x.2.1 x.2.2 j) (mean1_real P hP j)) 1048576 (by norm_num)
  simp only [Fintype.sum_prod_type] at h
  rw [← var1_dev P hP j, cnt1_eq]
  exact h

section Network

variable (P : Params) (hP : P.IsReal) (mu sg : Fin 32 → EReal) (hmu : ∀ j, IsR (mu j))
  (hsg : ∀ j, ∃ v : ℝ, 0 ≤ v ∧ sg j = (v : EReal))

include hP hmu hsg

theorem act1_isR (b : Fin 16) (s t : Fin 256) (j : Fin 32) : IsR (P.act1 mu sg b s t j) := by
  have hP' := hP
  obtain ⟨-, -, -, hg1, hbe1, -⟩ := hP'
  unfold Params.act1
  exact isR_act (h1_real P hP b s t j) (hmu j) (hsg j) (hg1 j) (hbe1 j)

theorem hid_isR (b : Fin 16) (s t : Fin 256) (j : Fin 32) : IsR (P.hid mu sg b s t j) := by
  have hP' := hP
  obtain ⟨-, -, -, -, -, hW2, hb2, -⟩ := hP'
  unfold Params.hid
  exact isR_leaky (isR_add (isR_sum _ _ fun k => isR_mul (act1_isR P hP mu sg hmu hsg b s t k) (hW2 j k))
    (hb2 j))

theorem out_isR (b : Fin 16) (s t : Fin 256) (u : Fin 2) : IsR (P.out mu sg b s t u) := by
  have hP' := hP
  obtain ⟨-, -, -, -, -, -, -, hW3, hb3, -⟩ := hP'
  unfold Params.out
  exact isR_add (isR_sum _ _ fun k => isR_mul (hid_isR P hP mu sg hmu hsg b s t k) (hW3 u k)) (hb3 u)

theorem edge_isR (b : Fin 16) (s t : Fin 256) : IsR (P.edge mu sg b s t) := by
  unfold Params.edge
  exact isR_logistic (out_isR P hP mu sg hmu hsg b s t 0)

theorem wgt_isR (b : Fin 16) (s t : Fin 256) : IsR (P.wgt mu sg b s t) := by
  unfold Params.wgt
  exact isR_mul (edge_isR P hP mu sg hmu hsg b s t) (out_isR P hP mu sg hmu hsg b s t 1)

theorem agg_isR (b : Fin 16) (s : Fin 256) (d : Fin 64) : IsR (P.agg mu sg b s d) := by
  unfold Params.agg
  exact isR_sum _ _ fun g => wgt_isR P hP mu sg hmu hsg b s _

theorem cat_isR (b : Fin 16) (s : Fin 256) (k : Fin 128) : IsR (P.cat mu sg b s k) := by
  unfold Params.cat
  split
  · exact hP.1 b s _
  · exact agg_isR P hP mu sg hmu hsg b s _

theorem pre_isR (b : Fin 16) (s : Fin 256) (j : Fin 16) : IsR (P.pre mu sg b s j) := by
  have hP' := hP
  obtain ⟨-, -, -, -, -, -, -, -, -, hF1, hfb1, -⟩ := hP'
  unfold Params.pre
  exact isR_add (isR_sum _ _ fun k => isR_mul (cat_isR P hP mu sg hmu hsg b s k) (hF1 j k)) (hfb1 j)

end Network

theorem pre_real (P : Params) (hP : P.IsReal) (b : Fin 16) (s : Fin 256) (j : Fin 16) :
    ∃ r : ℝ, P.pre P.mean1 P.var1 b s j = (r : EReal) :=
  pre_isR P hP P.mean1 P.var1 (mean1_real P hP) (var1_nonneg P hP) b s j

theorem var2_dev (P : Params) (hP : P.IsReal) (j : Fin 16) :
    Ideal.div (∑ b : Fin 16, ∑ s : Fin 256,
      (P.pre P.mean1 P.var1 b s j - P.mean2 j) * (P.pre P.mean1 P.var1 b s j - P.mean2 j)) cnt2
      = P.var2 j := by
  have h := dev_eq_sq (fun x : Fin 16 × Fin 256 => P.pre P.mean1 P.var1 x.1 x.2 j)
    (fun x => pre_real P hP x.1 x.2 j) 4096 card_nodes (by norm_num)
  simp only [Fintype.sum_prod_type] at h
  unfold Params.var2 varSq Params.mean2 mean Params.sum2 Params.sumsq2
  rw [cnt2_eq]
  exact h

end Cert.Spec

end
-- ==== Proof.Math.lean ====
import proofs.«145300_j21964462751805_1_alg».proof.Proof.Math.Consts
import proofs.«145300_j21964462751805_1_alg».proof.Proof.Math.Real
import proofs.«145300_j21964462751805_1_alg».proof.Proof.Math.Var
-- ==== Proof.Ref.Ops.lean ====
import Idealize.ShloMosaic.Lib.ValueIdx
import Idealize.ShloMosaic.Lib.Pipeline.Value
import Idealize.ShloMosaic.Lib.StableHlo.Predicate
import Idealize.ShloMosaic.PureOps.Ideal.Laws
import proofs.«145300_j21964462751805_1_alg».proof.Proof.Gen.ReferenceIdeal

noncomputable section

open scoped BigOperators

namespace Cert.ReferenceIdeal.Hand

open Idealize.ShloMosaic Idealize.ShloMosaic.ValueIdx
open Cert.ReferenceIdeal Cert.ReferenceIdeal.Facts₀ Cert.ReferenceIdeal.Facts

variable [Facts]

abbrev pairIx (s t : Fin 256) : Fin 65536 := ⟨256 * s.val + t.val, by omega⟩

abbrev rowIx (b : Fin 16) (s t : Fin 256) : Fin 1048576 := ⟨65536 * b.val + 256 * s.val + t.val, by omega⟩

def rowEquiv : Fin 16 × Fin 256 × Fin 256 ≃ Fin 1048576 where
  toFun p := rowIx p.1 p.2.1 p.2.2
  invFun r := (⟨r.val / 65536, by omega⟩, ⟨r.val / 256 % 256, by omega⟩, ⟨r.val % 256, by omega⟩)
  left_inv p := by
    obtain ⟨b, s, t⟩ := p
    refine Prod.ext (Fin.ext ?_) (Prod.ext (Fin.ext ?_) (Fin.ext ?_))
    · show (65536 * b.val + 256 * s.val + t.val) / 65536 = b.val; omega
    · show (65536 * b.val + 256 * s.val + t.val) / 256 % 256 = s.val; omega
    · show (65536 * b.val + 256 * s.val + t.val) % 256 = t.val; omega
  right_inv r := by
    refine Fin.ext ?_
    show 65536 * (r.val / 65536) + 256 * (r.val / 256 % 256) + r.val % 256 = r.val; omega

theorem sum_rows {M : Type*} [AddCommMonoid M] (f : Fin 1048576 → M) :
    ∑ r, f r = ∑ b : Fin 16, ∑ s : Fin 256, ∑ t : Fin 256, f (rowIx b s t) := by
  rw [← Equiv.sum_comp rowEquiv f, Fintype.sum_prod_type]
  refine Finset.sum_congr rfl fun b _ => ?_
  rw [Fintype.sum_prod_type]
  rfl

theorem lhs_dotW1_0 (i : S1048576x32.Idx) (q : dot_S1048576x128_S128x32_S1048576x32_1_0_0_1_n_n.contr.Idx) :
    (dot_S1048576x128_S128x32_S1048576x32_1_0_0_1_n_n.lhsIdx i q 0).val = (i 0).val := by
  unfold DotDims.lhsIdx
  rw [dif_neg (show ¬(0 : Fin S1048576x128.rank) ∈ dot_S1048576x128_S128x32_S1048576x32_1_0_0_1_n_n.lhsBatch by decide), dif_pos (show (0 : Fin S1048576x128.rank) ∈ dot_S1048576x128_S128x32_S1048576x32_1_0_0_1_n_n.lhsNonContracting by decide)]
  rfl
theorem lhs_dotW1_1 (i : S1048576x32.Idx) (q : dot_S1048576x128_S128x32_S1048576x32_1_0_0_1_n_n.contr.Idx) :
    (dot_S1048576x128_S128x32_S1048576x32_1_0_0_1_n_n.lhsIdx i q 1).val = (q ⟨0, by decide⟩).val :=
  dot_S1048576x128_S128x32_S1048576x32_1_0_0_1_n_n.lhsIdx_val_of_single rfl i q
theorem rhs_dotW1_0 (i : S1048576x32.Idx) (q : dot_S1048576x128_S128x32_S1048576x32_1_0_0_1_n_n.contr.Idx) :
    (dot_S1048576x128_S128x32_S1048576x32_1_0_0_1_n_n.rhsIdx i q 0).val = (q ⟨0, by decide⟩).val :=
  dot_S1048576x128_S128x32_S1048576x32_1_0_0_1_n_n.rhsIdx_val_of_single rfl i q
theorem rhs_dotW1_1 (i : S1048576x32.Idx) (q : dot_S1048576x128_S128x32_S1048576x32_1_0_0_1_n_n.contr.Idx) :
    (dot_S1048576x128_S128x32_S1048576x32_1_0_0_1_n_n.rhsIdx i q 1).val = (i 1).val := by
  unfold DotDims.rhsIdx
  rw [dif_neg (show ¬(1 : Fin S128x32.rank) ∈ dot_S1048576x128_S128x32_S1048576x32_1_0_0_1_n_n.rhsBatch by decide), dif_pos (show (1 : Fin S128x32.rank) ∈ dot_S1048576x128_S128x32_S1048576x32_1_0_0_1_n_n.rhsNonContracting by decide)]
  rfl

theorem dotW1_apply (l : FVec Ideal S1048576x128 .f32) (r : FVec Ideal S128x32 .f32) (p : Fin 1048576) (j : Fin 32) :
    Host.dotGeneral (F := Ideal) dot_S1048576x128_S128x32_S1048576x32_1_0_0_1_n_n none l r (ix2 p j) = ∑ k : Fin 128, l (ix2 p k) * r (ix2 k j) := by
  simp only [Host.dotGeneral]
  rw [Ideal.dotGeneral_apply, ← Equiv.sum_comp (ValueIdx.contrEquiv1 dot_S1048576x128_S128x32_S1048576x32_1_0_0_1_n_n 128 rfl rfl).symm]
  refine Finset.sum_congr rfl fun k _ => ?_
  have hk := ValueIdx.contrEquiv1_symm_val dot_S1048576x128_S128x32_S1048576x32_1_0_0_1_n_n 128 rfl rfl k
  have el : dot_S1048576x128_S128x32_S1048576x32_1_0_0_1_n_n.lhsIdx (ix2 p j) ((ValueIdx.contrEquiv1 dot_S1048576x128_S128x32_S1048576x32_1_0_0_1_n_n 128 rfl rfl).symm k) = ix2 p k := funext fun a => Fin.ext (by
    match a with
    | ⟨0, _⟩ => exact lhs_dotW1_0 _ _
    | ⟨1, _⟩ => exact (lhs_dotW1_1 _ _).trans hk)
  have er : dot_S1048576x128_S128x32_S1048576x32_1_0_0_1_n_n.rhsIdx (ix2 p j) ((ValueIdx.contrEquiv1 dot_S1048576x128_S128x32_S1048576x32_1_0_0_1_n_n 128 rfl rfl).symm k) = ix2 k j := funext fun a => Fin.ext (by
    match a with
    | ⟨0, _⟩ => exact (rhs_dotW1_0 _ _).trans hk
    | ⟨1, _⟩ => exact rhs_dotW1_1 _ _)
  rw [el, er]

theorem lhs_dotW2_0 (i : S1048576x32.Idx) (q : dot_S1048576x32_S32x32_S1048576x32_1_0_0_1_n_n.contr.Idx) :
    (dot_S1048576x32_S32x32_S1048576x32_1_0_0_1_n_n.lhsIdx i q 0).val = (i 0).val := by
  unfold DotDims.lhsIdx
  rw [dif_neg (show ¬(0 : Fin S1048576x32.rank) ∈ dot_S1048576x32_S32x32_S1048576x32_1_0_0_1_n_n.lhsBatch by decide), dif_pos (show (0 : Fin S1048576x32.rank) ∈ dot_S1048576x32_S32x32_S1048576x32_1_0_0_1_n_n.lhsNonContracting by decide)]
  rfl
theorem lhs_dotW2_1 (i : S1048576x32.Idx) (q : dot_S1048576x32_S32x32_S1048576x32_1_0_0_1_n_n.contr.Idx) :
    (dot_S1048576x32_S32x32_S1048576x32_1_0_0_1_n_n.lhsIdx i q 1).val = (q ⟨0, by decide⟩).val :=
  dot_S1048576x32_S32x32_S1048576x32_1_0_0_1_n_n.lhsIdx_val_of_single rfl i q
theorem rhs_dotW2_0 (i : S1048576x32.Idx) (q : dot_S1048576x32_S32x32_S1048576x32_1_0_0_1_n_n.contr.Idx) :
    (dot_S1048576x32_S32x32_S1048576x32_1_0_0_1_n_n.rhsIdx i q 0).val = (q ⟨0, by decide⟩).val :=
  dot_S1048576x32_S32x32_S1048576x32_1_0_0_1_n_n.rhsIdx_val_of_single rfl i q
theorem rhs_dotW2_1 (i : S1048576x32.Idx) (q : dot_S1048576x32_S32x32_S1048576x32_1_0_0_1_n_n.contr.Idx) :
    (dot_S1048576x32_S32x32_S1048576x32_1_0_0_1_n_n.rhsIdx i q 1).val = (i 1).val := by
  unfold DotDims.rhsIdx
  rw [dif_neg (show ¬(1 : Fin S32x32.rank) ∈ dot_S1048576x32_S32x32_S1048576x32_1_0_0_1_n_n.rhsBatch by decide), dif_pos (show (1 : Fin S32x32.rank) ∈ dot_S1048576x32_S32x32_S1048576x32_1_0_0_1_n_n.rhsNonContracting by decide)]
  rfl

theorem dotW2_apply (l : FVec Ideal S1048576x32 .f32) (r : FVec Ideal S32x32 .f32) (p : Fin 1048576) (j : Fin 32) :
    Host.dotGeneral (F := Ideal) dot_S1048576x32_S32x32_S1048576x32_1_0_0_1_n_n none l r (ix2 p j) = ∑ k : Fin 32, l (ix2 p k) * r (ix2 k j) := by
  simp only [Host.dotGeneral]
  rw [Ideal.dotGeneral_apply, ← Equiv.sum_comp (ValueIdx.contrEquiv1 dot_S1048576x32_S32x32_S1048576x32_1_0_0_1_n_n 32 rfl rfl).symm]
  refine Finset.sum_congr rfl fun k _ => ?_
  have hk := ValueIdx.contrEquiv1_symm_val dot_S1048576x32_S32x32_S1048576x32_1_0_0_1_n_n 32 rfl rfl k
  have el : dot_S1048576x32_S32x32_S1048576x32_1_0_0_1_n_n.lhsIdx (ix2 p j) ((ValueIdx.contrEquiv1 dot_S1048576x32_S32x32_S1048576x32_1_0_0_1_n_n 32 rfl rfl).symm k) = ix2 p k := funext fun a => Fin.ext (by
    match a with
    | ⟨0, _⟩ => exact lhs_dotW2_0 _ _
    | ⟨1, _⟩ => exact (lhs_dotW2_1 _ _).trans hk)
  have er : dot_S1048576x32_S32x32_S1048576x32_1_0_0_1_n_n.rhsIdx (ix2 p j) ((ValueIdx.contrEquiv1 dot_S1048576x32_S32x32_S1048576x32_1_0_0_1_n_n 32 rfl rfl).symm k) = ix2 k j := funext fun a => Fin.ext (by
    match a with
    | ⟨0, _⟩ => exact (rhs_dotW2_0 _ _).trans hk
    | ⟨1, _⟩ => exact rhs_dotW2_1 _ _)
  rw [el, er]

theorem lhs_dotW3_0 (i : S1048576x2.Idx) (q : dot_S1048576x32_S32x2_S1048576x2_1_0_0_1_n_n.contr.Idx) :
    (dot_S1048576x32_S32x2_S1048576x2_1_0_0_1_n_n.lhsIdx i q 0).val = (i 0).val := by
  unfold DotDims.lhsIdx
  rw [dif_neg (show ¬(0 : Fin S1048576x32.rank) ∈ dot_S1048576x32_S32x2_S1048576x2_1_0_0_1_n_n.lhsBatch by decide), dif_pos (show (0 : Fin S1048576x32.rank) ∈ dot_S1048576x32_S32x2_S1048576x2_1_0_0_1_n_n.lhsNonContracting by decide)]
  rfl
theorem lhs_dotW3_1 (i : S1048576x2.Idx) (q : dot_S1048576x32_S32x2_S1048576x2_1_0_0_1_n_n.contr.Idx) :
    (dot_S1048576x32_S32x2_S1048576x2_1_0_0_1_n_n.lhsIdx i q 1).val = (q ⟨0, by decide⟩).val :=
  dot_S1048576x32_S32x2_S1048576x2_1_0_0_1_n_n.lhsIdx_val_of_single rfl i q
theorem rhs_dotW3_0 (i : S1048576x2.Idx) (q : dot_S1048576x32_S32x2_S1048576x2_1_0_0_1_n_n.contr.Idx) :
    (dot_S1048576x32_S32x2_S1048576x2_1_0_0_1_n_n.rhsIdx i q 0).val = (q ⟨0, by decide⟩).val :=
  dot_S1048576x32_S32x2_S1048576x2_1_0_0_1_n_n.rhsIdx_val_of_single rfl i q
theorem rhs_dotW3_1 (i : S1048576x2.Idx) (q : dot_S1048576x32_S32x2_S1048576x2_1_0_0_1_n_n.contr.Idx) :
    (dot_S1048576x32_S32x2_S1048576x2_1_0_0_1_n_n.rhsIdx i q 1).val = (i 1).val := by
  unfold DotDims.rhsIdx
  rw [dif_neg (show ¬(1 : Fin S32x2.rank) ∈ dot_S1048576x32_S32x2_S1048576x2_1_0_0_1_n_n.rhsBatch by decide), dif_pos (show (1 : Fin S32x2.rank) ∈ dot_S1048576x32_S32x2_S1048576x2_1_0_0_1_n_n.rhsNonContracting by decide)]
  rfl

theorem dotW3_apply (l : FVec Ideal S1048576x32 .f32) (r : FVec Ideal S32x2 .f32) (p : Fin 1048576) (j : Fin 2) :
    Host.dotGeneral (F := Ideal) dot_S1048576x32_S32x2_S1048576x2_1_0_0_1_n_n none l r (ix2 p j) = ∑ k : Fin 32, l (ix2 p k) * r (ix2 k j) := by
  simp only [Host.dotGeneral]
  rw [Ideal.dotGeneral_apply, ← Equiv.sum_comp (ValueIdx.contrEquiv1 dot_S1048576x32_S32x2_S1048576x2_1_0_0_1_n_n 32 rfl rfl).symm]
  refine Finset.sum_congr rfl fun k _ => ?_
  have hk := ValueIdx.contrEquiv1_symm_val dot_S1048576x32_S32x2_S1048576x2_1_0_0_1_n_n 32 rfl rfl k
  have el : dot_S1048576x32_S32x2_S1048576x2_1_0_0_1_n_n.lhsIdx (ix2 p j) ((ValueIdx.contrEquiv1 dot_S1048576x32_S32x2_S1048576x2_1_0_0_1_n_n 32 rfl rfl).symm k) = ix2 p k := funext fun a => Fin.ext (by
    match a with
    | ⟨0, _⟩ => exact lhs_dotW3_0 _ _
    | ⟨1, _⟩ => exact (lhs_dotW3_1 _ _).trans hk)
  have er : dot_S1048576x32_S32x2_S1048576x2_1_0_0_1_n_n.rhsIdx (ix2 p j) ((ValueIdx.contrEquiv1 dot_S1048576x32_S32x2_S1048576x2_1_0_0_1_n_n 32 rfl rfl).symm k) = ix2 k j := funext fun a => Fin.ext (by
    match a with
    | ⟨0, _⟩ => exact (rhs_dotW3_0 _ _).trans hk
    | ⟨1, _⟩ => exact rhs_dotW3_1 _ _)
  rw [el, er]

theorem sumRows_apply (x : FVec Ideal S1048576x32 .f32) (init : FVec Ideal S_ .f32) (j : Fin 32) :
    Host.reduceAdd (F := Ideal) x init reducesTo_S1048576x32_S32_d0 h_S_ (ix1 j)
      = init (Shape.Idx.first h_S_) + ∑ r : Fin 1048576, x (ix2 r j) := by
  simp only [Host.reduceAdd, Ideal.hostReduceAdd_def]
  rw [Ideal.hostReduceAdd_single reducesTo_S1048576x32_S32_d0 (by decide)]
  refine congrArg (_ + ·) (Finset.sum_congr rfl fun k _ => ?_)
  exact congrArg x (funext fun a => Fin.ext (by match a with | ⟨0, _⟩ => rfl | ⟨1, _⟩ => rfl))

theorem sumGroups_apply (x : FVec Ideal S16x256x4x64 .f32) (init : FVec Ideal S_ .f32) (b : Fin 16) (s : Fin 256) (d : Fin 64) :
    Host.reduceAdd (F := Ideal) x init reducesTo_S16x256x4x64_S16x256x64_d2 h_S_ (ix3 b s d)
      = init (Shape.Idx.first h_S_) + ∑ g : Fin 4, x (ix4 b s g d) := by
  simp only [Host.reduceAdd, Ideal.hostReduceAdd_def]
  rw [Ideal.hostReduceAdd_single reducesTo_S16x256x4x64_S16x256x64_d2 (by decide)]
  refine congrArg (_ + ·) (Finset.sum_congr rfl fun k _ => ?_)
  exact congrArg x (funext fun a => Fin.ext (by match a with | ⟨0, _⟩ => rfl | ⟨1, _⟩ => rfl | ⟨2, _⟩ => rfl | ⟨3, _⟩ => rfl))

theorem zero_first : (constant (F := Ideal) S_ .f32 0x00000000#32) (Shape.Idx.first h_S_) = 0 :=
  Ideal.ofBits_zero_f32

section Layout
variable {α : Type}

theorem transpose_S32x128_apply (x : S32x128.Idx → α) (k : Fin 128) (j : Fin 32) :
    transpose S128x32 [1, 0] x transposes_S32x128_S128x32_1_0 (ix2 k j) = x (ix2 j k) :=
  transpose_apply [1, 0] x transposes_S32x128_S128x32_1_0 (ix2 k j) (ix2 j k) (fun c => by match c with | ⟨0, _⟩ => rfl | ⟨1, _⟩ => rfl)

theorem transpose_S32x32_apply (x : S32x32.Idx → α) (k : Fin 32) (j : Fin 32) :
    transpose S32x32 [1, 0] x transposes_S32x32_S32x32_1_0 (ix2 k j) = x (ix2 j k) :=
  transpose_apply [1, 0] x transposes_S32x32_S32x32_1_0 (ix2 k j) (ix2 j k) (fun c => by match c with | ⟨0, _⟩ => rfl | ⟨1, _⟩ => rfl)

theorem transpose_S2x32_apply (x : S2x32.Idx → α) (k : Fin 32) (j : Fin 2) :
    transpose S32x2 [1, 0] x transposes_S2x32_S32x2_1_0 (ix2 k j) = x (ix2 j k) :=
  transpose_apply [1, 0] x transposes_S2x32_S32x2_1_0 (ix2 k j) (ix2 j k) (fun c => by match c with | ⟨0, _⟩ => rfl | ⟨1, _⟩ => rfl)

theorem biasRows32_apply (v : S32.Idx → α) (p : Fin 1048576) (j : Fin 32) :
    broadcastInDim S1048576x32 ![0, 1] bcast_S1x32_S1048576x32_0_1 (broadcastInDim S1x32 ![1] bcast_S32_S1x32_1 v) (ix2 p j) = v (ix1 j) :=
  (broadcastInDim_apply ![0, 1] bcast_S1x32_S1048576x32_0_1 _ (ix2 p j) (ix2 (0 : Fin 1) j)
      (fun c => by match c with | ⟨0, _⟩ => rfl | ⟨1, _⟩ => rfl)).trans
    (broadcastInDim_apply ![1] bcast_S32_S1x32_1 v (ix2 (0 : Fin 1) j) (ix1 j) (fun c => by match c with | ⟨0, _⟩ => rfl))

theorem biasRows2_apply (v : S2.Idx → α) (p : Fin 1048576) (j : Fin 2) :
    broadcastInDim S1048576x2 ![0, 1] bcast_S1x2_S1048576x2_0_1 (broadcastInDim S1x2 ![1] bcast_S2_S1x2_1 v) (ix2 p j) = v (ix1 j) :=
  (broadcastInDim_apply ![0, 1] bcast_S1x2_S1048576x2_0_1 _ (ix2 p j) (ix2 (0 : Fin 1) j)
      (fun c => by match c with | ⟨0, _⟩ => rfl | ⟨1, _⟩ => rfl)).trans
    (broadcastInDim_apply ![1] bcast_S2_S1x2_1 v (ix2 (0 : Fin 1) j) (ix1 j) (fun c => by match c with | ⟨0, _⟩ => rfl))

theorem castRows128_apply (x : S16x65536x128.Idx → α) (b : Fin 16) (s t : Fin 256) (k : Fin 128) :
    shapeCast S1048576x128 x shapeCasts_S16x65536x128_S1048576x128 (ix2 (rowIx b s t) k) = x (ix3 b (pairIx s t) k) :=
  shapeCast_apply x shapeCasts_S16x65536x128_S1048576x128 (ix2 (rowIx b s t) k) (ix3 b (pairIx s t) k) (by
    rw [Shape.rowMajor_val_two, Shape.rowMajor_val_three]
    show (b.val * 65536 + (256 * s.val + t.val)) * 128 + k.val = (65536 * b.val + 256 * s.val + t.val) * 128 + k.val
    omega)

theorem castOut_apply (x : S1048576x2.Idx → α) (b : Fin 16) (s t : Fin 256) (u : Fin 2) :
    shapeCast S16x65536x2 x shapeCasts_S1048576x2_S16x65536x2 (ix3 b (pairIx s t) u) = x (ix2 (rowIx b s t) u) :=
  shapeCast_apply x shapeCasts_S1048576x2_S16x65536x2 (ix3 b (pairIx s t) u) (ix2 (rowIx b s t) u) (by
    rw [Shape.rowMajor_val_two, Shape.rowMajor_val_three]
    show (65536 * b.val + 256 * s.val + t.val) * 2 + u.val = (b.val * 65536 + (256 * s.val + t.val)) * 2 + u.val
    omega)

theorem unit0_apply (x : S16x65536x2.Idx → α) (b : Fin 16) (r : Fin 65536) :
    shapeCast S16x65536 (extractStridedSlice S16x65536x1 ![0, 0, 0] x slices_S16x65536x2_S16x65536x1_0_0_0) shapeCasts_S16x65536x1_S16x65536 (ix2 b r)
      = x (ix3 b r (0 : Fin 2)) :=
  (shapeCast_apply _ shapeCasts_S16x65536x1_S16x65536 (ix2 b r) (ix3 b r (0 : Fin 1)) (by
    rw [Shape.rowMajor_val_two, Shape.rowMajor_val_three]
    show (b.val * 65536 + r.val) * 1 + 0 = b.val * 65536 + r.val
    omega)).trans
  (extractStridedSlice_apply ![0, 0, 0] x slices_S16x65536x2_S16x65536x1_0_0_0 (ix3 b r (0 : Fin 1)) (ix3 b r (0 : Fin 2)) (fun c => by
    match c with
    | ⟨0, _⟩ => show b.val = 0 + b.val; omega
    | ⟨1, _⟩ => show r.val = 0 + r.val; omega
    | ⟨2, _⟩ => show 0 = 0 + 0; omega))

theorem unit1_apply (x : S16x65536x2.Idx → α) (b : Fin 16) (r : Fin 65536) :
    shapeCast S16x65536 (extractStridedSlice S16x65536x1 ![0, 0, 1] x slices_S16x65536x2_S16x65536x1_0_0_1) shapeCasts_S16x65536x1_S16x65536 (ix2 b r)
      = x (ix3 b r (1 : Fin 2)) :=
  (shapeCast_apply _ shapeCasts_S16x65536x1_S16x65536 (ix2 b r) (ix3 b r (0 : Fin 1)) (by
    rw [Shape.rowMajor_val_two, Shape.rowMajor_val_three]
    show (b.val * 65536 + r.val) * 1 + 0 = b.val * 65536 + r.val
    omega)).trans
  (extractStridedSlice_apply ![0, 0, 1] x slices_S16x65536x2_S16x65536x1_0_0_1 (ix3 b r (0 : Fin 1)) (ix3 b r (1 : Fin 2)) (fun c => by
    match c with
    | ⟨0, _⟩ => show b.val = 0 + b.val; omega
    | ⟨1, _⟩ => show r.val = 0 + r.val; omega
    | ⟨2, _⟩ => show 1 = 1 + 0; omega))

theorem castGroups_apply (x : S16x65536.Idx → α) (b : Fin 16) (s : Fin 256) (g : Fin 4) (d : Fin 64) :
    shapeCast S16x256x4x64 x shapeCasts_S16x65536_S16x256x4x64 (ix4 b s g d) = x (ix2 b (pairIx s ⟨64 * g.val + d.val, by omega⟩)) :=
  shapeCast_apply x shapeCasts_S16x65536_S16x256x4x64 (ix4 b s g d) (ix2 b (pairIx s ⟨64 * g.val + d.val, by omega⟩)) (by
    rw [Shape.rowMajor_val_two, Shape.rowMajor_val_four]
    show b.val * 65536 + (256 * s.val + (64 * g.val + d.val)) = ((b.val * 256 + s.val) * 4 + g.val) * 64 + d.val
    omega)

theorem catPairs_apply (x₁ x₂ : S16x65536x64.Idx → α) (b : Fin 16) (r : Fin 65536) (k : Fin 128) :
    concatenate S16x65536x128 2 [⟨S16x65536x64, x₁⟩, ⟨S16x65536x64, x₂⟩] concatenates_S16x65536x64_S16x65536x64_S16x65536x128_d2 (ix3 b r k)
      = if h : k.val < 64 then x₁ (ix3 b r ⟨k.val, h⟩) else x₂ (ix3 b r ⟨k.val - 64, by omega⟩) := by
  by_cases h : k.val < 64
  · rw [dif_pos h]
    exact concatenate_pair_apply_left 2 x₁ x₂ concatenates_S16x65536x64_S16x65536x64_S16x65536x128_d2 (ix3 b r k) rfl (ix3 b r ⟨k.val, h⟩)
      (fun c => by match c with | ⟨0, _⟩ => rfl | ⟨1, _⟩ => rfl | ⟨2, _⟩ => rfl)
  · rw [dif_neg h]
    exact concatenate_pair_apply_right 2 x₁ x₂ concatenates_S16x65536x64_S16x65536x64_S16x65536x128_d2 (ix3 b r k) rfl rfl (ix3 b r ⟨k.val - 64, by omega⟩)
      (fun c hc => by
        match c with
        | ⟨0, _⟩ => rfl
        | ⟨1, _⟩ => rfl
        | ⟨2, _⟩ => exact absurd rfl hc)
      (by show k.val - 64 + 64 = k.val; omega)

end Layout

theorem gatherNodes_axis0 (idx : IVec S65536x1 32) (b : Fin 16) (r : Fin 65536) (k : Fin 64) :
    (gather_S16x256x64_S65536x1_S16x65536x64_02_1_n_n_1_1_16164.operandIdx (ix3 b r k) idx 0).val = b.val := by
  show gather_S16x256x64_S65536x1_S16x65536x64_02_1_n_n_1_1_16164.start (ix3 b r k) idx 0 + gather_S16x256x64_S65536x1_S16x65536x64_02_1_n_n_1_1_16164.batchCoord (ix3 b r k) 0 + gather_S16x256x64_S65536x1_S16x65536x64_02_1_n_n_1_1_16164.offCoord (ix3 b r k) 0 = _
  rw [GatherDims.batchCoord_eq_zero _ _ _ List.not_mem_nil]
  unfold GatherDims.start GatherDims.offCoord
  rw [dif_neg (show ¬(0 : Fin S16x256x64.rank) ∈ gather_S16x256x64_S65536x1_S16x65536x64_02_1_n_n_1_1_16164.startIndexMap by decide),
    dif_pos (show (0 : Fin S16x256x64.rank) ∈ gather_S16x256x64_S65536x1_S16x65536x64_02_1_n_n_1_1_16164.sKept by decide)]
  show 0 + 0 + b.val = b.val
  omega

theorem gatherNodes_axis1 (idx : IVec S65536x1 32) (b : Fin 16) (r : Fin 65536) (k : Fin 64) :
    (gather_S16x256x64_S65536x1_S16x65536x64_02_1_n_n_1_1_16164.operandIdx (ix3 b r k) idx 1).val = min (idx (ix2 r (0 : Fin 1))).toInt.toNat 255 := by
  show gather_S16x256x64_S65536x1_S16x65536x64_02_1_n_n_1_1_16164.start (ix3 b r k) idx 1 + gather_S16x256x64_S65536x1_S16x65536x64_02_1_n_n_1_1_16164.batchCoord (ix3 b r k) 1 + gather_S16x256x64_S65536x1_S16x65536x64_02_1_n_n_1_1_16164.offCoord (ix3 b r k) 1 = _
  rw [GatherDims.batchCoord_eq_zero _ _ _ List.not_mem_nil]
  unfold GatherDims.start GatherDims.offCoord
  rw [dif_pos (show (1 : Fin S16x256x64.rank) ∈ gather_S16x256x64_S65536x1_S16x65536x64_02_1_n_n_1_1_16164.startIndexMap by decide),
    dif_neg (show ¬(1 : Fin S16x256x64.rank) ∈ gather_S16x256x64_S65536x1_S16x65536x64_02_1_n_n_1_1_16164.sKept by decide)]
  have hsi : gather_S16x256x64_S65536x1_S16x65536x64_02_1_n_n_1_1_16164.siIdx (ix3 b r k)
      ⟨List.idxOf (1 : Fin S16x256x64.rank) gather_S16x256x64_S65536x1_S16x65536x64_02_1_n_n_1_1_16164.startIndexMap,
        List.idxOf_lt_length_iff.2 (show (1 : Fin S16x256x64.rank) ∈ gather_S16x256x64_S65536x1_S16x65536x64_02_1_n_n_1_1_16164.startIndexMap by decide)⟩ = ix2 r (0 : Fin 1) := by
    funext c; refine Fin.ext ?_
    match c with
    | ⟨0, _⟩ => rfl
    | ⟨1, _⟩ => rfl
  rw [hsi]
  rfl

theorem gatherNodes_axis2 (idx : IVec S65536x1 32) (b : Fin 16) (r : Fin 65536) (k : Fin 64) :
    (gather_S16x256x64_S65536x1_S16x65536x64_02_1_n_n_1_1_16164.operandIdx (ix3 b r k) idx 2).val = k.val := by
  show gather_S16x256x64_S65536x1_S16x65536x64_02_1_n_n_1_1_16164.start (ix3 b r k) idx 2 + gather_S16x256x64_S65536x1_S16x65536x64_02_1_n_n_1_1_16164.batchCoord (ix3 b r k) 2 + gather_S16x256x64_S65536x1_S16x65536x64_02_1_n_n_1_1_16164.offCoord (ix3 b r k) 2 = _
  rw [GatherDims.batchCoord_eq_zero _ _ _ List.not_mem_nil]
  unfold GatherDims.start GatherDims.offCoord
  rw [dif_neg (show ¬(2 : Fin S16x256x64.rank) ∈ gather_S16x256x64_S65536x1_S16x65536x64_02_1_n_n_1_1_16164.startIndexMap by decide),
    dif_pos (show (2 : Fin S16x256x64.rank) ∈ gather_S16x256x64_S65536x1_S16x65536x64_02_1_n_n_1_1_16164.sKept by decide)]
  show 0 + 0 + k.val = k.val
  omega

theorem gatherNodes_apply {α : Type} (x : S16x256x64.Idx → α) (idx : IVec S65536x1 32) (b : Fin 16) (r : Fin 65536) (k : Fin 64) :
    Host.gather gather_S16x256x64_S65536x1_S16x65536x64_02_1_n_n_1_1_16164 x idx (ix3 b r k)
      = x (ix3 b ⟨min (idx (ix2 r (0 : Fin 1))).toInt.toNat 255, by omega⟩ k) := by
  unfold Host.gather
  refine congrArg x (funext fun a => Fin.ext ?_)
  match a with
  | ⟨0, _⟩ => exact gatherNodes_axis0 idx b r k
  | ⟨1, _⟩ => exact gatherNodes_axis1 idx b r k
  | ⟨2, _⟩ => exact gatherNodes_axis2 idx b r k

theorem wrap_small (n : Nat) (hn : n < 256) (y : BitVec 32) :
    Scalar.select (IntOp.cmpi .slt (BitVec.ofNat 32 n) 0#32) y (BitVec.ofNat 32 n) = BitVec.ofNat 32 n := by
  have h : ¬ IntOp.cmpi .slt (BitVec.ofNat 32 n) 0#32 = 1#1 := by
    rw [StableHlo.Predicate.slt_iff_toNat (by simp [BitVec.toNat_ofNat]; omega) (by decide)]
    simp
  exact if_neg h

theorem clamp_small (n : Nat) (hn : n < 256) : min (BitVec.ofNat 32 n).toInt.toNat 255 = n := by
  rw [StableHlo.Predicate.toInt_ofNat_small n (by omega)]
  simp only [Int.toNat_natCast]
  omega

theorem leaky_select (x : EReal) :
    Scalar.select (FloatOps.cmpf (F := Ideal) (φ := .f32) .oge x (Ideal.ofBits .f32 0x00000000#32)) x (Ideal.ofBits .f32 0x3C23D70A#32 * x)
      = if 0 ≤ x then x else Ideal.ofBits .f32 0x3C23D70A#32 * x := by
  rw [Ideal.cmpf_def, Ideal.ofBits_zero_f32]
  unfold Ideal.cmp Scalar.select
  by_cases h : (0 : EReal) ≤ x
  · simp [h]
  · simp [h]

end Cert.ReferenceIdeal.Hand

end
-- ==== Proof.Ref.ValueA.lean ====
import proofs.«145300_j21964462751805_1_alg».proof.Proof.Spec
import proofs.«145300_j21964462751805_1_alg».proof.Proof.Arrays
import proofs.«145300_j21964462751805_1_alg».proof.Proof.Math
import proofs.«145300_j21964462751805_1_alg».proof.Proof.Ref.Term
import proofs.«145300_j21964462751805_1_alg».proof.Proof.Ref.Ops

noncomputable section

open scoped BigOperators

namespace Cert.ReferenceIdeal.Hand

open Idealize.ShloMosaic Idealize.ShloMosaic.ValueIdx
open Cert.ReferenceIdeal Cert.ReferenceIdeal.Facts₀ Cert.ReferenceIdeal.Facts
open Cert.Spec

variable [Facts]

theorem sources_apply (x : IVec S256 32) (s t : Fin 256) :
    shapeCast S65536 (broadcastInDim S256x256 ![0] bcast_S256_S256x256_0 x) shapeCasts_S256x256_S65536 (ix1 (pairIx s t)) = x (ix1 s) :=
  (shapeCast_apply _ shapeCasts_S256x256_S65536 (ix1 (pairIx s t)) (ix2 s t) (by
    rw [Shape.rowMajor_val_one, Shape.rowMajor_val_two]
    show s.val * 256 + t.val = 256 * s.val + t.val
    omega)).trans
  (broadcastInDim_apply ![0] bcast_S256_S256x256_0 x (ix2 s t) (ix1 s) (fun c => by match c with | ⟨0, _⟩ => rfl))

theorem pairList_apply {α : Type} (x : S256x256.Idx → α) (s t : Fin 256) :
    shapeCast S65536 x shapeCasts_S256x256_S65536 (ix1 (pairIx s t)) = x (ix2 s t) :=
  shapeCast_apply x shapeCasts_S256x256_S65536 (ix1 (pairIx s t)) (ix2 s t) (by
    rw [Shape.rowMajor_val_one, Shape.rowMajor_val_two]
    show s.val * 256 + t.val = 256 * s.val + t.val
    omega)

theorem downRows_apply {α : Type} (x : S1x256.Idx → α) (s t : Fin 256) :
    broadcastInDim S256x256 ![0, 1] bcast_S1x256_S256x256_0_1 x (ix2 s t) = x (ix2 (0 : Fin 1) t) :=
  broadcastInDim_apply ![0, 1] bcast_S1x256_S256x256_0_1 x (ix2 s t) (ix2 (0 : Fin 1) t)
    (fun c => by match c with | ⟨0, _⟩ => rfl | ⟨1, _⟩ => rfl)

theorem asRow_apply {α : Type} (x : S256.Idx → α) (t : Fin 256) :
    shapeCast S1x256 x shapeCasts_S256_S1x256 (ix2 (0 : Fin 1) t) = x (ix1 t) :=
  shapeCast_apply x shapeCasts_S256_S1x256 (ix2 (0 : Fin 1) t) (ix1 t) (by
    rw [Shape.rowMajor_val_one, Shape.rowMajor_val_two]
    show t.val = 0 * 256 + t.val
    omega)

theorem targets_apply (x : IVec S256 32) (s t : Fin 256) :
    shapeCast S65536 (broadcastInDim S256x256 ![0, 1] bcast_S1x256_S256x256_0_1 (shapeCast S1x256 x shapeCasts_S256_S1x256))
      shapeCasts_S256x256_S65536 (ix1 (pairIx s t)) = x (ix1 t) := by
  rw [pairList_apply, downRows_apply, asRow_apply]

theorem column_apply (x : IVec S65536 32) (r : Fin 65536) :
    broadcastInDim S65536x1 ![0] bcast_S65536_S65536x1_0 x (ix2 r (0 : Fin 1)) = x (ix1 r) :=
  broadcastInDim_apply ![0] bcast_S65536_S65536x1_0 x (ix2 r (0 : Fin 1)) (ix1 r) (fun c => by match c with | ⟨0, _⟩ => rfl)

theorem wrap_apply (x zero up : IVec S65536 32) (i : S65536.Idx) :
    select (cmpi .slt x zero) up x i = Scalar.select (IntOp.cmpi .slt (x i) (zero i)) (up i) (x i) := rfl

theorem v2_apply (s t : Fin 256) : st_v2 (ix1 (pairIx s t)) = BitVec.ofNat 32 s.val := by
  unfold st_v2 st_v1
  rw [sources_apply]
  rfl

theorem v6_apply (s t : Fin 256) : st_v6 (ix1 (pairIx s t)) = BitVec.ofNat 32 t.val := by
  unfold st_v6 st_v5 st_v4
  rw [targets_apply]
  rfl

theorem v12_apply (s t : Fin 256) : st_v12 (ix2 (pairIx s t) (0 : Fin 1)) = BitVec.ofNat 32 s.val := by
  unfold st_v12
  rw [column_apply]
  unfold st_v11 st_v8
  rw [wrap_apply, v2_apply]
  exact wrap_small s.val s.isLt _

theorem v19_apply (s t : Fin 256) : st_v19 (ix2 (pairIx s t) (0 : Fin 1)) = BitVec.ofNat 32 t.val := by
  unfold st_v19
  rw [column_apply]
  unfold st_v18 st_v15
  rw [wrap_apply, v6_apply]
  exact wrap_small t.val t.isLt _

section
variable (a0 : FVec Ideal S16x256x64 .f32)

theorem v13_apply (b : Fin 16) (s t : Fin 256) (k : Fin 64) : st_v13 a0 (ix3 b (pairIx s t) k) = a0 (ix3 b s k) := by
  unfold st_v13
  rw [gatherNodes_apply]
  have e : min (st_v12 (ix2 (pairIx s t) (0 : Fin 1))).toInt.toNat 255 = s.val := by
    rw [v12_apply]; exact clamp_small s.val s.isLt
  refine congrArg a0 (funext fun c => ?_)
  match c with
  | ⟨0, _⟩ => rfl
  | ⟨1, _⟩ => exact Fin.ext e
  | ⟨2, _⟩ => rfl

theorem v20_apply (b : Fin 16) (s t : Fin 256) (k : Fin 64) : st_v20 a0 (ix3 b (pairIx s t) k) = a0 (ix3 b t k) := by
  unfold st_v20
  rw [gatherNodes_apply]
  have e : min (st_v19 (ix2 (pairIx s t) (0 : Fin 1))).toInt.toNat 255 = t.val := by
    rw [v19_apply]; exact clamp_small t.val t.isLt
  refine congrArg a0 (funext fun c => ?_)
  match c with
  | ⟨0, _⟩ => rfl
  | ⟨1, _⟩ => exact Fin.ext e
  | ⟨2, _⟩ => rfl

end

variable (a0 : FVec Ideal S16x256x64 .f32) (a1 : FVec Ideal S32x128 .f32) (a2 : FVec Ideal S32 .f32) (a3 : FVec Ideal S32 .f32) (a4 : FVec Ideal S32 .f32) (a5 : FVec Ideal S32x32 .f32) (a6 : FVec Ideal S32 .f32) (a7 : FVec Ideal S2x32 .f32) (a8 : FVec Ideal S2 .f32) (a9 : FVec Ideal S16x128 .f32) (a10 : FVec Ideal S16 .f32) (a11 : FVec Ideal S16 .f32) (a12 : FVec Ideal S16 .f32) (a13 : FVec Ideal S64x16 .f32) (a14 : FVec Ideal S64 .f32)

local notation "P" => Cert.Spec.ofArrays a0 a1 a2 a3 a4 a5 a6 a7 a8 a9 a10 a11 a12 a13 a14

theorem v22_apply (b : Fin 16) (s t : Fin 256) (k : Fin 128) :
    st_v22 a0 (ix2 (rowIx b s t) k) = (P).pair b s t k := by
  unfold st_v22
  rw [castRows128_apply]
  unfold st_v21
  rw [catPairs_apply]
  unfold Cert.Spec.Params.pair
  by_cases h : k.val < 64
  · rw [dif_pos h, dif_pos h, v13_apply]; rfl
  · rw [dif_neg h, dif_neg h, v20_apply]; rfl

theorem v24_apply (b : Fin 16) (s t : Fin 256) (j : Fin 32) :
    st_v24 a0 a1 (ix2 (rowIx b s t) j) = ∑ k : Fin 128, (P).pair b s t k * (P).W1 j k := by
  unfold st_v24
  rw [dotW1_apply]
  refine Finset.sum_congr rfl fun k _ => ?_
  rw [v22_apply a0 a1 a2 a3 a4 a5 a6 a7 a8 a9 a10 a11 a12 a13 a14]
  unfold st_v23
  rw [transpose_S32x128_apply]
  rfl

theorem v27_apply (b : Fin 16) (s t : Fin 256) (j : Fin 32) :
    st_v27 a0 a1 a2 (ix2 (rowIx b s t) j) = (P).h1 b s t j := by
  unfold st_v27
  rw [addf_apply, v24_apply a0 a1 a2 a3 a4 a5 a6 a7 a8 a9 a10 a11 a12 a13 a14, ← h1cat_eq]
  unfold st_v26 st_v25
  rw [biasRows32_apply]
  rfl

theorem v28_apply (j : Fin 32) : st_v28 a0 a1 a2 (ix1 j) = (P).sum1 j := by
  unfold st_v28
  rw [sumRows_apply, sum_rows]
  unfold st_cst
  rw [zero_first, zero_add]
  unfold Cert.Spec.Params.sum1
  refine Finset.sum_congr rfl fun b _ => Finset.sum_congr rfl fun s _ => Finset.sum_congr rfl fun t _ => ?_
  exact v27_apply a0 a1 a2 a3 a4 a5 a6 a7 a8 a9 a10 a11 a12 a13 a14 b s t j

theorem v30_apply (j : Fin 32) : st_v30 a0 a1 a2 (ix1 j) = (P).mean1 j := by
  unfold st_v30
  show Ideal.div (st_v28 a0 a1 a2 (ix1 j)) cnt1 = _
  rw [v28_apply a0 a1 a2 a3 a4 a5 a6 a7 a8 a9 a10 a11 a12 a13 a14]
  rfl

theorem v33_apply (b : Fin 16) (s t : Fin 256) (j : Fin 32) :
    st_v33 a0 a1 a2 (ix2 (rowIx b s t) j) = (P).h1 b s t j - (P).mean1 j := by
  unfold st_v33
  rw [subf_apply, v27_apply a0 a1 a2 a3 a4 a5 a6 a7 a8 a9 a10 a11 a12 a13 a14]
  unfold st_v32 st_v31
  rw [biasRows32_apply, v30_apply a0 a1 a2 a3 a4 a5 a6 a7 a8 a9 a10 a11 a12 a13 a14]

theorem v35_apply (j : Fin 32) :
    st_v35 a0 a1 a2 (ix1 j)
      = ∑ b : Fin 16, ∑ s : Fin 256, ∑ t : Fin 256, ((P).h1 b s t j - (P).mean1 j) * ((P).h1 b s t j - (P).mean1 j) := by
  unfold st_v35
  rw [sumRows_apply, sum_rows]
  unfold st_cst_4
  rw [zero_first, zero_add]
  refine Finset.sum_congr rfl fun b _ => Finset.sum_congr rfl fun s _ => Finset.sum_congr rfl fun t _ => ?_
  unfold st_v34
  rw [mulf_apply, v33_apply a0 a1 a2 a3 a4 a5 a6 a7 a8 a9 a10 a11 a12 a13 a14]

theorem v37_apply (hP : (P).IsReal) (j : Fin 32) : st_v37 a0 a1 a2 (ix1 j) = (P).var1 j := by
  unfold st_v37
  show Ideal.div (st_v35 a0 a1 a2 (ix1 j)) cnt1 = _
  rw [v35_apply a0 a1 a2 a3 a4 a5 a6 a7 a8 a9 a10 a11 a12 a13 a14]
  exact var1_dev (P) hP j

theorem v40_apply (b : Fin 16) (s t : Fin 256) (j : Fin 32) :
    st_v40 a0 a1 a2 (ix2 (rowIx b s t) j) = (P).h1 b s t j - (P).mean1 j := by
  unfold st_v40
  rw [subf_apply, v27_apply a0 a1 a2 a3 a4 a5 a6 a7 a8 a9 a10 a11 a12 a13 a14]
  unfold st_v39 st_v38
  rw [biasRows32_apply, v30_apply a0 a1 a2 a3 a4 a5 a6 a7 a8 a9 a10 a11 a12 a13 a14]

theorem v43_apply (hP : (P).IsReal) (j : Fin 32) : st_v43 a0 a1 a2 (ix1 j) = Ideal.rsqrt ((P).var1 j + eps) := by
  unfold st_v43
  show Ideal.rsqrt (st_v42 a0 a1 a2 (ix1 j)) = _
  unfold st_v42
  rw [addf_apply, v37_apply a0 a1 a2 a3 a4 a5 a6 a7 a8 a9 a10 a11 a12 a13 a14 hP]
  rfl

theorem v52_apply (hP : (P).IsReal) (b : Fin 16) (s t : Fin 256) (j : Fin 32) :
    st_v52 a0 a1 a2 a3 a4 (ix2 (rowIx b s t) j)
      = (((P).h1 b s t j - (P).mean1 j) * Ideal.rsqrt ((P).var1 j + eps)) * (P).g1 j + (P).be1 j := by
  unfold st_v52
  rw [addf_apply]
  unfold st_v49
  rw [mulf_apply]
  unfold st_v46
  rw [mulf_apply, v40_apply a0 a1 a2 a3 a4 a5 a6 a7 a8 a9 a10 a11 a12 a13 a14]
  unfold st_v45 st_v44 st_v48 st_v47 st_v51 st_v50
  rw [biasRows32_apply, biasRows32_apply, biasRows32_apply, v43_apply a0 a1 a2 a3 a4 a5 a6 a7 a8 a9 a10 a11 a12 a13 a14 hP]
  rfl

end Cert.ReferenceIdeal.Hand

end
-- ==== Proof.Ref.ValueB.lean ====
import proofs.«145300_j21964462751805_1_alg».proof.Proof.Spec
import proofs.«145300_j21964462751805_1_alg».proof.Proof.Arrays
import proofs.«145300_j21964462751805_1_alg».proof.Proof.Math
import proofs.«145300_j21964462751805_1_alg».proof.Proof.Ref.Term
import proofs.«145300_j21964462751805_1_alg».proof.Proof.Ref.Ops
import proofs.«145300_j21964462751805_1_alg».proof.Proof.Ref.ValueA

noncomputable section

open scoped BigOperators

namespace Cert.ReferenceIdeal.Hand

open Idealize.ShloMosaic Idealize.ShloMosaic.ValueIdx
open Cert.ReferenceIdeal Cert.ReferenceIdeal.Facts₀ Cert.ReferenceIdeal.Facts
open Cert.Spec

variable [Facts]

variable (a0 : FVec Ideal S16x256x64 .f32) (a1 : FVec Ideal S32x128 .f32) (a2 : FVec Ideal S32 .f32) (a3 : FVec Ideal S32 .f32) (a4 : FVec Ideal S32 .f32) (a5 : FVec Ideal S32x32 .f32) (a6 : FVec Ideal S32 .f32) (a7 : FVec Ideal S2x32 .f32) (a8 : FVec Ideal S2 .f32) (a9 : FVec Ideal S16x128 .f32) (a10 : FVec Ideal S16 .f32) (a11 : FVec Ideal S16 .f32) (a12 : FVec Ideal S16 .f32) (a13 : FVec Ideal S64x16 .f32) (a14 : FVec Ideal S64 .f32)

local notation "P" => Cert.Spec.ofArrays a0 a1 a2 a3 a4 a5 a6 a7 a8 a9 a10 a11 a12 a13 a14

theorem v53_apply (hP : (P).IsReal) (b : Fin 16) (s t : Fin 256) (j : Fin 32) :
    st_v53 a0 a1 a2 a3 a4 (ix2 (rowIx b s t) j) = (P).act1 (P).mean1 (P).var1 b s t j := by
  unfold st_v53
  rw [select_apply]
  show Scalar.select (FloatOps.cmpf (F := Ideal) (φ := .f32) .oge (st_v52 a0 a1 a2 a3 a4 (ix2 (rowIx b s t) j)) (Ideal.ofBits .f32 0x00000000#32))
      (st_v52 a0 a1 a2 a3 a4 (ix2 (rowIx b s t) j)) (Ideal.ofBits .f32 0x3C23D70A#32 * st_v52 a0 a1 a2 a3 a4 (ix2 (rowIx b s t) j)) = _
  rw [v52_apply a0 a1 a2 a3 a4 a5 a6 a7 a8 a9 a10 a11 a12 a13 a14 hP, leaky_select]
  rfl

theorem v58_apply (hP : (P).IsReal) (b : Fin 16) (s t : Fin 256) (j : Fin 32) :
    st_v58 a0 a1 a2 a3 a4 a5 a6 (ix2 (rowIx b s t) j)
      = (∑ k : Fin 32, (P).act1 (P).mean1 (P).var1 b s t k * (P).W2 j k) + (P).b2 j := by
  unfold st_v58
  rw [addf_apply]
  unfold st_v55
  rw [dotW2_apply]
  unfold st_v57 st_v56
  rw [biasRows32_apply]
  refine congrArg₂ (· + ·) (Finset.sum_congr rfl fun k _ => ?_) rfl
  rw [v53_apply a0 a1 a2 a3 a4 a5 a6 a7 a8 a9 a10 a11 a12 a13 a14 hP]
  unfold st_v54
  rw [transpose_S32x32_apply]
  rfl

theorem v59_apply (hP : (P).IsReal) (b : Fin 16) (s t : Fin 256) (j : Fin 32) :
    st_v59 a0 a1 a2 a3 a4 a5 a6 (ix2 (rowIx b s t) j) = (P).hid (P).mean1 (P).var1 b s t j := by
  unfold st_v59
  rw [select_apply]
  show Scalar.select (FloatOps.cmpf (F := Ideal) (φ := .f32) .oge (st_v58 a0 a1 a2 a3 a4 a5 a6 (ix2 (rowIx b s t) j)) (Ideal.ofBits .f32 0x00000000#32))
      (st_v58 a0 a1 a2 a3 a4 a5 a6 (ix2 (rowIx b s t) j)) (Ideal.ofBits .f32 0x3C23D70A#32 * st_v58 a0 a1 a2 a3 a4 a5 a6 (ix2 (rowIx b s t) j)) = _
  rw [v58_apply a0 a1 a2 a3 a4 a5 a6 a7 a8 a9 a10 a11 a12 a13 a14 hP, leaky_select]
  rfl

theorem v64_apply (hP : (P).IsReal) (b : Fin 16) (s t : Fin 256) (u : Fin 2) :
    st_v64 a0 a1 a2 a3 a4 a5 a6 a7 a8 (ix2 (rowIx b s t) u) = (P).out (P).mean1 (P).var1 b s t u := by
  unfold st_v64
  rw [addf_apply]
  unfold st_v61
  rw [dotW3_apply]
  unfold st_v63 st_v62
  rw [biasRows2_apply]
  unfold Cert.Spec.Params.out
  refine congrArg₂ (· + ·) (Finset.sum_congr rfl fun k _ => ?_) rfl
  rw [v59_apply a0 a1 a2 a3 a4 a5 a6 a7 a8 a9 a10 a11 a12 a13 a14 hP]
  unfold st_v60
  rw [transpose_S2x32_apply]
  rfl

theorem v67_apply (hP : (P).IsReal) (b : Fin 16) (s t : Fin 256) :
    st_v67 a0 a1 a2 a3 a4 a5 a6 a7 a8 (ix2 b (pairIx s t)) = (P).out (P).mean1 (P).var1 b s t 0 := by
  unfold st_v67 st_v66
  rw [unit0_apply]
  unfold st_v65
  rw [castOut_apply, v64_apply a0 a1 a2 a3 a4 a5 a6 a7 a8 a9 a10 a11 a12 a13 a14 hP]

theorem v75_apply (hP : (P).IsReal) (b : Fin 16) (s t : Fin 256) :
    st_v75 a0 a1 a2 a3 a4 a5 a6 a7 a8 (ix2 b (pairIx s t)) = (P).out (P).mean1 (P).var1 b s t 1 := by
  unfold st_v75 st_v74
  rw [unit1_apply]
  unfold st_v65
  rw [castOut_apply, v64_apply a0 a1 a2 a3 a4 a5 a6 a7 a8 a9 a10 a11 a12 a13 a14 hP]

theorem v73_apply (hP : (P).IsReal) (b : Fin 16) (s t : Fin 256) :
    st_v73 a0 a1 a2 a3 a4 a5 a6 a7 a8 (ix2 b (pairIx s t)) = (P).edge (P).mean1 (P).var1 b s t := by
  unfold st_v73
  show Ideal.div (Ideal.ofBits .f32 0x3F800000#32) (st_v71 a0 a1 a2 a3 a4 a5 a6 a7 a8 (ix2 b (pairIx s t))) = _
  unfold st_v71
  rw [addf_apply]
  show Ideal.div (Ideal.ofBits .f32 0x3F800000#32)
      (Ideal.ofBits .f32 0x3F800000#32 + Ideal.exp (-(st_v67 a0 a1 a2 a3 a4 a5 a6 a7 a8 (ix2 b (pairIx s t))))) = _
  rw [v67_apply a0 a1 a2 a3 a4 a5 a6 a7 a8 a9 a10 a11 a12 a13 a14 hP, ofBits_one]
  rfl

theorem v76_apply (hP : (P).IsReal) (b : Fin 16) (s t : Fin 256) :
    st_v76 a0 a1 a2 a3 a4 a5 a6 a7 a8 (ix2 b (pairIx s t)) = (P).wgt (P).mean1 (P).var1 b s t := by
  unfold st_v76
  rw [mulf_apply, v73_apply a0 a1 a2 a3 a4 a5 a6 a7 a8 a9 a10 a11 a12 a13 a14 hP, v75_apply a0 a1 a2 a3 a4 a5 a6 a7 a8 a9 a10 a11 a12 a13 a14 hP]
  rfl

theorem v78_apply (hP : (P).IsReal) (b : Fin 16) (s : Fin 256) (d : Fin 64) :
    st_v78 a0 a1 a2 a3 a4 a5 a6 a7 a8 (ix3 b s d) = (P).agg (P).mean1 (P).var1 b s d := by
  unfold st_v78
  rw [sumGroups_apply]
  unfold st_cst_11
  rw [zero_first, zero_add]
  unfold Cert.Spec.Params.agg
  refine Finset.sum_congr rfl fun g _ => ?_
  unfold st_v77
  rw [castGroups_apply, v76_apply a0 a1 a2 a3 a4 a5 a6 a7 a8 a9 a10 a11 a12 a13 a14 hP]

theorem refEdges_apply (hP : (Cert.Spec.ofArrays a0 a1 a2 a3 a4 a5 a6 a7 a8 a9 a10 a11 a12 a13 a14).IsReal) (b : Fin 16) (s t : Fin 256) :
    refEdges a0 a1 a2 a3 a4 a5 a6 a7 a8 a9 a10 a11 a12 a13 a14 (ix2 b ⟨256 * s.val + t.val, by omega⟩) = (Cert.Spec.ofArrays a0 a1 a2 a3 a4 a5 a6 a7 a8 a9 a10 a11 a12 a13 a14).edges b s t := by
  unfold refEdges
  exact v73_apply a0 a1 a2 a3 a4 a5 a6 a7 a8 a9 a10 a11 a12 a13 a14 hP b s t

end Cert.ReferenceIdeal.Hand

end
-- ==== Proof.Ref.ValueC.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«145300_j21964462751805_1_alg».proof.Proof.Ref.Term
import proofs.«145300_j21964462751805_1_alg».proof.Proof.Math

noncomputable section

namespace Cert.ReferenceIdeal.Hand.Node

open Idealize.ShloMosaic Idealize.ShloMosaic.ValueIdx
open Cert.ReferenceIdeal Cert.ReferenceIdeal.Facts₀ Cert.ReferenceIdeal.Facts

variable [Facts]

def row (b : Fin 16) (s : Fin 256) : Fin 4096 := ⟨256 * b.val + s.val, by omega⟩

theorem sum_rows {M : Type} [AddCommMonoid M] (f : Fin 4096 → M) :
    ∑ r, f r = ∑ b : Fin 16, ∑ s : Fin 256, f (row b s) := by
  rw [← Fintype.sum_prod_type (f := fun p : Fin 16 × Fin 256 => f (row p.1 p.2))]
  refine (Equiv.sum_comp (finProdFinEquiv (m := 16) (n := 256)) f).symm.trans ?_
  refine Finset.sum_congr rfl fun p _ => congrArg f (Fin.ext ?_)
  show p.2.val + 256 * p.1.val = 256 * p.1.val + p.2.val
  omega

theorem lhs_d1_0 (i : S4096x16.Idx) (q : dot_S4096x128_S128x16_S4096x16_1_0_0_1_n_n.contr.Idx) :
    (dot_S4096x128_S128x16_S4096x16_1_0_0_1_n_n.lhsIdx i q 0).val = (i 0).val := by
  unfold DotDims.lhsIdx
  rw [dif_neg (show ¬(0 : Fin S4096x128.rank) ∈ dot_S4096x128_S128x16_S4096x16_1_0_0_1_n_n.lhsBatch by decide), dif_pos (show (0 : Fin S4096x128.rank) ∈ dot_S4096x128_S128x16_S4096x16_1_0_0_1_n_n.lhsNonContracting by decide)]
  rfl
theorem lhs_d1_1 (i : S4096x16.Idx) (q : dot_S4096x128_S128x16_S4096x16_1_0_0_1_n_n.contr.Idx) :
    (dot_S4096x128_S128x16_S4096x16_1_0_0_1_n_n.lhsIdx i q 1).val = (q ⟨0, by decide⟩).val :=
  dot_S4096x128_S128x16_S4096x16_1_0_0_1_n_n.lhsIdx_val_of_single rfl i q
theorem rhs_d1_0 (i : S4096x16.Idx) (q : dot_S4096x128_S128x16_S4096x16_1_0_0_1_n_n.contr.Idx) :
    (dot_S4096x128_S128x16_S4096x16_1_0_0_1_n_n.rhsIdx i q 0).val = (q ⟨0, by decide⟩).val :=
  dot_S4096x128_S128x16_S4096x16_1_0_0_1_n_n.rhsIdx_val_of_single rfl i q
theorem rhs_d1_1 (i : S4096x16.Idx) (q : dot_S4096x128_S128x16_S4096x16_1_0_0_1_n_n.contr.Idx) :
    (dot_S4096x128_S128x16_S4096x16_1_0_0_1_n_n.rhsIdx i q 1).val = (i 1).val := by
  unfold DotDims.rhsIdx
  rw [dif_neg (show ¬(1 : Fin S128x16.rank) ∈ dot_S4096x128_S128x16_S4096x16_1_0_0_1_n_n.rhsBatch by decide), dif_pos (show (1 : Fin S128x16.rank) ∈ dot_S4096x128_S128x16_S4096x16_1_0_0_1_n_n.rhsNonContracting by decide)]
  rfl

theorem dot1_apply (L : FVec Ideal S4096x128 .f32) (R : FVec Ideal S128x16 .f32) (r : Fin 4096) (j : Fin 16) :
    Host.dotGeneral (F := Ideal) dot_S4096x128_S128x16_S4096x16_1_0_0_1_n_n none L R (ix2 r j)
      = ∑ k : Fin 128, L (ix2 r k) * R (ix2 k j) := by
  simp only [Host.dotGeneral]
  rw [Ideal.dotGeneral_apply, ← Equiv.sum_comp (contrEquiv1 dot_S4096x128_S128x16_S4096x16_1_0_0_1_n_n 128 rfl rfl).symm]
  refine Finset.sum_congr rfl fun k _ => ?_
  have hk := contrEquiv1_symm_val dot_S4096x128_S128x16_S4096x16_1_0_0_1_n_n 128 rfl rfl k
  have el : dot_S4096x128_S128x16_S4096x16_1_0_0_1_n_n.lhsIdx (ix2 r j) ((contrEquiv1 dot_S4096x128_S128x16_S4096x16_1_0_0_1_n_n 128 rfl rfl).symm k) = ix2 r k := funext fun a => Fin.ext (by
    match a with
    | ⟨0, _⟩ => exact lhs_d1_0 _ _
    | ⟨1, _⟩ => exact (lhs_d1_1 _ _).trans hk)
  have er : dot_S4096x128_S128x16_S4096x16_1_0_0_1_n_n.rhsIdx (ix2 r j) ((contrEquiv1 dot_S4096x128_S128x16_S4096x16_1_0_0_1_n_n 128 rfl rfl).symm k) = ix2 k j := funext fun a => Fin.ext (by
    match a with
    | ⟨0, _⟩ => exact (rhs_d1_0 _ _).trans hk
    | ⟨1, _⟩ => exact rhs_d1_1 _ _)
  rw [el, er]

theorem rows16_apply (v : FVec Ideal S16 .f32) (r : Fin 4096) (j : Fin 16) :
    broadcastInDim S4096x16 ![0, 1] bcast_S1x16_S4096x16_0_1 (broadcastInDim S1x16 ![1] bcast_S16_S1x16_1 v) (ix2 r j)
      = v (ix1 j) := by
  rw [broadcastInDim_apply ![0, 1] bcast_S1x16_S4096x16_0_1 _ (ix2 r j) (ix2 (0 : Fin 1) j)
    (fun a => by match a with | ⟨0, _⟩ => rfl | ⟨1, _⟩ => rfl)]
  exact broadcastInDim_apply ![1] bcast_S16_S1x16_1 v (ix2 (0 : Fin 1) j) (ix1 j)
    (fun a => by match a with | ⟨0, _⟩ => rfl)

theorem rows_of_nodes_apply (x : FVec Ideal S16x256x128 .f32) (b : Fin 16) (s : Fin 256) (k : Fin 128) :
    shapeCast S4096x128 x shapeCasts_S16x256x128_S4096x128 (ix2 (row b s) k) = x (ix3 b s k) := by
  refine shapeCast_apply x _ _ _ ?_
  rw [Shape.rowMajor_val_three, Shape.rowMajor_val_two]
  show (b.val * 256 + s.val) * 128 + k.val = (256 * b.val + s.val) * 128 + k.val
  omega

theorem colsum_apply (x : FVec Ideal S4096x16 .f32) (init : FVec Ideal S_ .f32) (j : Fin 16) :
    Host.reduceAdd (F := Ideal) x init reducesTo_S4096x16_S16_d0 h_S_ (ix1 j)
      = init ix0 + ∑ r : Fin 4096, x (ix2 r j) := by
  rw [hostReduceAdd_apply, Ideal.hostReduceAdd_single reducesTo_S4096x16_S16_d0 (by decide)]
  refine congrArg₂ (· + ·) (congrArg init (funext fun a => a.elim0)) (Finset.sum_congr rfl fun k _ => ?_)
  exact congrArg x (funext fun a => Fin.ext (by match a with | ⟨0, _⟩ => rfl | ⟨1, _⟩ => rfl))

theorem cat_apply (x y : FVec Ideal S16x256x64 .f32) (b : Fin 16) (s : Fin 256) (k : Fin 128) :
    concatenate S16x256x128 2 [⟨S16x256x64, x⟩, ⟨S16x256x64, y⟩] concatenates_S16x256x64_S16x256x64_S16x256x128_d2 (ix3 b s k)
      = if h : k.val < 64 then x (ix3 b s ⟨k.val, h⟩) else y (ix3 b s ⟨k.val - 64, by omega⟩) := by
  split
  · next h =>
    exact concatenate_pair_apply_left 2 x y _ (ix3 b s k) rfl (ix3 b s ⟨k.val, h⟩)
      (fun c => by match c with | ⟨0, _⟩ => rfl | ⟨1, _⟩ => rfl | ⟨2, _⟩ => rfl)
  · next h =>
    exact concatenate_pair_apply_right 2 x y _ (ix3 b s k) rfl rfl (ix3 b s ⟨k.val - 64, by omega⟩)
      (fun c hc => by
        match c, hc with
        | ⟨0, _⟩, _ => rfl
        | ⟨1, _⟩, _ => rfl
        | ⟨2, _⟩, hc => exact absurd rfl hc)
      (by show k.val - 64 + 64 = k.val; omega)

theorem lhs_d2_0 (i : S4096x64.Idx) (q : dot_S4096x16_S16x64_S4096x64_1_0_0_1_n_n.contr.Idx) :
    (dot_S4096x16_S16x64_S4096x64_1_0_0_1_n_n.lhsIdx i q 0).val = (i 0).val := by
  unfold DotDims.lhsIdx
  rw [dif_neg (show ¬(0 : Fin S4096x16.rank) ∈ dot_S4096x16_S16x64_S4096x64_1_0_0_1_n_n.lhsBatch by decide), dif_pos (show (0 : Fin S4096x16.rank) ∈ dot_S4096x16_S16x64_S4096x64_1_0_0_1_n_n.lhsNonContracting by decide)]
  rfl
theorem lhs_d2_1 (i : S4096x64.Idx) (q : dot_S4096x16_S16x64_S4096x64_1_0_0_1_n_n.contr.Idx) :
    (dot_S4096x16_S16x64_S4096x64_1_0_0_1_n_n.lhsIdx i q 1).val = (q ⟨0, by decide⟩).val :=
  dot_S4096x16_S16x64_S4096x64_1_0_0_1_n_n.lhsIdx_val_of_single rfl i q
theorem rhs_d2_0 (i : S4096x64.Idx) (q : dot_S4096x16_S16x64_S4096x64_1_0_0_1_n_n.contr.Idx) :
    (dot_S4096x16_S16x64_S4096x64_1_0_0_1_n_n.rhsIdx i q 0).val = (q ⟨0, by decide⟩).val :=
  dot_S4096x16_S16x64_S4096x64_1_0_0_1_n_n.rhsIdx_val_of_single rfl i q
theorem rhs_d2_1 (i : S4096x64.Idx) (q : dot_S4096x16_S16x64_S4096x64_1_0_0_1_n_n.contr.Idx) :
    (dot_S4096x16_S16x64_S4096x64_1_0_0_1_n_n.rhsIdx i q 1).val = (i 1).val := by
  unfold DotDims.rhsIdx
  rw [dif_neg (show ¬(1 : Fin S16x64.rank) ∈ dot_S4096x16_S16x64_S4096x64_1_0_0_1_n_n.rhsBatch by decide), dif_pos (show (1 : Fin S16x64.rank) ∈ dot_S4096x16_S16x64_S4096x64_1_0_0_1_n_n.rhsNonContracting by decide)]
  rfl

theorem dot2_apply (L : FVec Ideal S4096x16 .f32) (R : FVec Ideal S16x64 .f32) (r : Fin 4096) (d : Fin 64) :
    Host.dotGeneral (F := Ideal) dot_S4096x16_S16x64_S4096x64_1_0_0_1_n_n none L R (ix2 r d)
      = ∑ j : Fin 16, L (ix2 r j) * R (ix2 j d) := by
  simp only [Host.dotGeneral]
  rw [Ideal.dotGeneral_apply, ← Equiv.sum_comp (contrEquiv1 dot_S4096x16_S16x64_S4096x64_1_0_0_1_n_n 16 rfl rfl).symm]
  refine Finset.sum_congr rfl fun k _ => ?_
  have hk := contrEquiv1_symm_val dot_S4096x16_S16x64_S4096x64_1_0_0_1_n_n 16 rfl rfl k
  have el : dot_S4096x16_S16x64_S4096x64_1_0_0_1_n_n.lhsIdx (ix2 r d) ((contrEquiv1 dot_S4096x16_S16x64_S4096x64_1_0_0_1_n_n 16 rfl rfl).symm k) = ix2 r k := funext fun a => Fin.ext (by
    match a with
    | ⟨0, _⟩ => exact lhs_d2_0 _ _
    | ⟨1, _⟩ => exact (lhs_d2_1 _ _).trans hk)
  have er : dot_S4096x16_S16x64_S4096x64_1_0_0_1_n_n.rhsIdx (ix2 r d) ((contrEquiv1 dot_S4096x16_S16x64_S4096x64_1_0_0_1_n_n 16 rfl rfl).symm k) = ix2 k d := funext fun a => Fin.ext (by
    match a with
    | ⟨0, _⟩ => exact (rhs_d2_0 _ _).trans hk
    | ⟨1, _⟩ => exact rhs_d2_1 _ _)
  rw [el, er]

theorem rows64_apply (v : FVec Ideal S64 .f32) (r : Fin 4096) (d : Fin 64) :
    broadcastInDim S4096x64 ![0, 1] bcast_S1x64_S4096x64_0_1 (broadcastInDim S1x64 ![1] bcast_S64_S1x64_1 v) (ix2 r d)
      = v (ix1 d) := by
  rw [broadcastInDim_apply ![0, 1] bcast_S1x64_S4096x64_0_1 _ (ix2 r d) (ix2 (0 : Fin 1) d)
    (fun a => by match a with | ⟨0, _⟩ => rfl | ⟨1, _⟩ => rfl)]
  exact broadcastInDim_apply ![1] bcast_S64_S1x64_1 v (ix2 (0 : Fin 1) d) (ix1 d)
    (fun a => by match a with | ⟨0, _⟩ => rfl)

theorem nodes_of_rows_apply (x : FVec Ideal S4096x64 .f32) (b : Fin 16) (s : Fin 256) (d : Fin 64) :
    shapeCast S16x256x64 x shapeCasts_S4096x64_S16x256x64 (ix3 b s d) = x (ix2 (row b s) d) := by
  refine shapeCast_apply x _ _ _ ?_
  rw [Shape.rowMajor_val_three, Shape.rowMajor_val_two]
  show (256 * b.val + s.val) * 64 + d.val = (b.val * 256 + s.val) * 64 + d.val
  omega

theorem select_oge_zero (x y : EReal) :
    Scalar.select (Ideal.cmp .oge x 0) x y = if 0 ≤ x then x else y := by
  by_cases h : 0 ≤ x
  · have e : Ideal.cmp .oge x 0 = 1#1 := by simp [Ideal.cmp, h]
    rw [if_pos h, e]; exact select_one _ _
  · have e : Ideal.cmp .oge x 0 = 0#1 := by simp [Ideal.cmp, h]
    rw [if_neg h, e]; exact select_zero _ _

theorem hostRsqrt_apply {s : Shape} (x : FVec Ideal s .f32) (i : s.Idx) :
    Host.rsqrt (F := Ideal) x i = Ideal.rsqrt (x i) := rfl

section Stages

variable (a0 : FVec Ideal S16x256x64 .f32) (a1 : FVec Ideal S32x128 .f32) (a2 a3 a4 : FVec Ideal S32 .f32)
  (a5 : FVec Ideal S32x32 .f32) (a6 : FVec Ideal S32 .f32) (a7 : FVec Ideal S2x32 .f32) (a8 : FVec Ideal S2 .f32)
  (a9 : FVec Ideal S16x128 .f32) (a10 a11 a12 : FVec Ideal S16 .f32) (a13 : FVec Ideal S64x16 .f32)
  (a14 : FVec Ideal S64 .f32)
  (P : Cert.Spec.Params) (hPa : P = Cert.Spec.ofArrays a0 a1 a2 a3 a4 a5 a6 a7 a8 a9 a10 a11 a12 a13 a14)

include hPa

theorem st_v85_eq (mu sg : Fin 32 → EReal)
    (hagg : ∀ b s d, st_v78 a0 a1 a2 a3 a4 a5 a6 a7 a8 (ix3 b s d) = P.agg mu sg b s d)
    (b : Fin 16) (s : Fin 256) (j : Fin 16) :
    st_v85 a0 a1 a2 a3 a4 a5 a6 a7 a8 a9 a10 (ix2 (row b s) j) = P.pre mu sg b s j := by
  subst hPa
  unfold st_v85 st_v82 st_v84 st_v83
  rw [addf_apply, dot1_apply, rows16_apply]
  unfold Cert.Spec.Params.pre
  refine congrArg₂ (· + ·) (Finset.sum_congr rfl fun k _ => ?_) rfl
  unfold st_v80 st_v81 st_v79
  rw [rows_of_nodes_apply, transpose_ix2_apply, cat_apply]
  refine congrArg₂ (· * ·) ?_ rfl
  unfold Cert.Spec.Params.cat
  split
  · rfl
  · exact hagg _ _ _

variable (hagg : ∀ b s d, st_v78 a0 a1 a2 a3 a4 a5 a6 a7 a8 (ix3 b s d) = P.agg P.mean1 P.var1 b s d)

include hagg

theorem st_v88_eq (j : Fin 16) : st_v88 a0 a1 a2 a3 a4 a5 a6 a7 a8 a9 a10 (ix1 j) = P.mean2 j := by
  unfold st_v88 st_v86 st_v87
  rw [hostDivf_apply, colsum_apply, broadcastInDim_scalar_apply, sum_rows]
  unfold st_cst_12 st_cst_13
  rw [constant_apply, constant_apply, Ideal.ofBits_zero_f32, zero_add]
  unfold Cert.Spec.Params.mean2 Cert.Spec.mean Cert.Spec.Params.sum2
  exact congrArg₂ Ideal.div (Finset.sum_congr rfl fun b _ => Finset.sum_congr rfl fun s _ =>
    st_v85_eq a0 a1 a2 a3 a4 a5 a6 a7 a8 a9 a10 a11 a12 a13 a14 P hPa _ _ hagg b s j) rfl

theorem st_v95_eq (hP : P.IsReal) (j : Fin 16) : st_v95 a0 a1 a2 a3 a4 a5 a6 a7 a8 a9 a10 (ix1 j) = P.var2 j := by
  rw [← Cert.Spec.var2_dev P hP j]
  unfold st_v95 st_v93 st_v94
  rw [hostDivf_apply, colsum_apply, broadcastInDim_scalar_apply, sum_rows]
  unfold st_cst_14 st_cst_15
  rw [constant_apply, constant_apply, Ideal.ofBits_zero_f32, zero_add]
  refine congrArg₂ Ideal.div (Finset.sum_congr rfl fun b _ => Finset.sum_congr rfl fun s _ => ?_) rfl
  unfold st_v92 st_v91 st_v90 st_v89
  rw [mulf_apply, subf_apply, rows16_apply, st_v85_eq a0 a1 a2 a3 a4 a5 a6 a7 a8 a9 a10 a11 a12 a13 a14 P hPa _ _ hagg b s j,
    st_v88_eq a0 a1 a2 a3 a4 a5 a6 a7 a8 a9 a10 a11 a12 a13 a14 P hPa hagg j]

theorem st_v111_eq (hP : P.IsReal) (b : Fin 16) (s : Fin 256) (j : Fin 16) :
    st_v111 a0 a1 a2 a3 a4 a5 a6 a7 a8 a9 a10 a11 a12 (ix2 (row b s) j)
      = Cert.Spec.act (P.pre P.mean1 P.var1 b s j) (P.mean2 j) (P.var2 j) (P.fg j) (P.fbb j) := by
  have h110 : st_v110 a0 a1 a2 a3 a4 a5 a6 a7 a8 a9 a10 a11 a12 (ix2 (row b s) j)
      = ((P.pre P.mean1 P.var1 b s j - P.mean2 j) * Ideal.rsqrt (P.var2 j + Cert.Spec.eps)) * P.fg j + P.fbb j := by
    unfold st_v110 st_v107 st_v109 st_v108 st_v106 st_v105 st_v104 st_v103 st_v102 st_v101 st_v100 st_v99 st_v98
      st_v97 st_v96 st_cst_16
    simp only [addf_apply, mulf_apply, subf_apply]
    rw [rows16_apply, rows16_apply, rows16_apply, rows16_apply, hostRsqrt_apply, addf_apply,
      broadcastInDim_scalar_apply, constant_apply, st_v85_eq a0 a1 a2 a3 a4 a5 a6 a7 a8 a9 a10 a11 a12 a13 a14 P hPa _ _ hagg b s j,
      st_v88_eq a0 a1 a2 a3 a4 a5 a6 a7 a8 a9 a10 a11 a12 a13 a14 P hPa hagg j, st_v95_eq a0 a1 a2 a3 a4 a5 a6 a7 a8 a9 a10 a11 a12 a13 a14 P hPa hagg hP j]
    subst hPa
    rfl
  unfold st_v111 st_call2_v1 st_call2_v4 st_call2_v3 st_call2_v2 st_call2_v0 st_call2_cst st_cst_17
  simp only [select_apply, cmpf_apply, mulf_apply, id_eq]
  rw [h110, broadcastInDim_scalar_apply, broadcastInDim_scalar_apply, constant_apply, constant_apply,
    Ideal.ofBits_zero_f32]
  show Scalar.select (Ideal.cmp .oge _ 0) _ _ = _
  rw [select_oge_zero]
  rfl

theorem refPred_eq (hP : P.IsReal) (b : Fin 16) (s : Fin 256) (d : Fin 64) :
    refPred a0 a1 a2 a3 a4 a5 a6 a7 a8 a9 a10 a11 a12 a13 a14 (ix3 b s d) = P.pred b s d := by
  unfold refPred st_v117
  rw [nodes_of_rows_apply]
  unfold st_v116 st_v113 st_v115 st_v114 st_v112
  rw [addf_apply, dot2_apply, rows64_apply]
  unfold Cert.Spec.Params.pred Cert.Spec.Params.proj
  have hb : a14 (ix1 d) = P.fb2 d := by subst hPa; rfl
  rw [hb]
  refine congrArg₂ (· + ·) (Finset.sum_congr rfl fun j _ => ?_) rfl
  rw [transpose_ix2_apply, st_v111_eq a0 a1 a2 a3 a4 a5 a6 a7 a8 a9 a10 a11 a12 a13 a14 P hPa hagg hP b s j]
  have hf : a13 (ix2 d j) = P.F2 d j := by subst hPa; rfl
  rw [hf]

end Stages

end Cert.ReferenceIdeal.Hand.Node

end
-- ==== Proof.Ref.Value.lean ====
import proofs.«145300_j21964462751805_1_alg».proof.Proof.Ref.ValueB
import proofs.«145300_j21964462751805_1_alg».proof.Proof.Ref.ValueC

noncomputable section

namespace Cert.ReferenceIdeal.Hand

open Idealize.ShloMosaic Idealize.ShloMosaic.ValueIdx
open Cert.ReferenceIdeal

variable [Facts]

theorem refPred_apply (a0 : FVec Ideal S16x256x64 .f32) (a1 : FVec Ideal S32x128 .f32) (a2 : FVec Ideal S32 .f32) (a3 : FVec Ideal S32 .f32) (a4 : FVec Ideal S32 .f32) (a5 : FVec Ideal S32x32 .f32) (a6 : FVec Ideal S32 .f32) (a7 : FVec Ideal S2x32 .f32) (a8 : FVec Ideal S2 .f32) (a9 : FVec Ideal S16x128 .f32) (a10 : FVec Ideal S16 .f32) (a11 : FVec Ideal S16 .f32) (a12 : FVec Ideal S16 .f32) (a13 : FVec Ideal S64x16 .f32) (a14 : FVec Ideal S64 .f32)
    (hP : (Cert.Spec.ofArrays a0 a1 a2 a3 a4 a5 a6 a7 a8 a9 a10 a11 a12 a13 a14).IsReal) (b : Fin 16) (s : Fin 256) (d : Fin 64) :
    refPred a0 a1 a2 a3 a4 a5 a6 a7 a8 a9 a10 a11 a12 a13 a14 (ix3 b s d) = (Cert.Spec.ofArrays a0 a1 a2 a3 a4 a5 a6 a7 a8 a9 a10 a11 a12 a13 a14).pred b s d :=
  Node.refPred_eq a0 a1 a2 a3 a4 a5 a6 a7 a8 a9 a10 a11 a12 a13 a14 (Cert.Spec.ofArrays a0 a1 a2 a3 a4 a5 a6 a7 a8 a9 a10 a11 a12 a13 a14) rfl
    (fun b s d => v78_apply a0 a1 a2 a3 a4 a5 a6 a7 a8 a9 a10 a11 a12 a13 a14 hP b s d) hP b s d

end Cert.ReferenceIdeal.Hand

end
-- ==== Proof.Finite.lean ====
import proofs.«145300_j21964462751805_1_alg».proof.Pre_finite_inputs
import proofs.«145300_j21964462751805_1_alg».proof.Proof.Arrays
import Idealize.ShloMosaic.Lib.ReduceAll
import Idealize.ShloMosaic.Lib.ValueIdx
import Idealize.ShloMosaic.PureOps.Ideal

noncomputable section

namespace Cert.Hand

open Idealize.ShloMosaic Cert.Pre_finite_inputs

instance : Subsingleton S_.Idx := ⟨fun a b => funext fun d => d.elim0⟩

theorem ofBits_inf : Ideal.ofBits .f32 0x7F800000#32 = (⊤ : EReal) := by
  simp [Ideal.ofBits, Ideal.ieee]

theorem real_of_abs_lt (x : EReal)
    (h : Ideal.cmp .olt (max x (-x)) (Ideal.ofBits .f32 0x7F800000#32) = 1#1) :
    ∃ r : ℝ, x = (r : EReal) := by
  rw [ofBits_inf] at h
  induction x using EReal.rec
  · simp [Ideal.cmp] at h
  · exact ⟨_, rfl⟩
  · simp [Ideal.cmp] at h

theorem real_of_all {s : Shape} {axes : List (Fin s.rank)} (a : FVec Ideal s .f32)
    (hb : S_.BroadcastsInDim s (![] : Fin 0 → Fin s.rank)) (hr : s.ReducesTo axes S_)
    (hu : 0 < S_.numel)
    (e : Host.reduce IntOp.andi
        (cmpf .olt (Host.absf a) (broadcastInDim s ![] hb (constant (F := Ideal) S_ .f32 0x7F800000#32)))
        (constantI S_ 1 1#1) hr hu ValueIdx.ix0 = 1#1) (i : s.Idx) :
    ∃ r : ℝ, a i = (r : EReal) := by
  have hi := Host.reduce_andi_all _ _ hr hu _ e i
  exact real_of_abs_lt (a i) hi

theorem isReal_of_pre [hPre : Cert.Pre_finite_inputs.Facts]
    (a0 : FVec Ideal S16x256x64 .f32) (a1 : FVec Ideal S32x128 .f32) (a2 a3 a4 : FVec Ideal S32 .f32)
    (a5 : FVec Ideal S32x32 .f32) (a6 : FVec Ideal S32 .f32) (a7 : FVec Ideal S2x32 .f32)
    (a8 : FVec Ideal S2 .f32) (a9 : FVec Ideal S16x128 .f32) (a10 a11 a12 : FVec Ideal S16 .f32)
    (a13 : FVec Ideal S64x16 .f32) (a14 : FVec Ideal S64 .f32)
    (h : Cert.Pre_finite_inputs.fn (F := Ideal) a0 a1 a2 a3 a4 a5 a6 a7 a8 a9 a10 a11 a12 a13 a14
      = fun _ => 1#1) :
    (Cert.Spec.ofArrays a0 a1 a2 a3 a4 a5 a6 a7 a8 a9 a10 a11 a12 a13 a14).IsReal := by
  have h0 := congrFun h ValueIdx.ix0
  dsimp only [fn, fn_part1, fn_part2, fn_part3, fn_part4, Idealize.ShloMosaic.andi] at h0
  simp only [IntOp.andi_eq_one] at h0
  obtain ⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩ := h0
  exact ⟨fun _ _ _ => real_of_all a0 _ _ _ e0 _, fun _ _ => real_of_all a1 _ _ _ e1 _,
    fun _ => real_of_all a2 _ _ _ e2 _, fun _ => real_of_all a3 _ _ _ e3 _,
    fun _ => real_of_all a4 _ _ _ e4 _, fun _ _ => real_of_all a5 _ _ _ e5 _,
    fun _ => real_of_all a6 _ _ _ e6 _, fun _ _ => real_of_all a7 _ _ _ e7 _,
    fun _ => real_of_all a8 _ _ _ e8 _, fun _ _ => real_of_all a9 _ _ _ e9 _,
    fun _ => real_of_all a10 _ _ _ e10 _, fun _ => real_of_all a11 _ _ _ e11 _,
    fun _ => real_of_all a12 _ _ _ e12 _, fun _ _ => real_of_all a13 _ _ _ e13 _,
    fun _ => real_of_all a14 _ _ _ e14 _⟩

end Cert.Hand

end
-- ==== Proof.Alg.lean ====
import proofs.«145300_j21964462751805_1_alg».proof.Proof.Gen.Pre_finite_inputs
import proofs.«145300_j21964462751805_1_alg».proof.Proof.Gen.KernelIdeal
import proofs.«145300_j21964462751805_1_alg».proof.Proof.Gen.ReferenceIdeal
import proofs.«145300_j21964462751805_1_alg».proof.Defs
import proofs.«145300_j21964462751805_1_alg».proof.Proof.KI.Launch
import proofs.«145300_j21964462751805_1_alg».proof.Proof.KI.KVal
import proofs.«145300_j21964462751805_1_alg».proof.Proof.Ref.Read
import proofs.«145300_j21964462751805_1_alg».proof.Proof.Ref.Value
import proofs.«145300_j21964462751805_1_alg».proof.Proof.Finite
import Idealize.ShloMosaic.Lib.ValueIdx

set_option maxRecDepth 16384

noncomputable section

namespace Cert.Proof.Alg

open Idealize.ShloMosaic Idealize.ShloMosaic.TcCoe Idealize.SL.Sem Idealize.ShloMosaic.ValueIdx

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W7 m c (Proc.devRef .tc Cert.KernelIdeal.main_v26),
    fun c => Cert.KernelIdeal.Hand.W7 m c (Proc.devRef .tc Cert.KernelIdeal.main_v25), ?kernel, ?reference⟩
  case kernel =>
    refine (θ_run Cert.KernelIdeal.defs _ _).mono (fun r h c => ?_) (Cert.KernelIdeal.Hand.run (F := Ideal) m ρ)
    have hc := h c
    exact ⟨hc _ (Cert.KernelIdeal.Hand.mem_uc Cert.KernelIdeal.main_v26 (by decide)),
      hc _ (Cert.KernelIdeal.Hand.mem_uc Cert.KernelIdeal.main_v25 (by decide)),
      Cert.KernelIdeal.Hand.ends_kept m h c Cert.KernelIdeal.main_arg0 (by decide) (by decide),
      Cert.KernelIdeal.Hand.ends_kept m h c Cert.KernelIdeal.main_arg1 (by decide) (by decide),
      Cert.KernelIdeal.Hand.ends_kept m h c Cert.KernelIdeal.main_arg2 (by decide) (by decide),
      Cert.KernelIdeal.Hand.ends_kept m h c Cert.KernelIdeal.main_arg3 (by decide) (by decide),
      Cert.KernelIdeal.Hand.ends_kept m h c Cert.KernelIdeal.main_arg4 (by decide) (by decide),
      Cert.KernelIdeal.Hand.ends_kept m h c Cert.KernelIdeal.main_arg5 (by decide) (by decide),
      Cert.KernelIdeal.Hand.ends_kept m h c Cert.KernelIdeal.main_arg6 (by decide) (by decide),
      Cert.KernelIdeal.Hand.ends_kept m h c Cert.KernelIdeal.main_arg7 (by decide) (by decide),
      Cert.KernelIdeal.Hand.ends_kept m h c Cert.KernelIdeal.main_arg8 (by decide) (by decide),
      Cert.KernelIdeal.Hand.ends_kept m h c Cert.KernelIdeal.main_arg9 (by decide) (by decide),
      Cert.KernelIdeal.Hand.ends_kept m h c Cert.KernelIdeal.main_arg10 (by decide) (by decide),
      Cert.KernelIdeal.Hand.ends_kept m h c Cert.KernelIdeal.main_arg11 (by decide) (by decide),
      Cert.KernelIdeal.Hand.ends_kept m h c Cert.KernelIdeal.main_arg12 (by decide) (by decide),
      Cert.KernelIdeal.Hand.ends_kept m h c Cert.KernelIdeal.main_arg13 (by decide) (by decide),
      Cert.KernelIdeal.Hand.ends_kept m h c Cert.KernelIdeal.main_arg14 (by decide) (by decide)⟩
  case reference =>
    refine (θ_run Cert.ReferenceIdeal.defs _ _).mono (fun r h c => ⟨(h c).1.trans ?_, (h c).2.1.trans ?_, (h c).2.2⟩)
      (Cert.ReferenceIdeal.Hand.run' m' ρ')
    · obtain ⟨e0, e1, e2, e3, e4, e5, e6, e7, e8, e9, e10, e11, e12, e13, e14⟩ := hagree c
      have hP := Cert.Hand.isReal_of_pre (hPre := Cert.Pre_finite_inputs.Gen.facts) _ _ _ _ _ _ _ _ _ _ _ _ _ _ _ (hpre c)
      rw [e0, e1, e2, e3, e4, e5, e6, e7, e8, e9, e10, e11, e12, e13, e14]
      funext i
      obtain ⟨b, e, rfl⟩ : ∃ (b : Fin 16) (e : Fin 65536), i = ix2 b e := ⟨i 0, i 1, eq_ix2 i⟩
      have he : e = ⟨256 * (⟨e.val / 256, by omega⟩ : Fin 256).val + (⟨e.val % 256, by omega⟩ : Fin 256).val, by omega⟩ :=
        Fin.ext (by show e.val = 256 * (e.val / 256) + e.val % 256; omega)
      rw [he]
      exact (Cert.ReferenceIdeal.Hand.refEdges_apply _ _ _ _ _ _ _ _ _ _ _ _ _ _ _ hP b ⟨e.val / 256, by omega⟩ ⟨e.val % 256, by omega⟩).trans
        (Cert.KernelIdeal.Hand.kernel_edges m c b ⟨e.val / 256, by omega⟩ ⟨e.val % 256, by omega⟩).symm
    · obtain ⟨e0, e1, e2, e3, e4, e5, e6, e7, e8, e9, e10, e11, e12, e13, e14⟩ := hagree c
      have hP := Cert.Hand.isReal_of_pre (hPre := Cert.Pre_finite_inputs.Gen.facts) _ _ _ _ _ _ _ _ _ _ _ _ _ _ _ (hpre c)
      rw [e0, e1, e2, e3, e4, e5, e6, e7, e8, e9, e10, e11, e12, e13, e14]
      funext i
      obtain ⟨b, s, d, rfl⟩ : ∃ (b : Fin 16) (s : Fin 256) (d : Fin 64), i = ix3 b s d := ⟨i 0, i 1, i 2, eq_ix3 i⟩
      exact (Cert.ReferenceIdeal.Hand.refPred_apply _ _ _ _ _ _ _ _ _ _ _ _ _ _ _ hP b s d).trans
        (Cert.KernelIdeal.Hand.kernel_pred m c b s d).symm

end Cert.Proof.Alg

end
-- ==== Proof.lean ====
/-
  Sixteen graphs of 256 nodes: both programs compute every ordered pair's strength and a 64-vector per node.
  The kernel program splits the first layer's contraction over the 128 paired features at 64 and takes each
  batch variance as the mean of squares less the squared mean, where the reference takes the mean squared
  deviation; for real inputs these agree.
-/
import proofs.«145300_j21964462751805_1_alg».proof.Defs
import proofs.«145300_j21964462751805_1_alg».proof.Proof.Gen.Kernel
import proofs.«145300_j21964462751805_1_alg».proof.Proof.Gen.KernelIdeal
import proofs.«145300_j21964462751805_1_alg».proof.Proof.Gen.ReferenceIdeal
import proofs.«145300_j21964462751805_1_alg».proof.Proof.Gen.Pre_finite_inputs
import proofs.«145300_j21964462751805_1_alg».proof.Proof.KI.Launch
import proofs.«145300_j21964462751805_1_alg».proof.Proof.Ref.Read
import proofs.«145300_j21964462751805_1_alg».proof.Proof.Alg

noncomputable section

namespace Cert.Proof

open Idealize.ShloMosaic Idealize.SL.Sem

-- no operation was rewritten, so the two kernel programs are one program: the frame, proved for any float values, is this one's too
theorem frame_p : Cert.frame_Kernel (hKernel := Cert.Kernel.Gen.facts) (hPre_finite_inputs := Cert.Pre_finite_inputs.Gen.facts) :=
  fun m ρ _ => Eq.mp (by sl_kernel_rfl) (Cert.KernelIdeal.Hand.frame m ρ)

theorem frame_pi : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.ReferenceIdeal.Hand.run' m ρ)

theorem claim : Cert.Claim :=
  ⟨Cert.Kernel.Gen.facts, Cert.KernelIdeal.Gen.facts, Cert.ReferenceIdeal.Gen.facts, Cert.Pre_finite_inputs.Gen.facts,
    frame_p, frame_pi, frame_ri, trivial, Cert.Proof.Alg.algebraic⟩

end Cert.Proof

end
